-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_v33 : IVec S_ 1) : IVec S_ 1 :=
  let main_c_12 : IVec S_ 32 := constantI S_ 32 0#32
  let main_v34 : IVec S2x160000 32 := broadcastInDim S2x160000 ![] bcast_S_S2x160000 main_c_12
  let main_v35 : IVec S2x160000 1 := cmpi .sge main_arg1 main_v34
  let main_c_13 : IVec S_ 32 := constantI S_ 32 10000#32
  let main_v36 : IVec S2x160000 32 := broadcastInDim S2x160000 ![] bcast_S_S2x160000 main_c_13
  let main_v37 : IVec S2x160000 1 := cmpi .slt main_arg1 main_v36
  let main_v38 : IVec S2x160000 1 := andi main_v35 main_v37
  let main_c_14 : IVec S_ 1 := constantI S_ 1 1#1
  let main_v39 : IVec S_ 1 := (fun x v => Host.reduce IntOp.andi x v reducesTo_S2x160000_S_d0_1 h_S_) main_v38 main_c_14
  let main_v40 : IVec S_ 1 := andi main_v33 main_v39
  main_v40

def fn_part1 {F : FTy → Type} [FloatOps F] (main_arg1 : IVec S2x160000 32) (main_arg5 : FVec F S512 .f32) (main_arg6 : FVec F S512x64 .f32) (main_arg7 : FVec F S64 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x64 .f32 := Host.absf main_arg6
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S10000x512 .f32) (main_arg1 : IVec S2x160000 32) (main_arg2 : FVec F S512x512 .f32) (main_arg3 : FVec F S512 .f32) (main_arg4 : FVec F S512x512 .f32) (main_arg5 : FVec F S512 .f32) (main_arg6 : FVec F S512x64 .f32) (main_arg7 : FVec F S64 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_arg6 main_arg7 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S1x160000 : Shape := ⟨2, ![1, 160000]⟩
abbrev S160000 : Shape := ⟨1, ![160000]⟩
abbrev S10000 : Shape := ⟨1, ![10000]⟩
abbrev S170000 : Shape := ⟨1, ![170000]⟩
abbrev S_ : Shape := ⟨0, ![]⟩
abbrev S170000x1 : Shape := ⟨2, ![170000, 1]⟩
abbrev S10240x10240 : Shape := ⟨2, ![10240, 10240]⟩
abbrev S170000x2 : Shape := ⟨2, ![170000, 2]⟩
abbrev S10240x512 : Shape := ⟨2, ![10240, 512]⟩
abbrev S1x512 : Shape := ⟨2, ![1, 512]⟩
abbrev S1280x512 : Shape := ⟨2, ![1280, 512]⟩
abbrev S1280x1280 : Shape := ⟨2, ![1280, 1280]⟩
abbrev S1x64 : Shape := ⟨2, ![1, 64]⟩
abbrev S10240x64 : Shape := ⟨2, ![10240, 64]⟩
abbrev S1280x64 : Shape := ⟨2, ![1280, 64]⟩
abbrev S10000x64 : Shape := ⟨2, ![10000, 64]⟩
abbrev S10000x1 : Shape := ⟨2, ![10000, 1]⟩

abbrev nBuf : Space → Nat
  | .hbm => 107
  | .vmem => 37
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S10000, .i32⟩
  | .hbm, ⟨13, _⟩ => ⟨S170000, .i32⟩
  | .hbm, ⟨14, _⟩ => ⟨S170000, .i32⟩
  | .hbm, ⟨15, _⟩ => ⟨S160000, .i1⟩
  | .hbm, ⟨16, _⟩ => ⟨S160000, .f32⟩
  | .hbm, ⟨17, _⟩ => ⟨S_, .f32⟩
  | .hbm, ⟨18, _⟩ => ⟨S10000, .f32⟩
  | .hbm, ⟨19, _⟩ => ⟨S170000, .f32⟩
  | .hbm, ⟨20, _⟩ => ⟨S_, .f32⟩
  | .hbm, ⟨21, _⟩ => ⟨S10000, .f32⟩
  | .hbm, ⟨22, _⟩ => ⟨S170000x1, .i32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .i1⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000, .f32⟩
  | .hbm, ⟨31, _⟩ => ⟨S_, .f32⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S_, .i32⟩
  | .hbm, ⟨36, _⟩ => ⟨S170000, .i32⟩
  | .hbm, ⟨37, _⟩ => ⟨S170000, .i1⟩
  | .hbm, ⟨38, _⟩ => ⟨S_, .i32⟩
  | .hbm, ⟨39, _⟩ => ⟨S170000, .i32⟩
  | .hbm, ⟨40, _⟩ => ⟨S170000, .i32⟩
  | .hbm, ⟨41, _⟩ => ⟨S170000, .i32⟩
  | .hbm, ⟨42, _⟩ => ⟨S170000x1, .i32⟩
  | .hbm, ⟨43, _⟩ => ⟨S170000, .f32⟩
  | .hbm, ⟨44, _⟩ => ⟨S_, .i32⟩
  | .hbm, ⟨45, _⟩ => ⟨S170000, .i32⟩
  | .hbm, ⟨46, _⟩ => ⟨S170000, .i1⟩
  | .hbm, ⟨47, _⟩ => ⟨S_, .i32⟩
  | .hbm, ⟨48, _⟩ => ⟨S170000, .i32⟩
  | .hbm, ⟨49, _⟩ => ⟨S170000, .i32⟩
  | .hbm, ⟨50, _⟩ => ⟨S170000, .i32⟩
  | .hbm, ⟨51, _⟩ => ⟨S170000x1, .i32⟩
  | .hbm, ⟨52, _⟩ => ⟨S170000, .f32⟩
  | .hbm, ⟨53, _⟩ => ⟨S170000, .f32⟩
  | .hbm, ⟨54, _⟩ => ⟨S170000, .f32⟩
  | .hbm, ⟨55, _⟩ => ⟨S_, .f32⟩
  | .hbm, ⟨56, _⟩ => ⟨S10240x10240, .f32⟩
  | .hbm, ⟨57, _⟩ => ⟨S_, .i32⟩
  | .hbm, ⟨58, _⟩ => ⟨S170000, .i32⟩
  | .hbm, ⟨59, _⟩ => ⟨S170000, .i1⟩
  | .hbm, ⟨60, _⟩ => ⟨S_, .i32⟩
  | .hbm, ⟨61, _⟩ => ⟨S170000, .i32⟩
  | .hbm, ⟨62, _⟩ => ⟨S170000, .i32⟩
  | .hbm, ⟨63, _⟩ => ⟨S170000, .i32⟩
  | .hbm, ⟨64, _⟩ => ⟨S_, .i32⟩
  | .hbm, ⟨65, _⟩ => ⟨S170000, .i32⟩
  | .hbm, ⟨66, _⟩ => ⟨S170000, .i1⟩
  | .hbm, ⟨67, _⟩ => ⟨S_, .i32⟩
  | .hbm, ⟨68, _⟩ => ⟨S170000, .i32⟩
  | .hbm, ⟨69, _⟩ => ⟨S170000, .i32⟩
  | .hbm, ⟨70, _⟩ => ⟨S170000, .i32⟩
  | .hbm, ⟨71, _⟩ => ⟨S170000x1, .i32⟩
  | .hbm, ⟨72, _⟩ => ⟨S170000x1, .i32⟩
  | .hbm, ⟨73, _⟩ => ⟨S170000x2, .i32⟩
  | .hbm, ⟨74, _⟩ => ⟨S10240x10240, .f32⟩
  | .hbm, ⟨75, _⟩ => ⟨S10240x10240, .bf16⟩
  | .hbm, ⟨76, _⟩ => ⟨S_, .i32⟩
  | .hbm, ⟨77, _⟩ => ⟨S_, .f32⟩
  | .hbm, ⟨78, _⟩ => ⟨S10240x512, .f32⟩
  | .hbm, ⟨79, _⟩ => ⟨S_, .f32⟩
  | .hbm, ⟨80, _⟩ => ⟨S512, .f32⟩
  | .hbm, ⟨81, _⟩ => ⟨S1x512, .f32⟩
  | .hbm, ⟨82, _⟩ => ⟨S10240x512, .bf16⟩
  | .hbm, ⟨83, _⟩ => ⟨S1x512, .f32⟩
  | .hbm, ⟨84, _⟩ => ⟨S10240x512, .f32⟩
  | .hbm, ⟨85, _⟩ => ⟨S1x512, .f32⟩
  | .hbm, ⟨86, _⟩ => ⟨S10240x512, .bf16⟩
  | .hbm, ⟨87, _⟩ => ⟨S1x512, .f32⟩
  | .hbm, ⟨88, _⟩ => ⟨S10240x512, .f32⟩
  | .hbm, ⟨89, _⟩ => ⟨S1x64, .f32⟩
  | .hbm, ⟨90, _⟩ => ⟨S10240x64, .f32⟩
  | .hbm, ⟨91, _⟩ => ⟨S10000x64, .f32⟩
  | .hbm, ⟨92, _⟩ => ⟨S_, .f32⟩
  | .hbm, ⟨93, _⟩ => ⟨S10000, .f32⟩
  | .hbm, ⟨94, _⟩ => ⟨S_, .f32⟩
  | .hbm, ⟨95, _⟩ => ⟨S10000, .f32⟩
  | .hbm, ⟨96, _⟩ => ⟨S10000, .f32⟩
  | .hbm, ⟨97, _⟩ => ⟨S10000x1, .f32⟩
  | .hbm, ⟨98, _⟩ => ⟨S10000x64, .f32⟩
  | .hbm, ⟨99, _⟩ => ⟨S10000x64, .f32⟩
  | .hbm, ⟨100, _⟩ => ⟨S10000x64, .f32⟩
  | .hbm, ⟨101, _⟩ => ⟨S_, .f32⟩
  | .hbm, ⟨102, _⟩ => ⟨S10000, .f32⟩
  | .hbm, ⟨103, _⟩ => ⟨S10000x1, .f32⟩
  | .hbm, ⟨104, _⟩ => ⟨S10000x1, .f32⟩
  | .hbm, ⟨105, _⟩ => ⟨S10000x64, .f32⟩
  | .hbm, ⟨106, _⟩ => ⟨S10000x64, .f32⟩
  | .local _ .vmem, ⟨0, _⟩ => ⟨S1280x512, .f32⟩
  | .local _ .vmem, ⟨1, _⟩ => ⟨S1280x512, .f32⟩
  | .local _ .vmem, ⟨2, _⟩ => ⟨S512x512, .f32⟩
  | .local _ .vmem, ⟨3, _⟩ => ⟨S1x512, .f32⟩
  | .local _ .vmem, ⟨4, _⟩ => ⟨S1280x512, .bf16⟩
  | .local _ .vmem, ⟨5, _⟩ => ⟨S1280x512, .bf16⟩
  | .local _ .vmem, ⟨6, _⟩ => ⟨S1280x512, .f32⟩
  | .local _ .vmem, ⟨7, _⟩ => ⟨S1280x1280, .bf16⟩
  | .local _ .vmem, ⟨8, _⟩ => ⟨S1280x1280, .bf16⟩
  | .local _ .vmem, ⟨9, _⟩ => ⟨S1280x512, .bf16⟩
  | .local _ .vmem, ⟨10, _⟩ => ⟨S1280x512, .bf16⟩
  | .local _ .vmem, ⟨11, _⟩ => ⟨S1x512, .f32⟩
  | .local _ .vmem, ⟨12, _⟩ => ⟨S1280x512, .f32⟩
  | .local _ .vmem, ⟨13, _⟩ => ⟨S1280x512, .f32⟩
  | .local _ .vmem, ⟨14, _⟩ => ⟨S1280x512, .f32⟩
  | .local _ .vmem, ⟨15, _⟩ => ⟨S1280x512, .f32⟩
  | .local _ .vmem, ⟨16, _⟩ => ⟨S1280x512, .f32⟩
  | .local _ .vmem, ⟨17, _⟩ => ⟨S512x512, .f32⟩
  | .local _ .vmem, ⟨18, _⟩ => ⟨S1x512, .f32⟩
  | .local _ .vmem, ⟨19, _⟩ => ⟨S1280x512, .bf16⟩
  | .local _ .vmem, ⟨20, _⟩ => ⟨S1280x512, .bf16⟩
  | .local _ .vmem, ⟨21, _⟩ => ⟨S1280x512, .f32⟩
  | .local _ .vmem, ⟨22, _⟩ => ⟨S1280x1280, .bf16⟩
  | .local _ .vmem, ⟨23, _⟩ => ⟨S1280x1280, .bf16⟩
  | .local _ .vmem, ⟨24, _⟩ => ⟨S1280x512, .bf16⟩
  | .local _ .vmem, ⟨25, _⟩ => ⟨S1280x512, .bf16⟩
  | .local _ .vmem, ⟨26, _⟩ => ⟨S1x512, .f32⟩
  | .local _ .vmem, ⟨27, _⟩ => ⟨S1280x512, .f32⟩
  | .local _ .vmem, ⟨28, _⟩ => ⟨S1280x512, .f32⟩
  | .local _ .vmem, ⟨29, _⟩ => ⟨S1280x512, .f32⟩
  | .local _ .vmem, ⟨30, _⟩ => ⟨S1280x512, .f32⟩
  | .local _ .vmem, ⟨31, _⟩ => ⟨S1280x512, .f32⟩
  | .local _ .vmem, ⟨32, _⟩ => ⟨S512x64, .f32⟩
  | .local _ .vmem, ⟨33, _⟩ => ⟨S1x64, .f32⟩
  | .local _ .vmem, ⟨34, _⟩ => ⟨S1280x64, .f32⟩
  | .local _ .vmem, ⟨35, _⟩ => ⟨S1280x64, .f32⟩
  | .local _ .vmem, ⟨36, _⟩ => ⟨S1280x64, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_12 : Ref sig .tc := ⟨.hbm, 76, rfl⟩
abbrev main_call1_v0 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v65 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1280x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1280x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1280x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 1], ![false, false]⟩

def k2_cond2 (i : grid2.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1280x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1280x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1280x1280 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1280x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1280x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![8, 1], ![false, false]⟩

def k4_cond2 (i : grid4.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1280x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S512x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1280x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S10000 : S_.BroadcastsInDim S10000 (![] : Fin 0 → Fin S10000.rank)
  bcast_S170000_S170000x1_0 : S170000.BroadcastsInDim S170000x1 (![0] : Fin 1 → Fin S170000x1.rank)
  bcast_S_S170000 : S_.BroadcastsInDim S170000 (![] : Fin 0 → Fin S170000.rank)
  bcast_S_S10240x10240 : S_.BroadcastsInDim S10240x10240 (![] : Fin 0 → Fin S10240x10240.rank)
  concatenates_S170000x1_S170000x1_S170000x2_d1 : Shape.Concatenates [S170000x1, S170000x1] S170000x2 1
  bitsLt_bf16_f32 : FTy.bits .bf16 < FTy.bits .f32
  pads_S10000x512_S10240x512_02400_000 : S10000x512.Pads (![0, 0] : Fin 2 → Nat) ![240, 0] ![0, 0] S10240x512
  h_S_ : 0 < S_.numel
  bcast_S_S512 : S_.BroadcastsInDim S512 (![] : Fin 0 → Fin S512.rank)
  shapeCasts_S512_S1x512 : S512.ShapeCasts S1x512
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1280x512 : S1x512.Broadcasts S1280x512
  packedbf16_S1280x512_S1280x512_0_0 : (Rect.unit (s := S1280x512) ![0, 0] S1280x512.size inb_S1280x512_S1280x512_0_0).PackedRows (EltTy.packing .bf16)
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  shapeCasts_S64_S1x64 : S64.ShapeCasts S1x64
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1280x64 : S1x64.Broadcasts S1280x64
  slices_S10240x64_S10000x64_0_0 : S10240x64.Slices ![0, 0] S10000x64
  reducesTo_S10000x64_S10000_d1 : S10000x64.ReducesTo [1] S10000
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  scatter_S10240x10240_S170000x2_S170000_n_01_01_1_wf : ScatterDims.WF S10240x10240 S170000x2 S170000 [] [0, 1] [0, 1] 1
  dot_S1280x512_S512x512_S1280x512_1_0_0_1_n_n_wf : DotDims.WF S1280x512 S512x512 S1280x512 [1] [0] [0] [1] [] []
  dot_S1280x1280_S1280x512_S1280x512_1_0_0_1_n_n_wf : DotDims.WF S1280x1280 S1280x512 S1280x512 [1] [0] [0] [1] [] []
  dot_S1280x512_S512x64_S1280x64_1_0_0_1_n_n_wf : DotDims.WF S1280x512 S512x64 S1280x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x512.size a ≤ S10240x512.size a
  hwx0_0 : ∀ i : grid0.Coords, EltTy.bits .f32 = 32 ∨ (Rect.block (s := S10240x512) S1280x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x512.size a ≤ S10240x512.size a
  hwx0_3 : ∀ i : grid0.Coords, EltTy.bits .bf16 = 32 ∨ (Rect.block (s := S10240x512) S1280x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x1280.size a ≤ S10240x10240.size a
  hwx1_0 : ∀ i : grid1.Coords, EltTy.bits .bf16 = 32 ∨ (Rect.block (s := S10240x10240) S1280x1280.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x512.size a ≤ S10240x512.size a
  hwx1_1 : ∀ i : grid1.Coords, EltTy.bits .bf16 = 32 ∨ (Rect.block (s := S10240x512) S1280x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1280x512.size a ≤ S10240x512.size a
  hwx1_3 : ∀ i : grid1.Coords, EltTy.bits .f32 = 32 ∨ (Rect.block (s := S10240x512) S1280x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x512.size a ≤ S10240x512.size a
  hwx2_0 : ∀ i : grid2.Coords, EltTy.bits .f32 = 32 ∨ (Rect.block (s := S10240x512) S1280x512.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1280x512.size a ≤ S10240x512.size a
  hwx2_3 : ∀ i : grid2.Coords, EltTy.bits .bf16 = 32 ∨ (Rect.block (s := S10240x512) S1280x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1280x1280.size a ≤ S10240x10240.size a
  hwx3_0 : ∀ i : grid3.Coords, EltTy.bits .bf16 = 32 ∨ (Rect.block (s := S10240x10240) S1280x1280.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1280x512.size a ≤ S10240x512.size a
  hwx3_1 : ∀ i : grid3.Coords, EltTy.bits .bf16 = 32 ∨ (Rect.block (s := S10240x512) S1280x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1280x512.size a ≤ S10240x512.size a
  hwx3_3 : ∀ i : grid3.Coords, EltTy.bits .f32 = 32 ∨ (Rect.block (s := S10240x512) S1280x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1280x512.size a ≤ S10240x512.size a
  hwx4_0 : ∀ i : grid4.Coords, EltTy.bits .f32 = 32 ∨ (Rect.block (s := S10240x512) S1280x512.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S512x64.size a ≤ S512x64.size a
  hwx4_1 : ∀ i : grid4.Coords, EltTy.bits .f32 = 32 ∨ (Rect.block (s := S512x64) S512x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1280x64.size a ≤ S10240x64.size a
  hwx4_3 : ∀ i : grid4.Coords, EltTy.bits .f32 = 32 ∨ (Rect.block (s := S10240x64) S1280x64.size (cc4_transform_3 i) (hinb4_3 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def dot_S1280x512_S512x512_S1280x512_1_0_0_1_n_n : DotDims S1280x512 S512x512 S1280x512 where
  lhsContracting := [1]
  rhsContracting := [0]
  lhsNonContracting := [0]
  rhsNonContracting := [1]
  lhsBatch := []
  rhsBatch := []
  wf := dot_S1280x512_S512x512_S1280x512_1_0_0_1_n_n_wf
def dot_S1280x1280_S1280x512_S1280x512_1_0_0_1_n_n : DotDims S1280x1280 S1280x512 S1280x512 where
  lhsContracting := [1]
  rhsContracting := [0]
  lhsNonContracting := [0]
  rhsNonContracting := [1]
  lhsBatch := []
  rhsBatch := []
  wf := dot_S1280x1280_S1280x512_S1280x512_1_0_0_1_n_n_wf
def dot_S1280x512_S512x64_S1280x64_1_0_0_1_n_n : DotDims S1280x512 S512x64 S1280x64 where
  lhsContracting := [1]
  rhsContracting := [0]
  lhsNonContracting := [0]
  rhsNonContracting := [1]
  lhsBatch := []
  rhsBatch := []
  wf := dot_S1280x512_S512x64_S1280x64_1_0_0_1_n_n_wf

abbrev win0_0 : Pipeline.Window sig grid0 :=
  Pipeline.Window.ofSpec (Memref.whole main_v52) S1280x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S1280x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v51) S1280x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1280x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1280x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v57) S1280x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x512.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1280x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v51) S1280x1280.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1280x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1280x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v61) S1280x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S512x64.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S1280x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S1x160000 : Shape := ⟨2, ![1, 160000]⟩
abbrev S160000 : Shape := ⟨1, ![160000]⟩
abbrev S10000 : Shape := ⟨1, ![10000]⟩
abbrev S170000 : Shape := ⟨1, ![170000]⟩
abbrev S_ : Shape := ⟨0, ![]⟩
abbrev S170000x1 : Shape := ⟨2, ![170000, 1]⟩
abbrev S170000x512 : Shape := ⟨2, ![170000, 512]⟩
abbrev S1x512 : Shape := ⟨2, ![1, 512]⟩
abbrev S10000x64 : Shape := ⟨2, ![10000, 64]⟩
abbrev S1x64 : Shape := ⟨2, ![1, 64]⟩
abbrev S10000x1 : Shape := ⟨2, ![10000, 1]⟩

abbrev nBuf : Space → Nat
  | .hbm => 152
  | .vmem => 0
  | .smem => 0
  | _ => 0

abbrev hbmTy0_0 (i : Nat) : BufTy := match i % 128 with
  | 0 => ⟨S10000x512, .f32⟩
  | 1 => ⟨S2x160000, .i32⟩
  | 2 => ⟨S512x512, .f32⟩
  | 3 => ⟨S512, .f32⟩
  | 4 => ⟨S512x512, .f32⟩
  | 5 => ⟨S512, .f32⟩
  | 6 => ⟨S512x64, .f32⟩
  | 7 => ⟨S64, .f32⟩
  | 8 => ⟨S1x160000, .i32⟩
  | 9 => ⟨S160000, .i32⟩
  | 10 => ⟨S1x160000, .i32⟩
  | 11 => ⟨S160000, .i32⟩
  | 12 => ⟨S10000, .i32⟩
  | 13 => ⟨S170000, .i32⟩
  | 14 => ⟨S170000, .i32⟩
  | 15 => ⟨S160000, .i1⟩
  | 16 => ⟨S160000, .f32⟩
  | 17 => ⟨S_, .f32⟩
  | 18 => ⟨S10000, .f32⟩
  | 19 => ⟨S170000, .f32⟩
  | 20 => ⟨S10000x512, .f32⟩
  | 21 => ⟨S_, .f32⟩
  | 22 => ⟨S10000, .f32⟩
  | 23 => ⟨S170000x1, .i32⟩
  | 24 => ⟨S10000, .f32⟩
  | 25 => ⟨S_, .f32⟩
  | 26 => ⟨S10000, .f32⟩
  | 27 => ⟨S10000, .i1⟩
  | 28 => ⟨S_, .f32⟩
  | 29 => ⟨S10000, .f32⟩
  | 30 => ⟨S10000, .f32⟩
  | 31 => ⟨S10000, .f32⟩
  | 32 => ⟨S_, .f32⟩
  | 33 => ⟨S_, .f32⟩
  | 34 => ⟨S10000, .f32⟩
  | 35 => ⟨S10000, .f32⟩
  | 36 => ⟨S_, .i32⟩
  | 37 => ⟨S170000, .i32⟩
  | 38 => ⟨S170000, .i1⟩
  | 39 => ⟨S_, .i32⟩
  | 40 => ⟨S170000, .i32⟩
  | 41 => ⟨S170000, .i32⟩
  | 42 => ⟨S170000, .i32⟩
  | 43 => ⟨S170000x1, .i32⟩
  | 44 => ⟨S170000, .f32⟩
  | 45 => ⟨S_, .i32⟩
  | 46 => ⟨S170000, .i32⟩
  | 47 => ⟨S170000, .i1⟩
  | 48 => ⟨S_, .i32⟩
  | 49 => ⟨S170000, .i32⟩
  | 50 => ⟨S170000, .i32⟩
  | 51 => ⟨S170000, .i32⟩
  | 52 => ⟨S170000x1, .i32⟩
  | 53 => ⟨S170000, .f32⟩
  | 54 => ⟨S170000, .f32⟩
  | 55 => ⟨S170000, .f32⟩
  | 56 => ⟨S_, .i32⟩
  | 57 => ⟨S170000, .i32⟩
  | 58 => ⟨S170000, .i1⟩
  | 59 => ⟨S_, .i32⟩
  | 60 => ⟨S170000, .i32⟩
  | 61 => ⟨S170000, .i32⟩
  | 62 => ⟨S170000, .i32⟩
  | 63 => ⟨S170000x1, .i32⟩
  | 64 => ⟨S170000x512, .f32⟩
  | 65 => ⟨S170000x1, .f32⟩
  | 66 => ⟨S170000x512, .f32⟩
  | 67 => ⟨S170000x512, .f32⟩
  | 68 => ⟨S_, .f32⟩
  | 69 => ⟨S10000x512, .f32⟩
  | 70 => ⟨S170000x1, .i32⟩
  | 71 => ⟨S10000x512, .f32⟩
  | 72 => ⟨S1x512, .f32⟩
  | 73 => ⟨S10000x512, .f32⟩
  | 74 => ⟨S10000x512, .f32⟩
  | 75 => ⟨S_, .f32⟩
  | 76 => ⟨S10000x512, .f32⟩
  | 77 => ⟨S10000x512, .f32⟩
  | 78 => ⟨S10000x512, .f32⟩
  | 79 => ⟨S_, .f32⟩
  | 80 => ⟨S10000, .f32⟩
  | 81 => ⟨S170000x1, .i32⟩
  | 82 => ⟨S10000, .f32⟩
  | 83 => ⟨S_, .f32⟩
  | 84 => ⟨S10000, .f32⟩
  | 85 => ⟨S10000, .i1⟩
  | 86 => ⟨S_, .f32⟩
  | 87 => ⟨S10000, .f32⟩
  | 88 => ⟨S10000, .f32⟩
  | 89 => ⟨S10000, .f32⟩
  | 90 => ⟨S_, .f32⟩
  | 91 => ⟨S_, .f32⟩
  | 92 => ⟨S10000, .f32⟩
  | 93 => ⟨S10000, .f32⟩
  | 94 => ⟨S_, .i32⟩
  | 95 => ⟨S170000, .i32⟩
  | 96 => ⟨S170000, .i1⟩
  | 97 => ⟨S_, .i32⟩
  | 98 => ⟨S170000, .i32⟩
  | 99 => ⟨S170000, .i32⟩
  | 100 => ⟨S170000, .i32⟩
  | 101 => ⟨S170000x1, .i32⟩
  | 102 => ⟨S170000, .f32⟩
  | 103 => ⟨S_, .i32⟩
  | 104 => ⟨S170000, .i32⟩
  | 105 => ⟨S170000, .i1⟩
  | 106 => ⟨S_, .i32⟩
  | 107 => ⟨S170000, .i32⟩
  | 108 => ⟨S170000, .i32⟩
  | 109 => ⟨S170000, .i32⟩
  | 110 => ⟨S170000x1, .i32⟩
  | 111 => ⟨S170000, .f32⟩
  | 112 => ⟨S170000, .f32⟩
  | 113 => ⟨S170000, .f32⟩
  | 114 => ⟨S_, .i32⟩
  | 115 => ⟨S170000, .i32⟩
  | 116 => ⟨S170000, .i1⟩
  | 117 => ⟨S_, .i32⟩
  | 118 => ⟨S170000, .i32⟩
  | 119 => ⟨S170000, .i32⟩
  | 120 => ⟨S170000, .i32⟩
  | 121 => ⟨S170000x1, .i32⟩
  | 122 => ⟨S170000x512, .f32⟩
  | 123 => ⟨S170000x1, .f32⟩
  | 124 => ⟨S170000x512, .f32⟩
  | 125 => ⟨S170000x512, .f32⟩
  | 126 => ⟨S_, .f32⟩
  | 127 => ⟨S10000x512, .f32⟩
  | _ => ⟨S10000x512, .f32⟩

abbrev hbmTy0_1 (i : Nat) : BufTy := match i % 128 with
  | 0 => ⟨S170000x1, .i32⟩
  | 1 => ⟨S10000x512, .f32⟩
  | 2 => ⟨S1x512, .f32⟩
  | 3 => ⟨S10000x512, .f32⟩
  | 4 => ⟨S10000x512, .f32⟩
  | 5 => ⟨S10000x64, .f32⟩
  | 6 => ⟨S1x64, .f32⟩
  | 7 => ⟨S10000x64, .f32⟩
  | 8 => ⟨S10000x64, .f32⟩
  | 9 => ⟨S_, .f32⟩
  | 10 => ⟨S10000, .f32⟩
  | 11 => ⟨S_, .f32⟩
  | 12 => ⟨S10000, .f32⟩
  | 13 => ⟨S10000, .f32⟩
  | 14 => ⟨S10000x1, .f32⟩
  | 15 => ⟨S10000x64, .f32⟩
  | 16 => ⟨S10000x64, .f32⟩
  | 17 => ⟨S10000x64, .f32⟩
  | 18 => ⟨S_, .f32⟩
  | 19 => ⟨S10000, .f32⟩
  | 20 => ⟨S10000x1, .f32⟩
  | 21 => ⟨S10000x1, .f32⟩
  | 22 => ⟨S10000x64, .f32⟩
  | 23 => ⟨S10000x64, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_16 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_18 : Ref sig .tc := ⟨.hbm, 114, rfl⟩
abbrev main_v80 : Ref sig .tc := ⟨.hbm, 115, rfl⟩
abbrev main_v81 : Ref sig .tc := ⟨.hbm, 116, rfl⟩
abbrev main_c_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_20 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_call3_cst : Ref sig .tc := ⟨.hbm, 137, rfl⟩
abbrev main_call3_v0 : Ref sig .tc := ⟨.hbm, 138, rfl⟩
abbrev main_call3_cst_0 : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_v6 : Ref sig .tc := ⟨.hbm, 145, rfl⟩
abbrev main_call3_cst_1 : Ref sig .tc := ⟨.hbm, 146, rfl⟩
abbrev main_call3_v7 : Ref sig .tc := ⟨.hbm, 147, rfl⟩
abbrev main_call3_v8 : Ref sig .tc := ⟨.hbm, 148, rfl⟩
abbrev main_call3_v9 : Ref sig .tc := ⟨.hbm, 149, rfl⟩
abbrev main_call3_v10 : Ref sig .tc := ⟨.hbm, 150, rfl⟩
abbrev main_v100 : Ref sig .tc := ⟨.hbm, 151, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S10000 : S_.BroadcastsInDim S10000 (![] : Fin 0 → Fin S10000.rank)
  bcast_S170000_S170000x1_0 : S170000.BroadcastsInDim S170000x1 (![0] : Fin 1 → Fin S170000x1.rank)
  bcast_S_S170000 : S_.BroadcastsInDim S170000 (![] : Fin 0 → Fin S170000.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x512_S512x512_S10000x512_1_0_0_1_n_n_wf : DotDims.WF S10000x512 S512x512 S10000x512 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S10000x512_S512x64_S10000x64_1_0_0_1_n_n_wf : DotDims.WF S10000x512 S512x64 S10000x64 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf

class Facts : Prop extends Facts₀ where

variable [Facts]
-- ==== Proof.KB.R0.lean ====
import proofs.«408842_j29429115912637_1_alg».proof.Proof.Gen.Kernel.Launch
import proofs.«408842_j29429115912637_1_alg».proof.Proof.Gen.Kernel.Skeleton
import proofs.«408842_j29429115912637_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop := (Scalar.cmpi .ne (Scalar.extui (Scalar.cmpi .eq (BitVec.ofNat 32 (i 1).val) 0#32)) 0#32) = 1#1

abbrev cond0_1 (i : grid0.Coords) : Prop := k0_cond2 i = 1#1

theorem hcond0_0 : ∀ t : Fin cfg0.N, cond0_0 (grid0.coords t) :=
  (by decide +kernel : ∀ t : Fin grid0.N, cond0_0 (grid0.coords t))
theorem hcond0_1 : ∀ t : Fin cfg0.N, cond0_1 (grid0.coords t) :=
  (by decide +kernel : ∀ t : Fin grid0.N, cond0_1 (grid0.coords t))

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

abbrev VO0 : View sig .tc .vmem S1280x512 .bf16 := (Memref.whole cc0_stg3_0 : Memref sig .tc .vmem S1280x512 .bf16).view
abbrev ms0_0 (t : Fin cfg0.N) : Memref sig .tc .vmem S1280x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x512 .bf16 := win0_3.stage (cfg0.slots t 3)
abbrev hs0_3 (t : Fin cfg0.N) : (ms0_3 t).IsWhole := hstage0_3 ((cfg0.slots t 3).cast nbuf0_3)

abbrev scM0 : Memref sig .tc .vmem S1280x512 .f32 := Memref.whole cc0_scratch0
abbrev VS0 : View sig .tc .vmem S1280x512 .f32 := scM0.view

theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

-- One statement of the body serves every point: its memrefs, its guards and the blocks it reads are parameters.
section
variable (c : Dev nD) (i : grid0.Coords) (arg2 : Memref sig .tc .vmem S1280x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1280x512 .bf16) (harg5 : arg5.IsWhole) (arg6 : Memref sig .tc .vmem S1280x512 .f32) (harg6 : arg6.IsWhole) (hc0 : cond0_0 i) (hc1 : cond0_1 i)
    (x0 : Vec F S1280x512 .f32) (x1 : Vec F S512x512 .f32) (x2 : Vec F S1x512 .f32)

set_option maxHeartbeats 4000000 in

noncomputable def kernelRun0 :
    Σ' (L3 : List (View.Piece (Elt F) S1280x512 .bf16)), { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg2 harg2 arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

theorem cover0_3 (y : S1280x512.Idx) :
    ∃ pc ∈ (kernelRun0 c i arg2 harg2 arg3 harg3 arg4 harg4 arg5 harg5 arg6 harg6 hc0 hc1 x0 x1 x2).1, y ∈ pc.1.set :=
  View.cover_of_tiledL (kernelRun0 c i arg2 harg2 arg3 harg3 arg4 harg4 arg5 harg5 arg6 harg6 hc0 hc1 x0 x1 x2).1 S1280x512.size (by sl_kernel_rfl) y

def out0 : Vec F S1280x512 .bf16 :=
  VO0.read (Elt F) (VO0.writes (Elt F) VO0.junk (kernelRun0 c i arg2 harg2 arg3 harg3 arg4 harg4 arg5 harg5 arg6 harg6 hc0 hc1 x0 x1 x2).1)

end

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def outAt0 (c : Dev nD) (t : Fin cfg0.N) : Vec F S1280x512 .bf16 :=
  out0 c (grid0.coords t) (ms0_0 t) (hs0_0 t) (ms0_1 t) (hs0_1 t) (ms0_2 t) (hs0_2 t) (ms0_3 t) (hs0_3 t) scM0 (Memref.isWhole_whole _) (hcond0_0 t) (hcond0_1 t) (iblk0 V c 0 t) (iblk0 V c 1 t) (iblk0 V c 2 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Pipeline.ΦA spec0 c from rfl, show (dat0 V c).Φ t.castSucc = Pipeline.ΦA spec0 c from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  unfold outAt0 out0; (try dsimp only)
  rw [PhiA0_eq]
  iintro ⟨⟨⟨HS, Hrest⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Hand

end
-- ==== Proof.KB.R1.lean ====
import proofs.«408842_j29429115912637_1_alg».proof.Proof.Gen.Kernel.Launch
import proofs.«408842_j29429115912637_1_alg».proof.Proof.Gen.Kernel.Skeleton
import proofs.«408842_j29429115912637_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 1).val) 0#32)) 0#32) = 1#1

abbrev cond1_1 (i : grid1.Coords) : Prop := k1_cond2 i = 1#1
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev VO1 : View sig .tc .vmem S1280x512 .f32 := (Memref.whole cc1_stg3_0 : Memref sig .tc .vmem S1280x512 .f32).view
abbrev ms1_0 (t : Fin cfg1.N) : Memref sig .tc .vmem S1280x1280 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x512 .f32 := win1_3.stage (cfg1.slots t 3)
abbrev hs1_3 (t : Fin cfg1.N) : (ms1_3 t).IsWhole := hstage1_3 ((cfg1.slots t 3).cast nbuf1_3)

abbrev scM1 : Memref sig .tc .vmem S1280x512 .f32 := Memref.whole cc1_scratch0
abbrev VS1 : View sig .tc .vmem S1280x512 .f32 := scM1.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

-- The body's three cases (first, middle and last contraction step) run on the same memrefs; the guards and what the accumulator holds on entry differ.
section
variable (c : Dev nD) (i : grid1.Coords) (arg2 : Memref sig .tc .vmem S1280x1280 .bf16) (harg2 : arg2.IsWhole) (arg3 : Memref sig .tc .vmem S1280x512 .bf16) (harg3 : arg3.IsWhole) (arg4 : Memref sig .tc .vmem S1x512 .f32) (harg4 : arg4.IsWhole) (arg5 : Memref sig .tc .vmem S1280x512 .f32) (harg5 : arg5.IsWhole) (arg6 : Memref sig .tc .vmem S1280x512 .f32) (harg6 : arg6.IsWhole)

set_option maxHeartbeats 4000000 in

noncomputable def kernelRun1_A (hc0 : cond1_0 i) (hc1 : ¬cond1_1 i)
    (x0 : Vec F S1280x1280 .bf16) (x1 : Vec F S1280x512 .bf16) :
    { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg2 harg2 arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in

noncomputable def kernelRun1_B (hc0 : ¬cond1_0 i) (hc1 : ¬cond1_1 i)
    (x0 : Vec F S1280x1280 .bf16) (x1 : Vec F S1280x512 .bf16) (xs : Vec F S1280x512 .f32) :
    { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg2 harg2 arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in

noncomputable def kernelRun1_C (hc0 : ¬cond1_0 i) (hc1 : cond1_1 i)
    (x0 : Vec F S1280x1280 .bf16) (x1 : Vec F S1280x512 .bf16) (x2 : Vec F S1x512 .f32) (xs : Vec F S1280x512 .f32) :
    Σ' (L3 : List (View.Piece (Elt F) S1280x512 .f32)), { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg2 harg2 arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

theorem scover1_A (hc0 : cond1_0 i) (hc1 : ¬cond1_1 i)
    (x0 : Vec F S1280x1280 .bf16) (x1 : Vec F S1280x512 .bf16) (y : S1280x512.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S1280x512.size (by sl_kernel_rfl) y

def sout1_A (hc0 : cond1_0 i) (hc1 : ¬cond1_1 i)
    (x0 : Vec F S1280x1280 .bf16) (x1 : Vec F S1280x512 .bf16) : Vec F S1280x512 .f32 :=
  VS1.read (Elt F) (VS1.writes (Elt F) VS1.junk (kernelRun1_A c i arg2 harg2 arg3 harg3 arg4 harg4 arg5 harg5 arg6 harg6 hc0 hc1 x0 x1).1)

theorem scover1_B (hc0 : ¬cond1_0 i) (hc1 : ¬cond1_1 i)
    (x0 : Vec F S1280x1280 .bf16) (x1 : Vec F S1280x512 .bf16) (xs : Vec F S1280x512 .f32) (y : S1280x512.Idx) :
    ∃ pc ∈ (kernelRun1_B c i arg2 harg2 arg3 harg3 arg4 harg4 arg5 harg5 arg6 harg6 hc0 hc1 x0 x1 xs).1, y ∈ pc.1.set :=
  View.cover_of_tiledL (kernelRun1_B c i arg2 harg2 arg3 harg3 arg4 harg4 arg5 harg5 arg6 harg6 hc0 hc1 x0 x1 xs).1 S1280x512.size (by sl_kernel_rfl) y

def sout1_B (hc0 : ¬cond1_0 i) (hc1 : ¬cond1_1 i)
    (x0 : Vec F S1280x1280 .bf16) (x1 : Vec F S1280x512 .bf16) (xs : Vec F S1280x512 .f32) : Vec F S1280x512 .f32 :=
  VS1.read (Elt F) (VS1.writes (Elt F) VS1.junk (kernelRun1_B c i arg2 harg2 arg3 harg3 arg4 harg4 arg5 harg5 arg6 harg6 hc0 hc1 x0 x1 xs).1)

theorem cover1_C (hc0 : ¬cond1_0 i) (hc1 : cond1_1 i)
    (x0 : Vec F S1280x1280 .bf16) (x1 : Vec F S1280x512 .bf16) (x2 : Vec F S1x512 .f32) (xs : Vec F S1280x512 .f32) (y : S1280x512.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S1280x512.size (by sl_kernel_rfl) y

def out1_C (hc0 : ¬cond1_0 i) (hc1 : cond1_1 i)
    (x0 : Vec F S1280x1280 .bf16) (x1 : Vec F S1280x512 .bf16) (x2 : Vec F S1x512 .f32) (xs : Vec F S1280x512 .f32) : Vec F S1280x512 .f32 :=
  VO1.read (Elt F) (VO1.writes (Elt F) VO1.junk (kernelRun1_C c i arg2 harg2 arg3 harg3 arg4 harg4 arg5 harg5 arg6 harg6 hc0 hc1 x0 x1 x2 xs).1)

theorem scover1_C (hc0 : ¬cond1_0 i) (hc1 : cond1_1 i)
    (x0 : Vec F S1280x1280 .bf16) (x1 : Vec F S1280x512 .bf16) (x2 : Vec F S1x512 .f32) (xs : Vec F S1280x512 .f32) (y : S1280x512.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S1280x512.size (by sl_kernel_rfl) y

def sout1_C (hc0 : ¬cond1_0 i) (hc1 : cond1_1 i)
    (x0 : Vec F S1280x1280 .bf16) (x1 : Vec F S1280x512 .bf16) (x2 : Vec F S1x512 .f32) (xs : Vec F S1280x512 .f32) : Vec F S1280x512 .f32 :=
  VS1.read (Elt F) (VS1.writes (Elt F) VS1.junk (kernelRun1_C c i arg2 harg2 arg3 harg3 arg4 harg4 arg5 harg5 arg6 harg6 hc0 hc1 x0 x1 x2 xs).2.1)

end

def outIdle1 : Vec F S1280x512 .f32 := VO1.read (Elt F) (VO1.writes (Elt F) VO1.junk [])

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def outsAt1 (c : Dev nD) : (n : ℕ) → n < cfg1.N → Vec F S1280x512 .f32 × Vec F S1280x512 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (outIdle1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (outIdle1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hrest⟩, Hg⟩
  isplitl [HS Hrest]
  · isplitl [HS]
    · iexists _; iexact HS
    iexact Hrest
  iexact Hg

end Cert.Kernel.Hand

end
-- ==== Proof.KB.R2.lean ====
import proofs.«408842_j29429115912637_1_alg».proof.Proof.Gen.Kernel.Launch
import proofs.«408842_j29429115912637_1_alg».proof.Proof.Gen.Kernel.Skeleton
import proofs.«408842_j29429115912637_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 1).val) 0#32)) 0#32) = 1#1

abbrev cond2_1 (i : grid2.Coords) : Prop := k2_cond2 i = 1#1

theorem hcond2_0 : ∀ t : Fin cfg2.N, cond2_0 (grid2.coords t) :=
  (by decide +kernel : ∀ t : Fin grid2.N, cond2_0 (grid2.coords t))
theorem hcond2_1 : ∀ t : Fin cfg2.N, cond2_1 (grid2.coords t) :=
  (by decide +kernel : ∀ t : Fin grid2.N, cond2_1 (grid2.coords t))

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

abbrev VO2 : View sig .tc .vmem S1280x512 .bf16 := (Memref.whole cc2_stg3_0 : Memref sig .tc .vmem S1280x512 .bf16).view
abbrev ms2_0 (t : Fin cfg2.N) : Memref sig .tc .vmem S1280x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1280x512 .bf16 := win2_3.stage (cfg2.slots t 3)
abbrev hs2_3 (t : Fin cfg2.N) : (ms2_3 t).IsWhole := hstage2_3 ((cfg2.slots t 3).cast nbuf2_3)

abbrev scM2 : Memref sig .tc .vmem S1280x512 .f32 := Memref.whole cc2_scratch0
abbrev VS2 : View sig .tc .vmem S1280x512 .f32 := scM2.view

theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

-- One statement of the body serves every point: its memrefs, its guards and the blocks it reads are parameters.
section
variable (c : Dev nD) (i : grid2.Coords) (arg2 : Memref sig .tc .vmem S1280x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1280x512 .bf16) (harg5 : arg5.IsWhole) (arg6 : Memref sig .tc .vmem S1280x512 .f32) (harg6 : arg6.IsWhole) (hc0 : cond2_0 i) (hc1 : cond2_1 i)
    (x0 : Vec F S1280x512 .f32) (x1 : Vec F S512x512 .f32) (x2 : Vec F S1x512 .f32)

set_option maxHeartbeats 4000000 in

noncomputable def kernelRun2 :
    Σ' (L3 : List (View.Piece (Elt F) S1280x512 .bf16)), { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg2 harg2 arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

theorem cover2_3 (y : S1280x512.Idx) :
    ∃ pc ∈ (kernelRun2 c i arg2 harg2 arg3 harg3 arg4 harg4 arg5 harg5 arg6 harg6 hc0 hc1 x0 x1 x2).1, y ∈ pc.1.set :=
  View.cover_of_tiledL (kernelRun2 c i arg2 harg2 arg3 harg3 arg4 harg4 arg5 harg5 arg6 harg6 hc0 hc1 x0 x1 x2).1 S1280x512.size (by sl_kernel_rfl) y

def out2 : Vec F S1280x512 .bf16 :=
  VO2.read (Elt F) (VO2.writes (Elt F) VO2.junk (kernelRun2 c i arg2 harg2 arg3 harg3 arg4 harg4 arg5 harg5 arg6 harg6 hc0 hc1 x0 x1 x2).1)

end

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def outAt2 (c : Dev nD) (t : Fin cfg2.N) : Vec F S1280x512 .bf16 :=
  out2 c (grid2.coords t) (ms2_0 t) (hs2_0 t) (ms2_1 t) (hs2_1 t) (ms2_2 t) (hs2_2 t) (ms2_3 t) (hs2_3 t) scM2 (Memref.isWhole_whole _) (hcond2_0 t) (hcond2_1 t) (iblk2 V c 0 t) (iblk2 V c 1 t) (iblk2 V c 2 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Pipeline.ΦA spec2 c from rfl, show (dat2 V c).Φ t.castSucc = Pipeline.ΦA spec2 c from rfl]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  unfold outAt2 out2; (try dsimp only)
  rw [PhiA2_eq]
  iintro ⟨⟨⟨HS, Hrest⟩, Hg⟩, Ho, ⟨%d0, H0⟩, ⟨%d1, H1⟩, ⟨%d2, H2⟩, ⟨%d3, H3⟩⟩
  iapply ((kernelRun2 c (grid2.coords t) _ _ _ _ _ _ _ _ _ _ (hcond2_0 t) (hcond2_1 t) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.Kernel.Hand

end
-- ==== Proof.KB.R3.lean ====
import proofs.«408842_j29429115912637_1_alg».proof.Proof.Gen.Kernel.Launch
import proofs.«408842_j29429115912637_1_alg».proof.Proof.Gen.Kernel.Skeleton
import proofs.«408842_j29429115912637_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 1).val) 0#32)) 0#32) = 1#1

abbrev cond3_1 (i : grid3.Coords) : Prop := k3_cond2 i = 1#1
theorem hcond3_0 : ∀ t : Fin cfg3.N, cond3_0 (grid3.coords t) ↔ t.val % 8 = 0 :=
  (by decide +kernel : ∀ t : Fin grid3.N, cond3_0 (grid3.coords t) ↔ t.val % 8 = 0)
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

abbrev VO3 : View sig .tc .vmem S1280x512 .f32 := (Memref.whole cc3_stg3_0 : Memref sig .tc .vmem S1280x512 .f32).view
abbrev ms3_0 (t : Fin cfg3.N) : Memref sig .tc .vmem S1280x1280 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1280x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1280x512 .f32 := win3_3.stage (cfg3.slots t 3)
abbrev hs3_3 (t : Fin cfg3.N) : (ms3_3 t).IsWhole := hstage3_3 ((cfg3.slots t 3).cast nbuf3_3)

abbrev scM3 : Memref sig .tc .vmem S1280x512 .f32 := Memref.whole cc3_scratch0
abbrev VS3 : View sig .tc .vmem S1280x512 .f32 := scM3.view

abbrev rest3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns (c : Thread nD τ) scM3 fullShare d) ∗ rest3 c) ∗ (∃ r, prngReg c r)) := by
  unfold Pipeline.ΦA; rw [scopedRest3_split]; simp only [scM3, owns_whole]; try rfl

-- The body's three cases (first, middle and last contraction step) run on the same memrefs; the guards and what the accumulator holds on entry differ.
section
variable (c : Dev nD) (i : grid3.Coords) (arg2 : Memref sig .tc .vmem S1280x1280 .bf16) (harg2 : arg2.IsWhole) (arg3 : Memref sig .tc .vmem S1280x512 .bf16) (harg3 : arg3.IsWhole) (arg4 : Memref sig .tc .vmem S1x512 .f32) (harg4 : arg4.IsWhole) (arg5 : Memref sig .tc .vmem S1280x512 .f32) (harg5 : arg5.IsWhole) (arg6 : Memref sig .tc .vmem S1280x512 .f32) (harg6 : arg6.IsWhole)

set_option maxHeartbeats 4000000 in

noncomputable def kernelRun3_A (hc0 : cond3_0 i) (hc1 : ¬cond3_1 i)
    (x0 : Vec F S1280x1280 .bf16) (x1 : Vec F S1280x512 .bf16) :
    { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg2 harg2 arg3 harg3 arg4 harg4 arg5 harg5 arg6 harg6) K } := by
  refine ⟨?_, fun E K => ?run⟩
  case run =>
    simp only [cc3__matmul_kernel_eq_skeleton]; unfold cc3__matmul_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in

noncomputable def kernelRun3_B (hc0 : ¬cond3_0 i) (hc1 : ¬cond3_1 i)
    (x0 : Vec F S1280x1280 .bf16) (x1 : Vec F S1280x512 .bf16) (xs : Vec F S1280x512 .f32) :
    { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg2 harg2 arg3 harg3 arg4 harg4 arg5 harg5 arg6 harg6) K } := by
  refine ⟨?_, fun E K => ?run⟩
  case run =>
    simp only [cc3__matmul_kernel_eq_skeleton]; unfold cc3__matmul_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in

noncomputable def kernelRun3_C (hc0 : ¬cond3_0 i) (hc1 : cond3_1 i)
    (x0 : Vec F S1280x1280 .bf16) (x1 : Vec F S1280x512 .bf16) (x2 : Vec F S1x512 .f32) (xs : Vec F S1280x512 .f32) :
    Σ' (L3 : List (View.Piece (Elt F) S1280x512 .f32)), { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg2 harg2 arg3 harg3 arg4 harg4 arg5 harg5 arg6 harg6) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

theorem scover3_A (hc0 : cond3_0 i) (hc1 : ¬cond3_1 i)
    (x0 : Vec F S1280x1280 .bf16) (x1 : Vec F S1280x512 .bf16) (y : S1280x512.Idx) :
    ∃ pc ∈ (kernelRun3_A c i arg2 harg2 arg3 harg3 arg4 harg4 arg5 harg5 arg6 harg6 hc0 hc1 x0 x1).1, y ∈ pc.1.set :=
  View.cover_of_tiledL (kernelRun3_A c i arg2 harg2 arg3 harg3 arg4 harg4 arg5 harg5 arg6 harg6 hc0 hc1 x0 x1).1 S1280x512.size (by sl_kernel_rfl) y

def sout3_A (hc0 : cond3_0 i) (hc1 : ¬cond3_1 i)
    (x0 : Vec F S1280x1280 .bf16) (x1 : Vec F S1280x512 .bf16) : Vec F S1280x512 .f32 :=
  VS3.read (Elt F) (VS3.writes (Elt F) VS3.junk (kernelRun3_A c i arg2 harg2 arg3 harg3 arg4 harg4 arg5 harg5 arg6 harg6 hc0 hc1 x0 x1).1)

theorem scover3_B (hc0 : ¬cond3_0 i) (hc1 : ¬cond3_1 i)
    (x0 : Vec F S1280x1280 .bf16) (x1 : Vec F S1280x512 .bf16) (xs : Vec F S1280x512 .f32) (y : S1280x512.Idx) :
    ∃ pc ∈ (kernelRun3_B c i arg2 harg2 arg3 harg3 arg4 harg4 arg5 harg5 arg6 harg6 hc0 hc1 x0 x1 xs).1, y ∈ pc.1.set :=
  View.cover_of_tiledL (kernelRun3_B c i arg2 harg2 arg3 harg3 arg4 harg4 arg5 harg5 arg6 harg6 hc0 hc1 x0 x1 xs).1 S1280x512.size (by sl_kernel_rfl) y

def sout3_B (hc0 : ¬cond3_0 i) (hc1 : ¬cond3_1 i)
    (x0 : Vec F S1280x1280 .bf16) (x1 : Vec F S1280x512 .bf16) (xs : Vec F S1280x512 .f32) : Vec F S1280x512 .f32 :=
  VS3.read (Elt F) (VS3.writes (Elt F) VS3.junk (kernelRun3_B c i arg2 harg2 arg3 harg3 arg4 harg4 arg5 harg5 arg6 harg6 hc0 hc1 x0 x1 xs).1)

theorem cover3_C (hc0 : ¬cond3_0 i) (hc1 : cond3_1 i)
    (x0 : Vec F S1280x1280 .bf16) (x1 : Vec F S1280x512 .bf16) (x2 : Vec F S1x512 .f32) (xs : Vec F S1280x512 .f32) (y : S1280x512.Idx) :
    ∃ pc ∈ (kernelRun3_C c i arg2 harg2 arg3 harg3 arg4 harg4 arg5 harg5 arg6 harg6 hc0 hc1 x0 x1 x2 xs).1, y ∈ pc.1.set :=
  View.cover_of_tiledL (kernelRun3_C c i arg2 harg2 arg3 harg3 arg4 harg4 arg5 harg5 arg6 harg6 hc0 hc1 x0 x1 x2 xs).1 S1280x512.size (by sl_kernel_rfl) y

def out3_C (hc0 : ¬cond3_0 i) (hc1 : cond3_1 i)
    (x0 : Vec F S1280x1280 .bf16) (x1 : Vec F S1280x512 .bf16) (x2 : Vec F S1x512 .f32) (xs : Vec F S1280x512 .f32) : Vec F S1280x512 .f32 :=
  VO3.read (Elt F) (VO3.writes (Elt F) VO3.junk (kernelRun3_C c i arg2 harg2 arg3 harg3 arg4 harg4 arg5 harg5 arg6 harg6 hc0 hc1 x0 x1 x2 xs).1)

theorem scover3_C (hc0 : ¬cond3_0 i) (hc1 : cond3_1 i)
    (x0 : Vec F S1280x1280 .bf16) (x1 : Vec F S1280x512 .bf16) (x2 : Vec F S1x512 .f32) (xs : Vec F S1280x512 .f32) (y : S1280x512.Idx) :
    ∃ pc ∈ (kernelRun3_C c i arg2 harg2 arg3 harg3 arg4 harg4 arg5 harg5 arg6 harg6 hc0 hc1 x0 x1 x2 xs).2.1, y ∈ pc.1.set :=
  View.cover_of_tiledL (kernelRun3_C c i arg2 harg2 arg3 harg3 arg4 harg4 arg5 harg5 arg6 harg6 hc0 hc1 x0 x1 x2 xs).2.1 S1280x512.size (by sl_kernel_rfl) y

def sout3_C (hc0 : ¬cond3_0 i) (hc1 : cond3_1 i)
    (x0 : Vec F S1280x1280 .bf16) (x1 : Vec F S1280x512 .bf16) (x2 : Vec F S1x512 .f32) (xs : Vec F S1280x512 .f32) : Vec F S1280x512 .f32 :=
  VS3.read (Elt F) (VS3.writes (Elt F) VS3.junk (kernelRun3_C c i arg2 harg2 arg3 harg3 arg4 harg4 arg5 harg5 arg6 harg6 hc0 hc1 x0 x1 x2 xs).2.1)

end

def outIdle3 : Vec F S1280x512 .f32 := VO3.read (Elt F) (VO3.writes (Elt F) VO3.junk [])

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def outsAt3 (c : Dev nD) : (n : ℕ) → n < cfg3.N → Vec F S1280x512 .f32 × Vec F S1280x512 .f32
  | 0, hn => (outIdle3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 8 = 0 then
      if h1 : (n + 1) % 8 = 7 then
        False.elim (by omega)
      else
        (outIdle3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 8 = 7 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
         sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (outIdle3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (outIdle3, sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (outIdle3, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ rest3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ rest3 c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 64 := lt_of_lt_of_eq t.isLt (show cfg3.N = 64 from N_3)
  by_cases h0 : t.val % 8 = 0
  · have h1 : ¬t.val % 8 = 7 := by omega
    rw [Dat.leavesExact_idle (dat3 V c) 3 t (idleAt3_3 t (fun h => h1 ((hcond3_1 t).mp h))) (noFlush3_3 t (fun h => h1 ((hcond3_1 t).mp h)))]
    rw [outsAt3_A V c t h0 h1]
    unfold sout3_A; (try dsimp only)
    by_cases hz : t.val = 0
    · rw [PhiS3_castSucc V c t, PhiS3_zero V c _ _ hz, PhiA3_eq]
      iintro ⟨⟨⟨HS, Hrest⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C sout3_C; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover3_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover3_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨HS, Hrest⟩, Hg⟩
  isplitl [HS Hrest]
  · isplitl [HS]
    · iexists _; iexact HS
    iexact Hrest
  iexact Hg

end Cert.Kernel.Hand

end
-- ==== Proof.KB.R4.lean ====
import proofs.«408842_j29429115912637_1_alg».proof.Proof.Gen.Kernel.Launch
import proofs.«408842_j29429115912637_1_alg».proof.Proof.Gen.Kernel.Skeleton
import proofs.«408842_j29429115912637_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop := (Scalar.cmpi .ne (Scalar.extui (Scalar.cmpi .eq (BitVec.ofNat 32 (i 1).val) 0#32)) 0#32) = 1#1

abbrev cond4_1 (i : grid4.Coords) : Prop := k4_cond2 i = 1#1

theorem hcond4_0 : ∀ t : Fin cfg4.N, cond4_0 (grid4.coords t) :=
  (by decide +kernel : ∀ t : Fin grid4.N, cond4_0 (grid4.coords t))
theorem hcond4_1 : ∀ t : Fin cfg4.N, cond4_1 (grid4.coords t) :=
  (by decide +kernel : ∀ t : Fin grid4.N, cond4_1 (grid4.coords t))

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel

abbrev VO4 : View sig .tc .vmem S1280x64 .f32 := (Memref.whole cc4_stg3_0 : Memref sig .tc .vmem S1280x64 .f32).view
abbrev ms4_0 (t : Fin cfg4.N) : Memref sig .tc .vmem S1280x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1280x64 .f32 := win4_3.stage (cfg4.slots t 3)
abbrev hs4_3 (t : Fin cfg4.N) : (ms4_3 t).IsWhole := hstage4_3 ((cfg4.slots t 3).cast nbuf4_3)

abbrev scM4 : Memref sig .tc .vmem S1280x64 .f32 := Memref.whole cc4_scratch0
abbrev VS4 : View sig .tc .vmem S1280x64 .f32 := scM4.view

theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

-- One statement of the body serves every point: its memrefs, its guards and the blocks it reads are parameters.
section
variable (c : Dev nD) (i : grid4.Coords) (arg2 : Memref sig .tc .vmem S1280x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S1280x64 .f32) (harg5 : arg5.IsWhole) (arg6 : Memref sig .tc .vmem S1280x64 .f32) (harg6 : arg6.IsWhole) (hc0 : cond4_0 i) (hc1 : cond4_1 i)
    (x0 : Vec F S1280x512 .f32) (x1 : Vec F S512x64 .f32) (x2 : Vec F S1x64 .f32)

set_option maxHeartbeats 4000000 in

noncomputable def kernelRun4 :
    Σ' (L3 : List (View.Piece (Elt F) S1280x64 .f32)), { LS0 : List (View.Piece (Elt F) S1280x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg2 harg2 arg3 harg3 arg4 harg4 arg5 harg5 arg6 harg6) K } := by
  refine ⟨?_, ?_, fun E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

theorem cover4_3 (y : S1280x64.Idx) :
    ∃ pc ∈ (kernelRun4 c i arg2 harg2 arg3 harg3 arg4 harg4 arg5 harg5 arg6 harg6 hc0 hc1 x0 x1 x2).1, y ∈ pc.1.set :=
  View.cover_of_tiledL (kernelRun4 c i arg2 harg2 arg3 harg3 arg4 harg4 arg5 harg5 arg6 harg6 hc0 hc1 x0 x1 x2).1 S1280x64.size (by sl_kernel_rfl) y

def out4 : Vec F S1280x64 .f32 :=
  VO4.read (Elt F) (VO4.writes (Elt F) VO4.junk (kernelRun4 c i arg2 harg2 arg3 harg3 arg4 harg4 arg5 harg5 arg6 harg6 hc0 hc1 x0 x1 x2).1)

end

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def outAt4 (c : Dev nD) (t : Fin cfg4.N) : Vec F S1280x64 .f32 :=
  out4 c (grid4.coords t) (ms4_0 t) (hs4_0 t) (ms4_1 t) (hs4_1 t) (ms4_2 t) (hs4_2 t) (ms4_3 t) (hs4_3 t) scM4 (Memref.isWhole_whole _) (hcond4_0 t) (hcond4_1 t) (iblk4 V c 0 t) (iblk4 V c 1 t) (iblk4 V c 2 t)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt4 V c t
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outAt4 V c t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = Pipeline.ΦA spec4 c from rfl, show (dat4 V c).Φ t.castSucc = Pipeline.ΦA spec4 c from rfl]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  unfold outAt4 out4; (try dsimp only)
  rw [PhiA4_eq]
  iintro ⟨⟨⟨HS, Hrest⟩, Hg⟩, Ho, ⟨%d0, H0⟩, ⟨%d1, H1⟩, ⟨%d2, H2⟩, ⟨%d3, H3⟩⟩
  iapply ((kernelRun4 c (grid4.coords t) _ _ _ _ _ _ _ _ _ _ (hcond4_0 t) (hcond4_1 t) (iblk4 V c 0 t) (iblk4 V c 1 t) (iblk4 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_3 c _ _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Cert.Kernel.Hand

end
-- ==== Proof.KB.Run.lean ====
import proofs.«408842_j29429115912637_1_alg».proof.Proof.KB.R0
import proofs.«408842_j29429115912637_1_alg».proof.Proof.KB.R1
import proofs.«408842_j29429115912637_1_alg».proof.Proof.KB.R2
import proofs.«408842_j29429115912637_1_alg».proof.Proof.KB.R3
import proofs.«408842_j29429115912637_1_alg».proof.Proof.KB.R4
import proofs.«408842_j29429115912637_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev W4 : Dev nD → Valuation τ sig (Elt F) := fun c => StableHlo.after hostOps0_3 (W3 m c)

abbrev W5 : Dev nD → Valuation τ sig (Elt F) := fun c => StableHlo.after hostOps0_4 (W4 m c)

abbrev V5 : (c : Dev nD) → (b : Ref sig .tc) → Buf (Elt F) ((c : Thread nD τ).loc b) := fun c b => W5 m c b

def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev V6 : (c : Dev nD) → (b : Ref sig .tc) → Buf (Elt F) ((c : Thread nD τ).loc b) := fun c b => W6 m c b
theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)

abbrev W7 : Dev nD → Valuation τ sig (Elt F) := fun c => StableHlo.after hostOps1 (W6 m c)

abbrev V7 : (c : Dev nD) → (b : Ref sig .tc) → Buf (Elt F) ((c : Thread nD τ).loc b) := fun c b => W7 m c b

def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)

abbrev W9 : Dev nD → Valuation τ sig (Elt F) := fun c => StableHlo.after hostOps2 (W8 m c)

abbrev V9 : (c : Dev nD) → (b : Ref sig .tc) → Buf (Elt F) ((c : Thread nD τ).loc b) := fun c b => W9 m c b

def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)

abbrev W11 : Dev nD → Valuation τ sig (Elt F) := fun c => StableHlo.after hostOps3 (W10 m c)

abbrev V11 : (c : Dev nD) → (b : Ref sig .tc) → Buf (Elt F) ((c : Thread nD τ).loc b) := fun c b => W11 m c b

def W12 (c : Dev nD) : Valuation τ sig (Elt F) :=
  Pipeline.withArrays spec3 c (W11 m c) fun w => (dat3 (V11 m) c).arrAt w cfg3.N
theorem W12_arr (c : Dev nD) (w : Fin cfg3.W) :
    W12 m c (Proc.devRef .tc (Pipeline.arrRef spec3 w)) = (dat3 (V11 m) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
abbrev V12 : (c : Dev nD) → (b : Ref sig .tc) → Buf (Elt F) ((c : Thread nD τ).loc b) := fun c b => W12 m c b
theorem hF3 (c : Dev nD) (w : Fin cfg3.W) : (dat3 (V11 m) c).arrAt w cfg3.N = V12 m c (Pipeline.arrRef spec3 w) :=
  (W12_arr m c w).symm
theorem hrest3 (c : Dev nD) : ∀ b, b ∉ Finset.univ.image (Pipeline.arrRef spec3) → V12 m c b = V11 m c b :=
  fun b hb => W12_of_ne m c b fun w e => hb (Finset.mem_image.mpr ⟨w, Finset.mem_univ _, e⟩)

abbrev W13 : Dev nD → Valuation τ sig (Elt F) := fun c => StableHlo.after hostOps4 (W12 m c)

abbrev V13 : (c : Dev nD) → (b : Ref sig .tc) → Buf (Elt F) ((c : Thread nD τ).loc b) := fun c b => W13 m c b

def W14 (c : Dev nD) : Valuation τ sig (Elt F) :=
  Pipeline.withArrays spec4 c (W13 m c) fun w => (dat4 (V13 m) c).arrAt w cfg4.N
theorem W14_arr (c : Dev nD) (w : Fin cfg4.W) :
    W14 m c (Proc.devRef .tc (Pipeline.arrRef spec4 w)) = (dat4 (V13 m) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
abbrev V14 : (c : Dev nD) → (b : Ref sig .tc) → Buf (Elt F) ((c : Thread nD τ).loc b) := fun c b => W14 m c b
theorem hF4 (c : Dev nD) (w : Fin cfg4.W) : (dat4 (V13 m) c).arrAt w cfg4.N = V14 m c (Pipeline.arrRef spec4 w) :=
  (W14_arr m c w).symm
theorem hrest4 (c : Dev nD) : ∀ b, b ∉ Finset.univ.image (Pipeline.arrRef spec4) → V14 m c b = V13 m c b :=
  fun b hb => W14_of_ne m c b fun w e => hb (Finset.mem_image.mpr ⟨w, Finset.mem_univ _, e⟩)

abbrev W15 : Dev nD → Valuation τ sig (Elt F) := fun c => StableHlo.after hostOps5 (W14 m c)

abbrev W16 : Dev nD → Valuation τ sig (Elt F) := fun c => StableHlo.after hostOps5_1 (W15 m c)

-- No host stretch writes an argument and a region changes only its output array, so each argument reads at the end as at launch.
theorem W16_arg (c : Dev nD) (b : Ref sig .tc) (hb : b ∈ [main_arg0, main_arg1, main_arg2, main_arg3, main_arg4, main_arg5, main_arg6, main_arg7]) :
    W16 m c (Proc.devRef .tc b) = m ((c : Thread nD τ).loc b) := by
  simp only [List.mem_cons, List.mem_singleton, List.not_mem_nil, or_false] at hb
  rcases hb with rfl | rfl | rfl | rfl | rfl | rfl | rfl | rfl <;>
  exact (StableHlo.after_of_writes_sub hostOps5_1 _ hostOps5_1_writes (by decide)).trans <|
    (StableHlo.after_of_writes_sub hostOps5 _ hostOps5_writes (by decide)).trans <|
    Eq.trans (by first | exact W14_of_ne m c _ (by decide) | exact (W14_arr m c 1).trans (((dat4 (V13 m) c).arrAt_in 1 rfl _).trans (A_eq4 (V13 m) c 1))) <|
    (StableHlo.after_of_writes_sub hostOps4 _ hostOps4_writes (by decide)).trans <|
    (W12_of_ne m c _ (by decide)).trans <|
    (StableHlo.after_of_writes_sub hostOps3 _ hostOps3_writes (by decide)).trans <|
    Eq.trans (by first | exact W10_of_ne m c _ (by decide) | exact (W10_arr m c 1).trans (((dat2 (V9 m) c).arrAt_in 1 rfl _).trans (A_eq2 (V9 m) c 1))) <|
    (StableHlo.after_of_writes_sub hostOps2 _ hostOps2_writes (by decide)).trans <|
    (W8_of_ne m c _ (by decide)).trans <|
    (StableHlo.after_of_writes_sub hostOps1 _ hostOps1_writes (by decide)).trans <|
    Eq.trans (by first | exact W6_of_ne m c _ (by decide) | exact (W6_arr m c 1).trans (((dat0 (V5 m) c).arrAt_in 1 rfl _).trans (A_eq0 (V5 m) c 1))) <|
    (StableHlo.after_of_writes_sub hostOps0_4 _ hostOps0_4_writes (by decide)).trans <|
    (StableHlo.after_of_writes_sub hostOps0_3 _ hostOps0_3_writes (by decide)).trans <|
    (StableHlo.after_of_writes_sub hostOps0_2 _ hostOps0_2_writes (by decide)).trans <|
    (StableHlo.after_of_writes_sub hostOps0_1 _ hostOps0_1_writes (by decide)).trans <|
    (StableHlo.after_of_writes_sub hostOps0 _ hostOps0_writes (by decide)).trans rfl

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V5 m) c
  | ⟨1, _⟩ => fun c => dat1 (V7 m) c
  | ⟨2, _⟩ => fun c => dat2 (V9 m) c
  | ⟨3, _⟩ => fun c => dat3 (V11 m) c
  | ⟨4, _⟩ => fun c => dat4 (V13 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W16 m c) ∗ ∃ r, prngReg c r)

-- One construction serves the five regions: only the launch facts, the contents on entry and on exit, and the region's proof data differ.
set_option backward.isDefEq.respectTransparency.types false in
def regOf (p : Fin 5) (ln : Pipeline.LaunchFacts (nD := nD) (τ := τ) cfgs p)
    (Win Wout : Dev nD → Valuation τ sig (Elt F))
    (hq : ∀ c w, (pdats m p c).share w = fullShare)
    (hA : ∀ c w, (pdats m p c).A w = Win c (Proc.devRef .tc (Pipeline.arrRef (pcfgs (F := F) p).spec w)))
    (howed : ∀ c t, (pdats m p c).owed t = 0) (hrec : ∀ c, (pdats m p c).recorded 0 = Set.univ)
    (hbody : ∀ c, Pipeline.BodyObligationLoose (pdats m p c) defs₀ 𝒱₀ () Set.univ)
    (hin : ∀ c, Pipeline.ΦA (pcfgs (F := F) p).spec c ⊢ (pdats m p c).Φ 0)
    (hout : ∀ c, (pdats m p c).Φ (Fin.last _) ⊢ Pipeline.ΦA (pcfgs (F := F) p).spec c)
    (hF : ∀ c w, (pdats m p c).arrAt w (Pipeline.pin (pcfgs (F := F)) adm p).N = Wout c (Proc.devRef .tc (Pipeline.arrRef (pcfgs (F := F) p).spec w)))
    (hrest : ∀ c (b : Ref sig .tc), b ∉ Finset.univ.image (Pipeline.arrRef (pcfgs (F := F) p).spec) → Wout c (Proc.devRef .tc b) = Win c (Proc.devRef .tc b)) :
    Pipeline.RegionSeg (pcfgs (F := F)) adm (pdats m) () defs₀ 𝒱₀ L lv p where
  win := ln.win.to₀
  block_pos := ln.block_pos
  stage_whole := ln.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Win c (Proc.devRef .tc b))
  hentry c := by
    rw [Pipeline.ownSems0_none]
    have hsplit := Pipeline.arrays_of_unscopedBufs (p := p) (pcfgs (F := F)) adm (pdats m) ln.win ln.arr_whole c
      (hq c) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      ln.win ln.arr_whole c (pdats m) (hq c)
      (fun b => Win c (Proc.devRef .tc b)) (fun b => Wout c (Proc.devRef .tc b)) ((pdats m p c).arrAt · _) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) adm (pdats m) () defs₀ 𝒱₀ L lv 0 :=
  regOf m 0 launch0 (W5 m) (W6 m) (fun c => (dat0 (V5 m) c).share_full fun _ => rfl) (fun _ _ => rfl) (fun _ _ => rfl) (fun _ => rfl)
    (fun c => (body_obligation0 (V5 m) c).loose) (hin0 (V5 m)) (hout0 (V5 m)) (hF0 m) (hrest0 m)

set_option backward.isDefEq.respectTransparency.types false in
def reg1 : Pipeline.RegionSeg (pcfgs (F := F)) adm (pdats m) () defs₀ 𝒱₀ L lv 1 :=
  regOf m 1 launch1 (W7 m) (W8 m) (fun c => (dat1 (V7 m) c).share_full fun _ => rfl) (fun _ _ => rfl) (fun _ _ => rfl) (fun _ => rfl)
    (fun c => (body_obligation1 (V7 m) c).loose) (hin1 (V7 m)) (hout1 (V7 m)) (hF1 m) (hrest1 m)

set_option backward.isDefEq.respectTransparency.types false in
def reg2 : Pipeline.RegionSeg (pcfgs (F := F)) adm (pdats m) () defs₀ 𝒱₀ L lv 2 :=
  regOf m 2 launch2 (W9 m) (W10 m) (fun c => (dat2 (V9 m) c).share_full fun _ => rfl) (fun _ _ => rfl) (fun _ _ => rfl) (fun _ => rfl)
    (fun c => (body_obligation2 (V9 m) c).loose) (hin2 (V9 m)) (hout2 (V9 m)) (hF2 m) (hrest2 m)

set_option backward.isDefEq.respectTransparency.types false in
def reg3 : Pipeline.RegionSeg (pcfgs (F := F)) adm (pdats m) () defs₀ 𝒱₀ L lv 3 :=
  regOf m 3 launch3 (W11 m) (W12 m) (fun c => (dat3 (V11 m) c).share_full fun _ => rfl) (fun _ _ => rfl) (fun _ _ => rfl) (fun _ => rfl)
    (fun c => (body_obligation3 (V11 m) c).loose) (hin3 (V11 m)) (hout3 (V11 m)) (hF3 m) (hrest3 m)

set_option backward.isDefEq.respectTransparency.types false in
def reg4 : Pipeline.RegionSeg (pcfgs (F := F)) adm (pdats m) () defs₀ 𝒱₀ L lv 4 :=
  regOf m 4 launch4 (W13 m) (W14 m) (fun c => (dat4 (V13 m) c).share_full fun _ => rfl) (fun _ _ => rfl) (fun _ _ => rfl) (fun _ => rfl)
    (fun c => (body_obligation4 (V13 m) c).loose) (hin4 (V13 m)) (hout4 (V13 m)) (hF4 m) (hrest4 m)

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)),
    .region (reg3 m),
    .host (hseg hostOps4 hostOps4_sub hostOps4_fresh (W12 m)),
    .region (reg4 m),
    .host (hseg hostOps5 hostOps5_sub hostOps5_fresh (W14 m)),
    .host (hseg hostOps5_1 hostOps5_1_sub hostOps5_1_fresh (W15 m)) ]

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W16 m c) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (W16_arg m c main_arg0 (by decide)),
    (h c _ (mem_uc main_arg1 (by decide))).trans (W16_arg m c main_arg1 (by decide)),
    (h c _ (mem_uc main_arg2 (by decide))).trans (W16_arg m c main_arg2 (by decide)),
    (h c _ (mem_uc main_arg3 (by decide))).trans (W16_arg m c main_arg3 (by decide)),
    (h c _ (mem_uc main_arg4 (by decide))).trans (W16_arg m c main_arg4 (by decide)),
    (h c _ (mem_uc main_arg5 (by decide))).trans (W16_arg m c main_arg5 (by decide)),
    (h c _ (mem_uc main_arg6 (by decide))).trans (W16_arg m c main_arg6 (by decide)),
    (h c _ (mem_uc main_arg7 (by decide))).trans (W16_arg m c main_arg7 (by decide))⟩) (run_all m ρ)

end Cert.Kernel.Hand

end
-- ==== Proof.KI.R0.lean ====
import proofs.«408842_j29429115912637_1_alg».proof.Proof.Gen.KernelIdeal.Launch
import proofs.«408842_j29429115912637_1_alg».proof.Proof.Gen.KernelIdeal.Skeleton
import proofs.«408842_j29429115912637_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop := (Scalar.cmpi .ne (Scalar.extui (Scalar.cmpi .eq (BitVec.ofNat 32 (i 1).val) 0#32)) 0#32) = 1#1

abbrev cond0_1 (i : grid0.Coords) : Prop := k0_cond2 i = 1#1

theorem hcond0_0 : ∀ t : Fin cfg0.N, cond0_0 (grid0.coords t) :=
  (by decide +kernel : ∀ t : Fin grid0.N, cond0_0 (grid0.coords t))
theorem hcond0_1 : ∀ t : Fin cfg0.N, cond0_1 (grid0.coords t) :=
  (by decide +kernel : ∀ t : Fin grid0.N, cond0_1 (grid0.coords t))

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

abbrev VO0 : View sig .tc .vmem S1280x512 .bf16 := (Memref.whole cc0_stg3_0 : Memref sig .tc .vmem S1280x512 .bf16).view
abbrev ms0_0 (t : Fin cfg0.N) : Memref sig .tc .vmem S1280x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x512 .bf16 := win0_3.stage (cfg0.slots t 3)
abbrev hs0_3 (t : Fin cfg0.N) : (ms0_3 t).IsWhole := hstage0_3 ((cfg0.slots t 3).cast nbuf0_3)

abbrev scM0 : Memref sig .tc .vmem S1280x512 .f32 := Memref.whole cc0_scratch0
abbrev VS0 : View sig .tc .vmem S1280x512 .f32 := scM0.view

theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

-- One statement of the body serves every point: its memrefs, its guards and the blocks it reads are parameters.
section
variable (c : Dev nD) (i : grid0.Coords) (arg2 : Memref sig .tc .vmem S1280x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1280x512 .bf16) (harg5 : arg5.IsWhole) (arg6 : Memref sig .tc .vmem S1280x512 .f32) (harg6 : arg6.IsWhole) (hc0 : cond0_0 i) (hc1 : cond0_1 i)
    (x0 : Vec F S1280x512 .f32) (x1 : Vec F S512x512 .f32) (x2 : Vec F S1x512 .f32)

set_option maxHeartbeats 4000000 in

noncomputable def kernelRun0 :
    Σ' (L3 : List (View.Piece (Elt F) S1280x512 .bf16)), { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg2 harg2 arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

theorem cover0_3 (y : S1280x512.Idx) :
    ∃ pc ∈ (kernelRun0 c i arg2 harg2 arg3 harg3 arg4 harg4 arg5 harg5 arg6 harg6 hc0 hc1 x0 x1 x2).1, y ∈ pc.1.set :=
  View.cover_of_tiledL (kernelRun0 c i arg2 harg2 arg3 harg3 arg4 harg4 arg5 harg5 arg6 harg6 hc0 hc1 x0 x1 x2).1 S1280x512.size (by sl_kernel_rfl) y

def out0 : Vec F S1280x512 .bf16 :=
  VO0.read (Elt F) (VO0.writes (Elt F) VO0.junk (kernelRun0 c i arg2 harg2 arg3 harg3 arg4 harg4 arg5 harg5 arg6 harg6 hc0 hc1 x0 x1 x2).1)

end

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def outAt0 (c : Dev nD) (t : Fin cfg0.N) : Vec F S1280x512 .bf16 :=
  out0 c (grid0.coords t) (ms0_0 t) (hs0_0 t) (ms0_1 t) (hs0_1 t) (ms0_2 t) (hs0_2 t) (ms0_3 t) (hs0_3 t) scM0 (Memref.isWhole_whole _) (hcond0_0 t) (hcond0_1 t) (iblk0 V c 0 t) (iblk0 V c 1 t) (iblk0 V c 2 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Pipeline.ΦA spec0 c from rfl, show (dat0 V c).Φ t.castSucc = Pipeline.ΦA spec0 c from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  unfold outAt0 out0; (try dsimp only)
  rw [PhiA0_eq]
  iintro ⟨⟨⟨HS, Hrest⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Hand

end
-- ==== Proof.KI.R1.lean ====
import proofs.«408842_j29429115912637_1_alg».proof.Proof.Gen.KernelIdeal.Launch
import proofs.«408842_j29429115912637_1_alg».proof.Proof.Gen.KernelIdeal.Skeleton
import proofs.«408842_j29429115912637_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 1).val) 0#32)) 0#32) = 1#1

abbrev cond1_1 (i : grid1.Coords) : Prop := k1_cond2 i = 1#1
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev VO1 : View sig .tc .vmem S1280x512 .f32 := (Memref.whole cc1_stg3_0 : Memref sig .tc .vmem S1280x512 .f32).view
abbrev ms1_0 (t : Fin cfg1.N) : Memref sig .tc .vmem S1280x1280 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x512 .f32 := win1_3.stage (cfg1.slots t 3)
abbrev hs1_3 (t : Fin cfg1.N) : (ms1_3 t).IsWhole := hstage1_3 ((cfg1.slots t 3).cast nbuf1_3)

abbrev scM1 : Memref sig .tc .vmem S1280x512 .f32 := Memref.whole cc1_scratch0
abbrev VS1 : View sig .tc .vmem S1280x512 .f32 := scM1.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

-- The body's three cases (first, middle and last contraction step) run on the same memrefs; the guards and what the accumulator holds on entry differ.
section
variable (c : Dev nD) (i : grid1.Coords) (arg2 : Memref sig .tc .vmem S1280x1280 .bf16) (harg2 : arg2.IsWhole) (arg3 : Memref sig .tc .vmem S1280x512 .bf16) (harg3 : arg3.IsWhole) (arg4 : Memref sig .tc .vmem S1x512 .f32) (harg4 : arg4.IsWhole) (arg5 : Memref sig .tc .vmem S1280x512 .f32) (harg5 : arg5.IsWhole) (arg6 : Memref sig .tc .vmem S1280x512 .f32) (harg6 : arg6.IsWhole)

set_option maxHeartbeats 4000000 in

noncomputable def kernelRun1_A (hc0 : cond1_0 i) (hc1 : ¬cond1_1 i)
    (x0 : Vec F S1280x1280 .bf16) (x1 : Vec F S1280x512 .bf16) :
    { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg2 harg2 arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in

noncomputable def kernelRun1_B (hc0 : ¬cond1_0 i) (hc1 : ¬cond1_1 i)
    (x0 : Vec F S1280x1280 .bf16) (x1 : Vec F S1280x512 .bf16) (xs : Vec F S1280x512 .f32) :
    { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg2 harg2 arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in

noncomputable def kernelRun1_C (hc0 : ¬cond1_0 i) (hc1 : cond1_1 i)
    (x0 : Vec F S1280x1280 .bf16) (x1 : Vec F S1280x512 .bf16) (x2 : Vec F S1x512 .f32) (xs : Vec F S1280x512 .f32) :
    Σ' (L3 : List (View.Piece (Elt F) S1280x512 .f32)), { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg2 harg2 arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

theorem scover1_A (hc0 : cond1_0 i) (hc1 : ¬cond1_1 i)
    (x0 : Vec F S1280x1280 .bf16) (x1 : Vec F S1280x512 .bf16) (y : S1280x512.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S1280x512.size (by sl_kernel_rfl) y

def sout1_A (hc0 : cond1_0 i) (hc1 : ¬cond1_1 i)
    (x0 : Vec F S1280x1280 .bf16) (x1 : Vec F S1280x512 .bf16) : Vec F S1280x512 .f32 :=
  VS1.read (Elt F) (VS1.writes (Elt F) VS1.junk (kernelRun1_A c i arg2 harg2 arg3 harg3 arg4 harg4 arg5 harg5 arg6 harg6 hc0 hc1 x0 x1).1)

theorem scover1_B (hc0 : ¬cond1_0 i) (hc1 : ¬cond1_1 i)
    (x0 : Vec F S1280x1280 .bf16) (x1 : Vec F S1280x512 .bf16) (xs : Vec F S1280x512 .f32) (y : S1280x512.Idx) :
    ∃ pc ∈ (kernelRun1_B c i arg2 harg2 arg3 harg3 arg4 harg4 arg5 harg5 arg6 harg6 hc0 hc1 x0 x1 xs).1, y ∈ pc.1.set :=
  View.cover_of_tiledL (kernelRun1_B c i arg2 harg2 arg3 harg3 arg4 harg4 arg5 harg5 arg6 harg6 hc0 hc1 x0 x1 xs).1 S1280x512.size (by sl_kernel_rfl) y

def sout1_B (hc0 : ¬cond1_0 i) (hc1 : ¬cond1_1 i)
    (x0 : Vec F S1280x1280 .bf16) (x1 : Vec F S1280x512 .bf16) (xs : Vec F S1280x512 .f32) : Vec F S1280x512 .f32 :=
  VS1.read (Elt F) (VS1.writes (Elt F) VS1.junk (kernelRun1_B c i arg2 harg2 arg3 harg3 arg4 harg4 arg5 harg5 arg6 harg6 hc0 hc1 x0 x1 xs).1)

theorem cover1_C (hc0 : ¬cond1_0 i) (hc1 : cond1_1 i)
    (x0 : Vec F S1280x1280 .bf16) (x1 : Vec F S1280x512 .bf16) (x2 : Vec F S1x512 .f32) (xs : Vec F S1280x512 .f32) (y : S1280x512.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S1280x512.size (by sl_kernel_rfl) y

def out1_C (hc0 : ¬cond1_0 i) (hc1 : cond1_1 i)
    (x0 : Vec F S1280x1280 .bf16) (x1 : Vec F S1280x512 .bf16) (x2 : Vec F S1x512 .f32) (xs : Vec F S1280x512 .f32) : Vec F S1280x512 .f32 :=
  VO1.read (Elt F) (VO1.writes (Elt F) VO1.junk (kernelRun1_C c i arg2 harg2 arg3 harg3 arg4 harg4 arg5 harg5 arg6 harg6 hc0 hc1 x0 x1 x2 xs).1)

theorem scover1_C (hc0 : ¬cond1_0 i) (hc1 : cond1_1 i)
    (x0 : Vec F S1280x1280 .bf16) (x1 : Vec F S1280x512 .bf16) (x2 : Vec F S1x512 .f32) (xs : Vec F S1280x512 .f32) (y : S1280x512.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S1280x512.size (by sl_kernel_rfl) y

def sout1_C (hc0 : ¬cond1_0 i) (hc1 : cond1_1 i)
    (x0 : Vec F S1280x1280 .bf16) (x1 : Vec F S1280x512 .bf16) (x2 : Vec F S1x512 .f32) (xs : Vec F S1280x512 .f32) : Vec F S1280x512 .f32 :=
  VS1.read (Elt F) (VS1.writes (Elt F) VS1.junk (kernelRun1_C c i arg2 harg2 arg3 harg3 arg4 harg4 arg5 harg5 arg6 harg6 hc0 hc1 x0 x1 x2 xs).2.1)

end

def outIdle1 : Vec F S1280x512 .f32 := VO1.read (Elt F) (VO1.writes (Elt F) VO1.junk [])

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def outsAt1 (c : Dev nD) : (n : ℕ) → n < cfg1.N → Vec F S1280x512 .f32 × Vec F S1280x512 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (outIdle1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (outIdle1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hrest⟩, Hg⟩
  isplitl [HS Hrest]
  · isplitl [HS]
    · iexists _; iexact HS
    iexact Hrest
  iexact Hg

end Cert.KernelIdeal.Hand

end
-- ==== Proof.KI.R2.lean ====
import proofs.«408842_j29429115912637_1_alg».proof.Proof.Gen.KernelIdeal.Launch
import proofs.«408842_j29429115912637_1_alg».proof.Proof.Gen.KernelIdeal.Skeleton
import proofs.«408842_j29429115912637_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 1).val) 0#32)) 0#32) = 1#1

abbrev cond2_1 (i : grid2.Coords) : Prop := k2_cond2 i = 1#1

theorem hcond2_0 : ∀ t : Fin cfg2.N, cond2_0 (grid2.coords t) :=
  (by decide +kernel : ∀ t : Fin grid2.N, cond2_0 (grid2.coords t))
theorem hcond2_1 : ∀ t : Fin cfg2.N, cond2_1 (grid2.coords t) :=
  (by decide +kernel : ∀ t : Fin grid2.N, cond2_1 (grid2.coords t))

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

abbrev VO2 : View sig .tc .vmem S1280x512 .bf16 := (Memref.whole cc2_stg3_0 : Memref sig .tc .vmem S1280x512 .bf16).view
abbrev ms2_0 (t : Fin cfg2.N) : Memref sig .tc .vmem S1280x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1280x512 .bf16 := win2_3.stage (cfg2.slots t 3)
abbrev hs2_3 (t : Fin cfg2.N) : (ms2_3 t).IsWhole := hstage2_3 ((cfg2.slots t 3).cast nbuf2_3)

abbrev scM2 : Memref sig .tc .vmem S1280x512 .f32 := Memref.whole cc2_scratch0
abbrev VS2 : View sig .tc .vmem S1280x512 .f32 := scM2.view

theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

-- One statement of the body serves every point: its memrefs, its guards and the blocks it reads are parameters.
section
variable (c : Dev nD) (i : grid2.Coords) (arg2 : Memref sig .tc .vmem S1280x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1280x512 .bf16) (harg5 : arg5.IsWhole) (arg6 : Memref sig .tc .vmem S1280x512 .f32) (harg6 : arg6.IsWhole) (hc0 : cond2_0 i) (hc1 : cond2_1 i)
    (x0 : Vec F S1280x512 .f32) (x1 : Vec F S512x512 .f32) (x2 : Vec F S1x512 .f32)

set_option maxHeartbeats 4000000 in

noncomputable def kernelRun2 :
    Σ' (L3 : List (View.Piece (Elt F) S1280x512 .bf16)), { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg2 harg2 arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

theorem cover2_3 (y : S1280x512.Idx) :
    ∃ pc ∈ (kernelRun2 c i arg2 harg2 arg3 harg3 arg4 harg4 arg5 harg5 arg6 harg6 hc0 hc1 x0 x1 x2).1, y ∈ pc.1.set :=
  View.cover_of_tiledL (kernelRun2 c i arg2 harg2 arg3 harg3 arg4 harg4 arg5 harg5 arg6 harg6 hc0 hc1 x0 x1 x2).1 S1280x512.size (by sl_kernel_rfl) y

def out2 : Vec F S1280x512 .bf16 :=
  VO2.read (Elt F) (VO2.writes (Elt F) VO2.junk (kernelRun2 c i arg2 harg2 arg3 harg3 arg4 harg4 arg5 harg5 arg6 harg6 hc0 hc1 x0 x1 x2).1)

end

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def outAt2 (c : Dev nD) (t : Fin cfg2.N) : Vec F S1280x512 .bf16 :=
  out2 c (grid2.coords t) (ms2_0 t) (hs2_0 t) (ms2_1 t) (hs2_1 t) (ms2_2 t) (hs2_2 t) (ms2_3 t) (hs2_3 t) scM2 (Memref.isWhole_whole _) (hcond2_0 t) (hcond2_1 t) (iblk2 V c 0 t) (iblk2 V c 1 t) (iblk2 V c 2 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Pipeline.ΦA spec2 c from rfl, show (dat2 V c).Φ t.castSucc = Pipeline.ΦA spec2 c from rfl]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  unfold outAt2 out2; (try dsimp only)
  rw [PhiA2_eq]
  iintro ⟨⟨⟨HS, Hrest⟩, Hg⟩, Ho, ⟨%d0, H0⟩, ⟨%d1, H1⟩, ⟨%d2, H2⟩, ⟨%d3, H3⟩⟩
  iapply ((kernelRun2 c (grid2.coords t) _ _ _ _ _ _ _ _ _ _ (hcond2_0 t) (hcond2_1 t) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.KernelIdeal.Hand

end
-- ==== Proof.KI.R3.lean ====
import proofs.«408842_j29429115912637_1_alg».proof.Proof.Gen.KernelIdeal.Launch
import proofs.«408842_j29429115912637_1_alg».proof.Proof.Gen.KernelIdeal.Skeleton
import proofs.«408842_j29429115912637_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 1).val) 0#32)) 0#32) = 1#1

abbrev cond3_1 (i : grid3.Coords) : Prop := k3_cond2 i = 1#1
theorem hcond3_0 : ∀ t : Fin cfg3.N, cond3_0 (grid3.coords t) ↔ t.val % 8 = 0 :=
  (by decide +kernel : ∀ t : Fin grid3.N, cond3_0 (grid3.coords t) ↔ t.val % 8 = 0)
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

abbrev VO3 : View sig .tc .vmem S1280x512 .f32 := (Memref.whole cc3_stg3_0 : Memref sig .tc .vmem S1280x512 .f32).view
abbrev ms3_0 (t : Fin cfg3.N) : Memref sig .tc .vmem S1280x1280 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1280x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1280x512 .f32 := win3_3.stage (cfg3.slots t 3)
abbrev hs3_3 (t : Fin cfg3.N) : (ms3_3 t).IsWhole := hstage3_3 ((cfg3.slots t 3).cast nbuf3_3)

abbrev scM3 : Memref sig .tc .vmem S1280x512 .f32 := Memref.whole cc3_scratch0
abbrev VS3 : View sig .tc .vmem S1280x512 .f32 := scM3.view

abbrev rest3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns (c : Thread nD τ) scM3 fullShare d) ∗ rest3 c) ∗ (∃ r, prngReg c r)) := by
  unfold Pipeline.ΦA; rw [scopedRest3_split]; simp only [scM3, owns_whole]; try rfl

-- The body's three cases (first, middle and last contraction step) run on the same memrefs; the guards and what the accumulator holds on entry differ.
section
variable (c : Dev nD) (i : grid3.Coords) (arg2 : Memref sig .tc .vmem S1280x1280 .bf16) (harg2 : arg2.IsWhole) (arg3 : Memref sig .tc .vmem S1280x512 .bf16) (harg3 : arg3.IsWhole) (arg4 : Memref sig .tc .vmem S1x512 .f32) (harg4 : arg4.IsWhole) (arg5 : Memref sig .tc .vmem S1280x512 .f32) (harg5 : arg5.IsWhole) (arg6 : Memref sig .tc .vmem S1280x512 .f32) (harg6 : arg6.IsWhole)

set_option maxHeartbeats 4000000 in

noncomputable def kernelRun3_A (hc0 : cond3_0 i) (hc1 : ¬cond3_1 i)
    (x0 : Vec F S1280x1280 .bf16) (x1 : Vec F S1280x512 .bf16) :
    { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg2 harg2 arg3 harg3 arg4 harg4 arg5 harg5 arg6 harg6) K } := by
  refine ⟨?_, fun E K => ?run⟩
  case run =>
    simp only [cc3__matmul_kernel_eq_skeleton]; unfold cc3__matmul_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in

noncomputable def kernelRun3_B (hc0 : ¬cond3_0 i) (hc1 : ¬cond3_1 i)
    (x0 : Vec F S1280x1280 .bf16) (x1 : Vec F S1280x512 .bf16) (xs : Vec F S1280x512 .f32) :
    { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg2 harg2 arg3 harg3 arg4 harg4 arg5 harg5 arg6 harg6) K } := by
  refine ⟨?_, fun E K => ?run⟩
  case run =>
    simp only [cc3__matmul_kernel_eq_skeleton]; unfold cc3__matmul_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in

noncomputable def kernelRun3_C (hc0 : ¬cond3_0 i) (hc1 : cond3_1 i)
    (x0 : Vec F S1280x1280 .bf16) (x1 : Vec F S1280x512 .bf16) (x2 : Vec F S1x512 .f32) (xs : Vec F S1280x512 .f32) :
    Σ' (L3 : List (View.Piece (Elt F) S1280x512 .f32)), { LS0 : List (View.Piece (Elt F) S1280x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg2 harg2 arg3 harg3 arg4 harg4 arg5 harg5 arg6 harg6) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

theorem scover3_A (hc0 : cond3_0 i) (hc1 : ¬cond3_1 i)
    (x0 : Vec F S1280x1280 .bf16) (x1 : Vec F S1280x512 .bf16) (y : S1280x512.Idx) :
    ∃ pc ∈ (kernelRun3_A c i arg2 harg2 arg3 harg3 arg4 harg4 arg5 harg5 arg6 harg6 hc0 hc1 x0 x1).1, y ∈ pc.1.set :=
  View.cover_of_tiledL (kernelRun3_A c i arg2 harg2 arg3 harg3 arg4 harg4 arg5 harg5 arg6 harg6 hc0 hc1 x0 x1).1 S1280x512.size (by sl_kernel_rfl) y

def sout3_A (hc0 : cond3_0 i) (hc1 : ¬cond3_1 i)
    (x0 : Vec F S1280x1280 .bf16) (x1 : Vec F S1280x512 .bf16) : Vec F S1280x512 .f32 :=
  VS3.read (Elt F) (VS3.writes (Elt F) VS3.junk (kernelRun3_A c i arg2 harg2 arg3 harg3 arg4 harg4 arg5 harg5 arg6 harg6 hc0 hc1 x0 x1).1)

theorem scover3_B (hc0 : ¬cond3_0 i) (hc1 : ¬cond3_1 i)
    (x0 : Vec F S1280x1280 .bf16) (x1 : Vec F S1280x512 .bf16) (xs : Vec F S1280x512 .f32) (y : S1280x512.Idx) :
    ∃ pc ∈ (kernelRun3_B c i arg2 harg2 arg3 harg3 arg4 harg4 arg5 harg5 arg6 harg6 hc0 hc1 x0 x1 xs).1, y ∈ pc.1.set :=
  View.cover_of_tiledL (kernelRun3_B c i arg2 harg2 arg3 harg3 arg4 harg4 arg5 harg5 arg6 harg6 hc0 hc1 x0 x1 xs).1 S1280x512.size (by sl_kernel_rfl) y

def sout3_B (hc0 : ¬cond3_0 i) (hc1 : ¬cond3_1 i)
    (x0 : Vec F S1280x1280 .bf16) (x1 : Vec F S1280x512 .bf16) (xs : Vec F S1280x512 .f32) : Vec F S1280x512 .f32 :=
  VS3.read (Elt F) (VS3.writes (Elt F) VS3.junk (kernelRun3_B c i arg2 harg2 arg3 harg3 arg4 harg4 arg5 harg5 arg6 harg6 hc0 hc1 x0 x1 xs).1)

theorem cover3_C (hc0 : ¬cond3_0 i) (hc1 : cond3_1 i)
    (x0 : Vec F S1280x1280 .bf16) (x1 : Vec F S1280x512 .bf16) (x2 : Vec F S1x512 .f32) (xs : Vec F S1280x512 .f32) (y : S1280x512.Idx) :
    ∃ pc ∈ (kernelRun3_C c i arg2 harg2 arg3 harg3 arg4 harg4 arg5 harg5 arg6 harg6 hc0 hc1 x0 x1 x2 xs).1, y ∈ pc.1.set :=
  View.cover_of_tiledL (kernelRun3_C c i arg2 harg2 arg3 harg3 arg4 harg4 arg5 harg5 arg6 harg6 hc0 hc1 x0 x1 x2 xs).1 S1280x512.size (by sl_kernel_rfl) y

def out3_C (hc0 : ¬cond3_0 i) (hc1 : cond3_1 i)
    (x0 : Vec F S1280x1280 .bf16) (x1 : Vec F S1280x512 .bf16) (x2 : Vec F S1x512 .f32) (xs : Vec F S1280x512 .f32) : Vec F S1280x512 .f32 :=
  VO3.read (Elt F) (VO3.writes (Elt F) VO3.junk (kernelRun3_C c i arg2 harg2 arg3 harg3 arg4 harg4 arg5 harg5 arg6 harg6 hc0 hc1 x0 x1 x2 xs).1)

theorem scover3_C (hc0 : ¬cond3_0 i) (hc1 : cond3_1 i)
    (x0 : Vec F S1280x1280 .bf16) (x1 : Vec F S1280x512 .bf16) (x2 : Vec F S1x512 .f32) (xs : Vec F S1280x512 .f32) (y : S1280x512.Idx) :
    ∃ pc ∈ (kernelRun3_C c i arg2 harg2 arg3 harg3 arg4 harg4 arg5 harg5 arg6 harg6 hc0 hc1 x0 x1 x2 xs).2.1, y ∈ pc.1.set :=
  View.cover_of_tiledL (kernelRun3_C c i arg2 harg2 arg3 harg3 arg4 harg4 arg5 harg5 arg6 harg6 hc0 hc1 x0 x1 x2 xs).2.1 S1280x512.size (by sl_kernel_rfl) y

def sout3_C (hc0 : ¬cond3_0 i) (hc1 : cond3_1 i)
    (x0 : Vec F S1280x1280 .bf16) (x1 : Vec F S1280x512 .bf16) (x2 : Vec F S1x512 .f32) (xs : Vec F S1280x512 .f32) : Vec F S1280x512 .f32 :=
  VS3.read (Elt F) (VS3.writes (Elt F) VS3.junk (kernelRun3_C c i arg2 harg2 arg3 harg3 arg4 harg4 arg5 harg5 arg6 harg6 hc0 hc1 x0 x1 x2 xs).2.1)

end

def outIdle3 : Vec F S1280x512 .f32 := VO3.read (Elt F) (VO3.writes (Elt F) VO3.junk [])

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def outsAt3 (c : Dev nD) : (n : ℕ) → n < cfg3.N → Vec F S1280x512 .f32 × Vec F S1280x512 .f32
  | 0, hn => (outIdle3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 8 = 0 then
      if h1 : (n + 1) % 8 = 7 then
        False.elim (by omega)
      else
        (outIdle3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 8 = 7 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
         sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (outIdle3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (outIdle3, sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (outIdle3, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ rest3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ rest3 c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 64 := lt_of_lt_of_eq t.isLt (show cfg3.N = 64 from N_3)
  by_cases h0 : t.val % 8 = 0
  · have h1 : ¬t.val % 8 = 7 := by omega
    rw [Dat.leavesExact_idle (dat3 V c) 3 t (idleAt3_3 t (fun h => h1 ((hcond3_1 t).mp h))) (noFlush3_3 t (fun h => h1 ((hcond3_1 t).mp h)))]
    rw [outsAt3_A V c t h0 h1]
    unfold sout3_A; (try dsimp only)
    by_cases hz : t.val = 0
    · rw [PhiS3_castSucc V c t, PhiS3_zero V c _ _ hz, PhiA3_eq]
      iintro ⟨⟨⟨HS, Hrest⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C sout3_C; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover3_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover3_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨HS, Hrest⟩, Hg⟩
  isplitl [HS Hrest]
  · isplitl [HS]
    · iexists _; iexact HS
    iexact Hrest
  iexact Hg

end Cert.KernelIdeal.Hand

end
-- ==== Proof.KI.R4.lean ====
import proofs.«408842_j29429115912637_1_alg».proof.Proof.Gen.KernelIdeal.Launch
import proofs.«408842_j29429115912637_1_alg».proof.Proof.Gen.KernelIdeal.Skeleton
import proofs.«408842_j29429115912637_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop := (Scalar.cmpi .ne (Scalar.extui (Scalar.cmpi .eq (BitVec.ofNat 32 (i 1).val) 0#32)) 0#32) = 1#1

abbrev cond4_1 (i : grid4.Coords) : Prop := k4_cond2 i = 1#1

theorem hcond4_0 : ∀ t : Fin cfg4.N, cond4_0 (grid4.coords t) :=
  (by decide +kernel : ∀ t : Fin grid4.N, cond4_0 (grid4.coords t))
theorem hcond4_1 : ∀ t : Fin cfg4.N, cond4_1 (grid4.coords t) :=
  (by decide +kernel : ∀ t : Fin grid4.N, cond4_1 (grid4.coords t))

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel

abbrev VO4 : View sig .tc .vmem S1280x64 .f32 := (Memref.whole cc4_stg3_0 : Memref sig .tc .vmem S1280x64 .f32).view
abbrev ms4_0 (t : Fin cfg4.N) : Memref sig .tc .vmem S1280x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1280x64 .f32 := win4_3.stage (cfg4.slots t 3)
abbrev hs4_3 (t : Fin cfg4.N) : (ms4_3 t).IsWhole := hstage4_3 ((cfg4.slots t 3).cast nbuf4_3)

abbrev scM4 : Memref sig .tc .vmem S1280x64 .f32 := Memref.whole cc4_scratch0
abbrev VS4 : View sig .tc .vmem S1280x64 .f32 := scM4.view

theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

-- One statement of the body serves every point: its memrefs, its guards and the blocks it reads are parameters.
section
variable (c : Dev nD) (i : grid4.Coords) (arg2 : Memref sig .tc .vmem S1280x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S1280x64 .f32) (harg5 : arg5.IsWhole) (arg6 : Memref sig .tc .vmem S1280x64 .f32) (harg6 : arg6.IsWhole) (hc0 : cond4_0 i) (hc1 : cond4_1 i)
    (x0 : Vec F S1280x512 .f32) (x1 : Vec F S512x64 .f32) (x2 : Vec F S1x64 .f32)

set_option maxHeartbeats 4000000 in

noncomputable def kernelRun4 :
    Σ' (L3 : List (View.Piece (Elt F) S1280x64 .f32)), { LS0 : List (View.Piece (Elt F) S1280x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg2 harg2 arg3 harg3 arg4 harg4 arg5 harg5 arg6 harg6) K } := by
  refine ⟨?_, ?_, fun E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

theorem cover4_3 (y : S1280x64.Idx) :
    ∃ pc ∈ (kernelRun4 c i arg2 harg2 arg3 harg3 arg4 harg4 arg5 harg5 arg6 harg6 hc0 hc1 x0 x1 x2).1, y ∈ pc.1.set :=
  View.cover_of_tiledL (kernelRun4 c i arg2 harg2 arg3 harg3 arg4 harg4 arg5 harg5 arg6 harg6 hc0 hc1 x0 x1 x2).1 S1280x64.size (by sl_kernel_rfl) y

def out4 : Vec F S1280x64 .f32 :=
  VO4.read (Elt F) (VO4.writes (Elt F) VO4.junk (kernelRun4 c i arg2 harg2 arg3 harg3 arg4 harg4 arg5 harg5 arg6 harg6 hc0 hc1 x0 x1 x2).1)

end

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def outAt4 (c : Dev nD) (t : Fin cfg4.N) : Vec F S1280x64 .f32 :=
  out4 c (grid4.coords t) (ms4_0 t) (hs4_0 t) (ms4_1 t) (hs4_1 t) (ms4_2 t) (hs4_2 t) (ms4_3 t) (hs4_3 t) scM4 (Memref.isWhole_whole _) (hcond4_0 t) (hcond4_1 t) (iblk4 V c 0 t) (iblk4 V c 1 t) (iblk4 V c 2 t)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt4 V c t
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outAt4 V c t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = Pipeline.ΦA spec4 c from rfl, show (dat4 V c).Φ t.castSucc = Pipeline.ΦA spec4 c from rfl]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  unfold outAt4 out4; (try dsimp only)
  rw [PhiA4_eq]
  iintro ⟨⟨⟨HS, Hrest⟩, Hg⟩, Ho, ⟨%d0, H0⟩, ⟨%d1, H1⟩, ⟨%d2, H2⟩, ⟨%d3, H3⟩⟩
  iapply ((kernelRun4 c (grid4.coords t) _ _ _ _ _ _ _ _ _ _ (hcond4_0 t) (hcond4_1 t) (iblk4 V c 0 t) (iblk4 V c 1 t) (iblk4 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_3 c _ _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Cert.KernelIdeal.Hand

end
-- ==== Proof.KI.Run.lean ====
import proofs.«408842_j29429115912637_1_alg».proof.Proof.KI.R0
import proofs.«408842_j29429115912637_1_alg».proof.Proof.KI.R1
import proofs.«408842_j29429115912637_1_alg».proof.Proof.KI.R2
import proofs.«408842_j29429115912637_1_alg».proof.Proof.KI.R3
import proofs.«408842_j29429115912637_1_alg».proof.Proof.KI.R4
import proofs.«408842_j29429115912637_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev W4 : Dev nD → Valuation τ sig (Elt F) := fun c => StableHlo.after hostOps0_3 (W3 m c)

abbrev W5 : Dev nD → Valuation τ sig (Elt F) := fun c => StableHlo.after hostOps0_4 (W4 m c)

abbrev V5 : (c : Dev nD) → (b : Ref sig .tc) → Buf (Elt F) ((c : Thread nD τ).loc b) := fun c b => W5 m c b

def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev V6 : (c : Dev nD) → (b : Ref sig .tc) → Buf (Elt F) ((c : Thread nD τ).loc b) := fun c b => W6 m c b
theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)

abbrev W7 : Dev nD → Valuation τ sig (Elt F) := fun c => StableHlo.after hostOps1 (W6 m c)

abbrev V7 : (c : Dev nD) → (b : Ref sig .tc) → Buf (Elt F) ((c : Thread nD τ).loc b) := fun c b => W7 m c b

def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)

abbrev W9 : Dev nD → Valuation τ sig (Elt F) := fun c => StableHlo.after hostOps2 (W8 m c)

abbrev V9 : (c : Dev nD) → (b : Ref sig .tc) → Buf (Elt F) ((c : Thread nD τ).loc b) := fun c b => W9 m c b

def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)

abbrev W11 : Dev nD → Valuation τ sig (Elt F) := fun c => StableHlo.after hostOps3 (W10 m c)

abbrev V11 : (c : Dev nD) → (b : Ref sig .tc) → Buf (Elt F) ((c : Thread nD τ).loc b) := fun c b => W11 m c b

def W12 (c : Dev nD) : Valuation τ sig (Elt F) :=
  Pipeline.withArrays spec3 c (W11 m c) fun w => (dat3 (V11 m) c).arrAt w cfg3.N
theorem W12_arr (c : Dev nD) (w : Fin cfg3.W) :
    W12 m c (Proc.devRef .tc (Pipeline.arrRef spec3 w)) = (dat3 (V11 m) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
abbrev V12 : (c : Dev nD) → (b : Ref sig .tc) → Buf (Elt F) ((c : Thread nD τ).loc b) := fun c b => W12 m c b
theorem hF3 (c : Dev nD) (w : Fin cfg3.W) : (dat3 (V11 m) c).arrAt w cfg3.N = V12 m c (Pipeline.arrRef spec3 w) :=
  (W12_arr m c w).symm
theorem hrest3 (c : Dev nD) : ∀ b, b ∉ Finset.univ.image (Pipeline.arrRef spec3) → V12 m c b = V11 m c b :=
  fun b hb => W12_of_ne m c b fun w e => hb (Finset.mem_image.mpr ⟨w, Finset.mem_univ _, e⟩)

abbrev W13 : Dev nD → Valuation τ sig (Elt F) := fun c => StableHlo.after hostOps4 (W12 m c)

abbrev V13 : (c : Dev nD) → (b : Ref sig .tc) → Buf (Elt F) ((c : Thread nD τ).loc b) := fun c b => W13 m c b

def W14 (c : Dev nD) : Valuation τ sig (Elt F) :=
  Pipeline.withArrays spec4 c (W13 m c) fun w => (dat4 (V13 m) c).arrAt w cfg4.N
theorem W14_arr (c : Dev nD) (w : Fin cfg4.W) :
    W14 m c (Proc.devRef .tc (Pipeline.arrRef spec4 w)) = (dat4 (V13 m) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
abbrev V14 : (c : Dev nD) → (b : Ref sig .tc) → Buf (Elt F) ((c : Thread nD τ).loc b) := fun c b => W14 m c b
theorem hF4 (c : Dev nD) (w : Fin cfg4.W) : (dat4 (V13 m) c).arrAt w cfg4.N = V14 m c (Pipeline.arrRef spec4 w) :=
  (W14_arr m c w).symm
theorem hrest4 (c : Dev nD) : ∀ b, b ∉ Finset.univ.image (Pipeline.arrRef spec4) → V14 m c b = V13 m c b :=
  fun b hb => W14_of_ne m c b fun w e => hb (Finset.mem_image.mpr ⟨w, Finset.mem_univ _, e⟩)

abbrev W15 : Dev nD → Valuation τ sig (Elt F) := fun c => StableHlo.after hostOps5 (W14 m c)

abbrev W16 : Dev nD → Valuation τ sig (Elt F) := fun c => StableHlo.after hostOps5_1 (W15 m c)

-- No host stretch writes an argument and a region changes only its output array, so each argument reads at the end as at launch.
theorem W16_arg (c : Dev nD) (b : Ref sig .tc) (hb : b ∈ [main_arg0, main_arg1, main_arg2, main_arg3, main_arg4, main_arg5, main_arg6, main_arg7]) :
    W16 m c (Proc.devRef .tc b) = m ((c : Thread nD τ).loc b) := by
  simp only [List.mem_cons, List.mem_singleton, List.not_mem_nil, or_false] at hb
  rcases hb with rfl | rfl | rfl | rfl | rfl | rfl | rfl | rfl <;>
  exact (StableHlo.after_of_writes_sub hostOps5_1 _ hostOps5_1_writes (by decide)).trans <|
    (StableHlo.after_of_writes_sub hostOps5 _ hostOps5_writes (by decide)).trans <|
    Eq.trans (by first | exact W14_of_ne m c _ (by decide) | exact (W14_arr m c 1).trans (((dat4 (V13 m) c).arrAt_in 1 rfl _).trans (A_eq4 (V13 m) c 1))) <|
    (StableHlo.after_of_writes_sub hostOps4 _ hostOps4_writes (by decide)).trans <|
    (W12_of_ne m c _ (by decide)).trans <|
    (StableHlo.after_of_writes_sub hostOps3 _ hostOps3_writes (by decide)).trans <|
    Eq.trans (by first | exact W10_of_ne m c _ (by decide) | exact (W10_arr m c 1).trans (((dat2 (V9 m) c).arrAt_in 1 rfl _).trans (A_eq2 (V9 m) c 1))) <|
    (StableHlo.after_of_writes_sub hostOps2 _ hostOps2_writes (by decide)).trans <|
    (W8_of_ne m c _ (by decide)).trans <|
    (StableHlo.after_of_writes_sub hostOps1 _ hostOps1_writes (by decide)).trans <|
    Eq.trans (by first | exact W6_of_ne m c _ (by decide) | exact (W6_arr m c 1).trans (((dat0 (V5 m) c).arrAt_in 1 rfl _).trans (A_eq0 (V5 m) c 1))) <|
    (StableHlo.after_of_writes_sub hostOps0_4 _ hostOps0_4_writes (by decide)).trans <|
    (StableHlo.after_of_writes_sub hostOps0_3 _ hostOps0_3_writes (by decide)).trans <|
    (StableHlo.after_of_writes_sub hostOps0_2 _ hostOps0_2_writes (by decide)).trans <|
    (StableHlo.after_of_writes_sub hostOps0_1 _ hostOps0_1_writes (by decide)).trans <|
    (StableHlo.after_of_writes_sub hostOps0 _ hostOps0_writes (by decide)).trans rfl

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V5 m) c
  | ⟨1, _⟩ => fun c => dat1 (V7 m) c
  | ⟨2, _⟩ => fun c => dat2 (V9 m) c
  | ⟨3, _⟩ => fun c => dat3 (V11 m) c
  | ⟨4, _⟩ => fun c => dat4 (V13 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W16 m c) ∗ ∃ r, prngReg c r)

-- One construction serves the five regions: only the launch facts, the contents on entry and on exit, and the region's proof data differ.
set_option backward.isDefEq.respectTransparency.types false in
def regOf (p : Fin 5) (ln : Pipeline.LaunchFacts (nD := nD) (τ := τ) cfgs p)
    (Win Wout : Dev nD → Valuation τ sig (Elt F))
    (hq : ∀ c w, (pdats m p c).share w = fullShare)
    (hA : ∀ c w, (pdats m p c).A w = Win c (Proc.devRef .tc (Pipeline.arrRef (pcfgs (F := F) p).spec w)))
    (howed : ∀ c t, (pdats m p c).owed t = 0) (hrec : ∀ c, (pdats m p c).recorded 0 = Set.univ)
    (hbody : ∀ c, Pipeline.BodyObligationLoose (pdats m p c) defs₀ 𝒱₀ () Set.univ)
    (hin : ∀ c, Pipeline.ΦA (pcfgs (F := F) p).spec c ⊢ (pdats m p c).Φ 0)
    (hout : ∀ c, (pdats m p c).Φ (Fin.last _) ⊢ Pipeline.ΦA (pcfgs (F := F) p).spec c)
    (hF : ∀ c w, (pdats m p c).arrAt w (Pipeline.pin (pcfgs (F := F)) adm p).N = Wout c (Proc.devRef .tc (Pipeline.arrRef (pcfgs (F := F) p).spec w)))
    (hrest : ∀ c (b : Ref sig .tc), b ∉ Finset.univ.image (Pipeline.arrRef (pcfgs (F := F) p).spec) → Wout c (Proc.devRef .tc b) = Win c (Proc.devRef .tc b)) :
    Pipeline.RegionSeg (pcfgs (F := F)) adm (pdats m) () defs₀ 𝒱₀ L lv p where
  win := ln.win.to₀
  block_pos := ln.block_pos
  stage_whole := ln.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Win c (Proc.devRef .tc b))
  hentry c := by
    rw [Pipeline.ownSems0_none]
    have hsplit := Pipeline.arrays_of_unscopedBufs (p := p) (pcfgs (F := F)) adm (pdats m) ln.win ln.arr_whole c
      (hq c) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      ln.win ln.arr_whole c (pdats m) (hq c)
      (fun b => Win c (Proc.devRef .tc b)) (fun b => Wout c (Proc.devRef .tc b)) ((pdats m p c).arrAt · _) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) adm (pdats m) () defs₀ 𝒱₀ L lv 0 :=
  regOf m 0 launch0 (W5 m) (W6 m) (fun c => (dat0 (V5 m) c).share_full fun _ => rfl) (fun _ _ => rfl) (fun _ _ => rfl) (fun _ => rfl)
    (fun c => (body_obligation0 (V5 m) c).loose) (hin0 (V5 m)) (hout0 (V5 m)) (hF0 m) (hrest0 m)

set_option backward.isDefEq.respectTransparency.types false in
def reg1 : Pipeline.RegionSeg (pcfgs (F := F)) adm (pdats m) () defs₀ 𝒱₀ L lv 1 :=
  regOf m 1 launch1 (W7 m) (W8 m) (fun c => (dat1 (V7 m) c).share_full fun _ => rfl) (fun _ _ => rfl) (fun _ _ => rfl) (fun _ => rfl)
    (fun c => (body_obligation1 (V7 m) c).loose) (hin1 (V7 m)) (hout1 (V7 m)) (hF1 m) (hrest1 m)

set_option backward.isDefEq.respectTransparency.types false in
def reg2 : Pipeline.RegionSeg (pcfgs (F := F)) adm (pdats m) () defs₀ 𝒱₀ L lv 2 :=
  regOf m 2 launch2 (W9 m) (W10 m) (fun c => (dat2 (V9 m) c).share_full fun _ => rfl) (fun _ _ => rfl) (fun _ _ => rfl) (fun _ => rfl)
    (fun c => (body_obligation2 (V9 m) c).loose) (hin2 (V9 m)) (hout2 (V9 m)) (hF2 m) (hrest2 m)

set_option backward.isDefEq.respectTransparency.types false in
def reg3 : Pipeline.RegionSeg (pcfgs (F := F)) adm (pdats m) () defs₀ 𝒱₀ L lv 3 :=
  regOf m 3 launch3 (W11 m) (W12 m) (fun c => (dat3 (V11 m) c).share_full fun _ => rfl) (fun _ _ => rfl) (fun _ _ => rfl) (fun _ => rfl)
    (fun c => (body_obligation3 (V11 m) c).loose) (hin3 (V11 m)) (hout3 (V11 m)) (hF3 m) (hrest3 m)

set_option backward.isDefEq.respectTransparency.types false in
def reg4 : Pipeline.RegionSeg (pcfgs (F := F)) adm (pdats m) () defs₀ 𝒱₀ L lv 4 :=
  regOf m 4 launch4 (W13 m) (W14 m) (fun c => (dat4 (V13 m) c).share_full fun _ => rfl) (fun _ _ => rfl) (fun _ _ => rfl) (fun _ => rfl)
    (fun c => (body_obligation4 (V13 m) c).loose) (hin4 (V13 m)) (hout4 (V13 m)) (hF4 m) (hrest4 m)

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)),
    .region (reg3 m),
    .host (hseg hostOps4 hostOps4_sub hostOps4_fresh (W12 m)),
    .region (reg4 m),
    .host (hseg hostOps5 hostOps5_sub hostOps5_fresh (W14 m)),
    .host (hseg hostOps5_1 hostOps5_1_sub hostOps5_1_fresh (W15 m)) ]

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W16 m c) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (W16_arg m c main_arg0 (by decide)),
    (h c _ (mem_uc main_arg1 (by decide))).trans (W16_arg m c main_arg1 (by decide)),
    (h c _ (mem_uc main_arg2 (by decide))).trans (W16_arg m c main_arg2 (by decide)),
    (h c _ (mem_uc main_arg3 (by decide))).trans (W16_arg m c main_arg3 (by decide)),
    (h c _ (mem_uc main_arg4 (by decide))).trans (W16_arg m c main_arg4 (by decide)),
    (h c _ (mem_uc main_arg5 (by decide))).trans (W16_arg m c main_arg5 (by decide)),
    (h c _ (mem_uc main_arg6 (by decide))).trans (W16_arg m c main_arg6 (by decide)),
    (h c _ (mem_uc main_arg7 (by decide))).trans (W16_arg m c main_arg7 (by decide))⟩) (run_all m ρ)

end Cert.KernelIdeal.Hand

end
-- ==== Proof.RefRead.lean ====
import proofs.«408842_j29429115912637_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
-- The reference one operation at a time, each stage a function of the arguments it depends on, with the entrywise readings the bridge opens.
variable (x0 : (⟨S10000x512, .f32⟩ : BufTy).Contents (Elt F)) (x1 : (⟨S2x160000, .i32⟩ : BufTy).Contents (Elt F)) (x2 : (⟨S512x512, .f32⟩ : BufTy).Contents (Elt F)) (x3 : (⟨S512, .f32⟩ : BufTy).Contents (Elt F)) (x4 : (⟨S512x512, .f32⟩ : BufTy).Contents (Elt F)) (x5 : (⟨S512, .f32⟩ : BufTy).Contents (Elt F)) (x6 : (⟨S512x64, .f32⟩ : BufTy).Contents (Elt F)) (x7 : (⟨S64, .f32⟩ : BufTy).Contents (Elt F))

def val_main_v0 : (⟨S1x160000, .i32⟩ : BufTy).Contents (Elt F) :=
  extractStridedSlice S1x160000 ![0, 0] (x1) slices_S2x160000_S1x160000_0_0

def val_main_v1 : (⟨S160000, .i32⟩ : BufTy).Contents (Elt F) :=
  shapeCast _ (val_main_v0 (F := F) x1) shapeCasts_S1x160000_S160000

def val_main_v2 : (⟨S1x160000, .i32⟩ : BufTy).Contents (Elt F) :=
  extractStridedSlice S1x160000 ![1, 0] (x1) slices_S2x160000_S1x160000_1_0

def val_main_v3 : (⟨S160000, .i32⟩ : BufTy).Contents (Elt F) :=
  shapeCast _ (val_main_v2 (F := F) x1) shapeCasts_S1x160000_S160000

def val_main_v4 : (⟨S10000, .i32⟩ : BufTy).Contents (Elt F) :=
  iotaInDim S10000 32 0

def val_main_v5 : (⟨S170000, .i32⟩ : BufTy).Contents (Elt F) :=
  concatenate S170000 0 [⟨S160000, (val_main_v1 (F := F) x1)⟩, ⟨S10000, (val_main_v4 (F := F))⟩] concatenates_S160000_S10000_S170000_d0

def val_main_v6 : (⟨S170000, .i32⟩ : BufTy).Contents (Elt F) :=
  concatenate S170000 0 [⟨S160000, (val_main_v3 (F := F) x1)⟩, ⟨S10000, (val_main_v4 (F := F))⟩] concatenates_S160000_S10000_S170000_d0

def val_main_v7 : (⟨S160000, .i1⟩ : BufTy).Contents (Elt F) :=
  cmpi .ne (val_main_v1 (F := F) x1) (val_main_v3 (F := F) x1)

def val_main_v8 : (⟨S160000, .f32⟩ : BufTy).Contents (Elt F) :=
  uitofp (F := F) .f32 (val_main_v7 (F := F) x1)

def val_main_cst : (⟨S_, .f32⟩ : BufTy).Contents (Elt F) :=
  constant S_ .f32 0x3F800000#32

def val_main_v9 : (⟨S10000, .f32⟩ : BufTy).Contents (Elt F) :=
  broadcastInDim S10000 ![] bcast_S_S10000 (val_main_cst (F := F))

def val_main_v10 : (⟨S170000, .f32⟩ : BufTy).Contents (Elt F) :=
  concatenate S170000 0 [⟨S160000, (val_main_v8 (F := F) x1)⟩, ⟨S10000, (val_main_v9 (F := F))⟩] concatenates_S160000_S10000_S170000_d0

def val_main_v11 : (⟨S10000x512, .f32⟩ : BufTy).Contents (Elt F) :=
  Host.dotGeneral dot_S10000x512_S512x512_S10000x512_1_0_0_1_n_n none (x0) (x2)

theorem lhs_main_v11_0 (i : S10000x512.Idx) (q : dot_S10000x512_S512x512_S10000x512_1_0_0_1_n_n.contr.Idx) :
    (dot_S10000x512_S512x512_S10000x512_1_0_0_1_n_n.lhsIdx i q 0).val = (i 0).val := by
  unfold DotDims.lhsIdx
  rw [dif_neg (show ¬(0 : Fin S10000x512.rank) ∈ dot_S10000x512_S512x512_S10000x512_1_0_0_1_n_n.lhsBatch by decide), dif_pos (show (0 : Fin S10000x512.rank) ∈ dot_S10000x512_S512x512_S10000x512_1_0_0_1_n_n.lhsNonContracting by decide)]
  rfl

theorem lhs_main_v11_1 (i : S10000x512.Idx) (q : dot_S10000x512_S512x512_S10000x512_1_0_0_1_n_n.contr.Idx) :
    (dot_S10000x512_S512x512_S10000x512_1_0_0_1_n_n.lhsIdx i q 1).val = (q ⟨0, by decide⟩).val :=
  dot_S10000x512_S512x512_S10000x512_1_0_0_1_n_n.lhsIdx_val_of_single rfl i q

theorem rhs_main_v11_0 (i : S10000x512.Idx) (q : dot_S10000x512_S512x512_S10000x512_1_0_0_1_n_n.contr.Idx) :
    (dot_S10000x512_S512x512_S10000x512_1_0_0_1_n_n.rhsIdx i q 0).val = (q ⟨0, by decide⟩).val :=
  dot_S10000x512_S512x512_S10000x512_1_0_0_1_n_n.rhsIdx_val_of_single rfl i q

theorem rhs_main_v11_1 (i : S10000x512.Idx) (q : dot_S10000x512_S512x512_S10000x512_1_0_0_1_n_n.contr.Idx) :
    (dot_S10000x512_S512x512_S10000x512_1_0_0_1_n_n.rhsIdx i q 1).val = (i 1).val := by
  unfold DotDims.rhsIdx
  rw [dif_neg (show ¬(1 : Fin S512x512.rank) ∈ dot_S10000x512_S512x512_S10000x512_1_0_0_1_n_n.rhsBatch by decide), dif_pos (show (1 : Fin S512x512.rank) ∈ dot_S10000x512_S512x512_S10000x512_1_0_0_1_n_n.rhsNonContracting by decide)]
  rfl

abbrev lidx_main_v11 (i : S10000x512.Idx) (k : Fin 512) : S10000x512.Idx := fun a => match a with
  | ⟨0, _⟩ => ⟨(i 0).val, (i 0).isLt⟩
  | ⟨1, _⟩ => ⟨k.val, k.isLt⟩

abbrev ridx_main_v11 (i : S10000x512.Idx) (k : Fin 512) : S512x512.Idx := fun a => match a with
  | ⟨0, _⟩ => ⟨k.val, k.isLt⟩
  | ⟨1, _⟩ => ⟨(i 1).val, (i 1).isLt⟩

theorem val_main_v11_apply (x0 : (⟨S10000x512, .f32⟩ : BufTy).Contents (Elt Ideal)) (x2 : (⟨S512x512, .f32⟩ : BufTy).Contents (Elt Ideal)) (i : S10000x512.Idx) :
    val_main_v11 (F := Ideal) x0 x2 i = ∑ k : Fin 512, x0 (lidx_main_v11 i k) * x2 (ridx_main_v11 i k) := by
  unfold val_main_v11
  simp only [Host.dotGeneral]
  rw [Ideal.dotGeneral_apply, ← Equiv.sum_comp (ValueIdx.contrEquiv1 dot_S10000x512_S512x512_S10000x512_1_0_0_1_n_n 512 rfl rfl).symm]
  refine Finset.sum_congr rfl fun k _ => ?_
  have hk := ValueIdx.contrEquiv1_symm_val dot_S10000x512_S512x512_S10000x512_1_0_0_1_n_n 512 rfl rfl k
  have el : dot_S10000x512_S512x512_S10000x512_1_0_0_1_n_n.lhsIdx i ((ValueIdx.contrEquiv1 dot_S10000x512_S512x512_S10000x512_1_0_0_1_n_n 512 rfl rfl).symm k) = lidx_main_v11 i k := funext fun a => Fin.ext (by
    match a with
    | ⟨0, _⟩ => exact lhs_main_v11_0 _ _
    | ⟨1, _⟩ => exact (lhs_main_v11_1 _ _).trans hk)
  have er : dot_S10000x512_S512x512_S10000x512_1_0_0_1_n_n.rhsIdx i ((ValueIdx.contrEquiv1 dot_S10000x512_S512x512_S10000x512_1_0_0_1_n_n 512 rfl rfl).symm k) = ridx_main_v11 i k := funext fun a => Fin.ext (by
    match a with
    | ⟨0, _⟩ => exact (rhs_main_v11_0 _ _).trans hk
    | ⟨1, _⟩ => exact rhs_main_v11_1 _ _)
  rw [el, er]

def val_main_cst_0 : (⟨S_, .f32⟩ : BufTy).Contents (Elt F) :=
  constant S_ .f32 0x00000000#32

def val_main_v12 : (⟨S10000, .f32⟩ : BufTy).Contents (Elt F) :=
  broadcastInDim S10000 ![] bcast_S_S10000 (val_main_cst_0 (F := F))

def val_main_v13 : (⟨S170000x1, .i32⟩ : BufTy).Contents (Elt F) :=
  broadcastInDim S170000x1 ![0] bcast_S170000_S170000x1_0 (val_main_v6 (F := F) x1)

def val_main_v14 : (⟨S10000, .f32⟩ : BufTy).Contents (Elt F) :=
  Host.scatterAdd scatter_S10000_S170000x1_S170000_n_0_0_1 (val_main_v12 (F := F)) (val_main_v13 (F := F) x1) (val_main_v10 (F := F) x1)

def val_main_cst_1 : (⟨S_, .f32⟩ : BufTy).Contents (Elt F) :=
  constant S_ .f32 0x00000000#32

def val_main_v15 : (⟨S10000, .f32⟩ : BufTy).Contents (Elt F) :=
  broadcastInDim S10000 ![] bcast_S_S10000 (val_main_cst_1 (F := F))

def val_main_v16 : (⟨S10000, .i1⟩ : BufTy).Contents (Elt F) :=
  cmpf (F := F) .ogt (val_main_v14 (F := F) x1) (val_main_v15 (F := F))

def val_main_cst_2 : (⟨S_, .f32⟩ : BufTy).Contents (Elt F) :=
  constant S_ .f32 0x2B8CBCCC#32

def val_main_v17 : (⟨S10000, .f32⟩ : BufTy).Contents (Elt F) :=
  broadcastInDim S10000 ![] bcast_S_S10000 (val_main_cst_2 (F := F))

def val_main_v18 : (⟨S10000, .f32⟩ : BufTy).Contents (Elt F) :=
  maximumf (val_main_v14 (F := F) x1) (val_main_v17 (F := F))

def val_main_v19 : (⟨S10000, .f32⟩ : BufTy).Contents (Elt F) :=
  Host.rsqrt (val_main_v18 (F := F) x1)

def val_main_cst_3 : (⟨S_, .f32⟩ : BufTy).Contents (Elt F) :=
  constant S_ .f32 0x00000000#32

def val_main_call0_v0 : (⟨S_, .f32⟩ : BufTy).Contents (Elt F) :=
  id (val_main_cst_3 (F := F))

def val_main_call0_v1 : (⟨S10000, .f32⟩ : BufTy).Contents (Elt F) :=
  broadcastInDim S10000 ![] bcast_S_S10000 (val_main_call0_v0 (F := F))

def val_main_v20 : (⟨S10000, .f32⟩ : BufTy).Contents (Elt F) :=
  select (val_main_v16 (F := F) x1) (val_main_v19 (F := F) x1) (val_main_call0_v1 (F := F))

def val_main_c : (⟨S_, .i32⟩ : BufTy).Contents (Elt F) :=
  constantI S_ 32 0#32

def val_main_v21 : (⟨S170000, .i32⟩ : BufTy).Contents (Elt F) :=
  broadcastInDim S170000 ![] bcast_S_S170000 (val_main_c (F := F))

def val_main_v22 : (⟨S170000, .i1⟩ : BufTy).Contents (Elt F) :=
  cmpi .slt (val_main_v5 (F := F) x1) (val_main_v21 (F := F))

def val_main_c_4 : (⟨S_, .i32⟩ : BufTy).Contents (Elt F) :=
  constantI S_ 32 10000#32

def val_main_v23 : (⟨S170000, .i32⟩ : BufTy).Contents (Elt F) :=
  broadcastInDim S170000 ![] bcast_S_S170000 (val_main_c_4 (F := F))

def val_main_v24 : (⟨S170000, .i32⟩ : BufTy).Contents (Elt F) :=
  addi (val_main_v5 (F := F) x1) (val_main_v23 (F := F))

def val_main_v25 : (⟨S170000, .i32⟩ : BufTy).Contents (Elt F) :=
  select (val_main_v22 (F := F) x1) (val_main_v24 (F := F) x1) (val_main_v5 (F := F) x1)

def val_main_v26 : (⟨S170000x1, .i32⟩ : BufTy).Contents (Elt F) :=
  broadcastInDim S170000x1 ![0] bcast_S170000_S170000x1_0 (val_main_v25 (F := F) x1)

def val_main_v27 : (⟨S170000, .f32⟩ : BufTy).Contents (Elt F) :=
  Host.gather gather_S10000_S170000x1_S170000_n_0_n_n_0_1_1 (val_main_v20 (F := F) x1) (val_main_v26 (F := F) x1)

def val_main_c_5 : (⟨S_, .i32⟩ : BufTy).Contents (Elt F) :=
  constantI S_ 32 0#32

def val_main_v28 : (⟨S170000, .i32⟩ : BufTy).Contents (Elt F) :=
  broadcastInDim S170000 ![] bcast_S_S170000 (val_main_c_5 (F := F))

def val_main_v29 : (⟨S170000, .i1⟩ : BufTy).Contents (Elt F) :=
  cmpi .slt (val_main_v6 (F := F) x1) (val_main_v28 (F := F))

def val_main_c_6 : (⟨S_, .i32⟩ : BufTy).Contents (Elt F) :=
  constantI S_ 32 10000#32

def val_main_v30 : (⟨S170000, .i32⟩ : BufTy).Contents (Elt F) :=
  broadcastInDim S170000 ![] bcast_S_S170000 (val_main_c_6 (F := F))

def val_main_v31 : (⟨S170000, .i32⟩ : BufTy).Contents (Elt F) :=
  addi (val_main_v6 (F := F) x1) (val_main_v30 (F := F))

def val_main_v32 : (⟨S170000, .i32⟩ : BufTy).Contents (Elt F) :=
  select (val_main_v29 (F := F) x1) (val_main_v31 (F := F) x1) (val_main_v6 (F := F) x1)

def val_main_v33 : (⟨S170000x1, .i32⟩ : BufTy).Contents (Elt F) :=
  broadcastInDim S170000x1 ![0] bcast_S170000_S170000x1_0 (val_main_v32 (F := F) x1)

def val_main_v34 : (⟨S170000, .f32⟩ : BufTy).Contents (Elt F) :=
  Host.gather gather_S10000_S170000x1_S170000_n_0_n_n_0_1_1 (val_main_v20 (F := F) x1) (val_main_v33 (F := F) x1)

def val_main_v35 : (⟨S170000, .f32⟩ : BufTy).Contents (Elt F) :=
  mulf (val_main_v27 (F := F) x1) (val_main_v34 (F := F) x1)

def val_main_v36 : (⟨S170000, .f32⟩ : BufTy).Contents (Elt F) :=
  mulf (val_main_v35 (F := F) x1) (val_main_v10 (F := F) x1)

def val_main_c_7 : (⟨S_, .i32⟩ : BufTy).Contents (Elt F) :=
  constantI S_ 32 0#32

theorem val_main_c_7_apply (i : S_.Idx) :
    val_main_c_7 (F := F) i = 0#32 := rfl

def val_main_v37 : (⟨S170000, .i32⟩ : BufTy).Contents (Elt F) :=
  broadcastInDim S170000 ![] bcast_S_S170000 (val_main_c_7 (F := F))

abbrev idx_main_v37 (i : S170000.Idx) : S_.Idx := fun a => a.elim0

theorem val_main_v37_apply (i : S170000.Idx) :
    val_main_v37 (F := F) i = val_main_c_7 (F := F) (idx_main_v37 i) := by
  unfold val_main_v37
  generalize val_main_c_7 (F := F) = y
  exact broadcastInDim_apply _ bcast_S_S170000 y i (idx_main_v37 i) (fun a => a.elim0)

def val_main_v38 : (⟨S170000, .i1⟩ : BufTy).Contents (Elt F) :=
  cmpi .slt (val_main_v5 (F := F) x1) (val_main_v37 (F := F))

theorem val_main_v38_apply (i : S170000.Idx) :
    val_main_v38 (F := F) x1 i = IntOp.cmpi .slt (val_main_v5 (F := F) x1 i) (val_main_v37 (F := F) i) := rfl

def val_main_c_8 : (⟨S_, .i32⟩ : BufTy).Contents (Elt F) :=
  constantI S_ 32 10000#32

def val_main_v39 : (⟨S170000, .i32⟩ : BufTy).Contents (Elt F) :=
  broadcastInDim S170000 ![] bcast_S_S170000 (val_main_c_8 (F := F))

def val_main_v40 : (⟨S170000, .i32⟩ : BufTy).Contents (Elt F) :=
  addi (val_main_v5 (F := F) x1) (val_main_v39 (F := F))

def val_main_v41 : (⟨S170000, .i32⟩ : BufTy).Contents (Elt F) :=
  select (val_main_v38 (F := F) x1) (val_main_v40 (F := F) x1) (val_main_v5 (F := F) x1)

theorem val_main_v41_apply (i : S170000.Idx) :
    val_main_v41 (F := F) x1 i = Scalar.select (val_main_v38 (F := F) x1 i) (val_main_v40 (F := F) x1 i) (val_main_v5 (F := F) x1 i) := rfl

def val_main_v42 : (⟨S170000x1, .i32⟩ : BufTy).Contents (Elt F) :=
  broadcastInDim S170000x1 ![0] bcast_S170000_S170000x1_0 (val_main_v41 (F := F) x1)

abbrev idx_main_v42 (i : S170000x1.Idx) : S170000.Idx := fun a => match a with
  | ⟨0, _⟩ => ⟨(i 0).val, (i 0).isLt⟩

theorem val_main_v42_apply (i : S170000x1.Idx) :
    val_main_v42 (F := F) x1 i = val_main_v41 (F := F) x1 (idx_main_v42 i) := by
  unfold val_main_v42
  generalize val_main_v41 (F := F) x1 = y
  exact broadcastInDim_apply _ bcast_S170000_S170000x1_0 y i (idx_main_v42 i) (fun a => match a with
    | ⟨0, _⟩ => by show (i 0).val = if (170000 : Nat) = 1 then 0 else (i 0).val; rw [if_neg (by decide)])

def val_main_v43 : (⟨S170000x512, .f32⟩ : BufTy).Contents (Elt F) :=
  Host.gather gather_S10000x512_S170000x1_S170000x512_1_0_n_n_0_1_1512 (val_main_v11 (F := F) x0 x2) (val_main_v42 (F := F) x1)

def val_main_v44 : (⟨S170000x1, .f32⟩ : BufTy).Contents (Elt F) :=
  broadcastInDim S170000x1 ![0] bcast_S170000_S170000x1_0 (val_main_v36 (F := F) x1)

abbrev idx_main_v44 (i : S170000x1.Idx) : S170000.Idx := fun a => match a with
  | ⟨0, _⟩ => ⟨(i 0).val, (i 0).isLt⟩

theorem val_main_v44_apply (i : S170000x1.Idx) :
    val_main_v44 (F := F) x1 i = val_main_v36 (F := F) x1 (idx_main_v44 i) := by
  unfold val_main_v44
  generalize val_main_v36 (F := F) x1 = y
  exact broadcastInDim_apply _ bcast_S170000_S170000x1_0 y i (idx_main_v44 i) (fun a => match a with
    | ⟨0, _⟩ => by show (i 0).val = if (170000 : Nat) = 1 then 0 else (i 0).val; rw [if_neg (by decide)])

def val_main_v45 : (⟨S170000x512, .f32⟩ : BufTy).Contents (Elt F) :=
  broadcastInDim S170000x512 ![0, 1] bcast_S170000x1_S170000x512_0_1 (val_main_v44 (F := F) x1)

abbrev idx_main_v45 (i : S170000x512.Idx) : S170000x1.Idx := fun a => match a with
  | ⟨0, _⟩ => ⟨(i 0).val, (i 0).isLt⟩
  | ⟨1, _⟩ => ⟨0, Nat.one_pos⟩

theorem val_main_v45_apply (i : S170000x512.Idx) :
    val_main_v45 (F := F) x1 i = val_main_v44 (F := F) x1 (idx_main_v45 i) := by
  unfold val_main_v45
  generalize val_main_v44 (F := F) x1 = y
  exact broadcastInDim_apply _ bcast_S170000x1_S170000x512_0_1 y i (idx_main_v45 i) (fun a => match a with
    | ⟨0, _⟩ => by show (i 0).val = if (170000 : Nat) = 1 then 0 else (i 0).val; rw [if_neg (by decide)]
    | ⟨1, _⟩ => by show 0 = if (1 : Nat) = 1 then 0 else (i 1).val; rw [if_pos rfl])

def val_main_v46 : (⟨S170000x512, .f32⟩ : BufTy).Contents (Elt F) :=
  mulf (val_main_v43 (F := F) x0 x1 x2) (val_main_v45 (F := F) x1)

def val_main_cst_9 : (⟨S_, .f32⟩ : BufTy).Contents (Elt F) :=
  constant S_ .f32 0x00000000#32

theorem val_main_cst_9_apply (i : S_.Idx) :
    val_main_cst_9 (F := F) i = FloatOps.ofBits .f32 0x00000000#32 := rfl

def val_main_v47 : (⟨S10000x512, .f32⟩ : BufTy).Contents (Elt F) :=
  broadcastInDim S10000x512 ![] bcast_S_S10000x512 (val_main_cst_9 (F := F))

abbrev idx_main_v47 (i : S10000x512.Idx) : S_.Idx := fun a => a.elim0

theorem val_main_v47_apply (i : S10000x512.Idx) :
    val_main_v47 (F := F) i = val_main_cst_9 (F := F) (idx_main_v47 i) := by
  unfold val_main_v47
  generalize val_main_cst_9 (F := F) = y
  exact broadcastInDim_apply _ bcast_S_S10000x512 y i (idx_main_v47 i) (fun a => a.elim0)

def val_main_v48 : (⟨S170000x1, .i32⟩ : BufTy).Contents (Elt F) :=
  broadcastInDim S170000x1 ![0] bcast_S170000_S170000x1_0 (val_main_v6 (F := F) x1)

abbrev idx_main_v48 (i : S170000x1.Idx) : S170000.Idx := fun a => match a with
  | ⟨0, _⟩ => ⟨(i 0).val, (i 0).isLt⟩

theorem val_main_v48_apply (i : S170000x1.Idx) :
    val_main_v48 (F := F) x1 i = val_main_v6 (F := F) x1 (idx_main_v48 i) := by
  unfold val_main_v48
  generalize val_main_v6 (F := F) x1 = y
  exact broadcastInDim_apply _ bcast_S170000_S170000x1_0 y i (idx_main_v48 i) (fun a => match a with
    | ⟨0, _⟩ => by show (i 0).val = if (170000 : Nat) = 1 then 0 else (i 0).val; rw [if_neg (by decide)])

def val_main_v49 : (⟨S10000x512, .f32⟩ : BufTy).Contents (Elt F) :=
  Host.scatterAdd scatter_S10000x512_S170000x1_S170000x512_1_0_0_1 (val_main_v47 (F := F)) (val_main_v48 (F := F) x1) (val_main_v46 (F := F) x0 x1 x2)

def val_main_v50 : (⟨S1x512, .f32⟩ : BufTy).Contents (Elt F) :=
  broadcastInDim S1x512 ![1] bcast_S512_S1x512_1 (x3)

abbrev idx_main_v50 (i : S1x512.Idx) : S512.Idx := fun a => match a with
  | ⟨0, _⟩ => ⟨(i 1).val, (i 1).isLt⟩

theorem val_main_v50_apply (i : S1x512.Idx) :
    val_main_v50 (F := F) x3 i = x3 (idx_main_v50 i) := by
  unfold val_main_v50
  exact broadcastInDim_apply _ bcast_S512_S1x512_1 x3 i (idx_main_v50 i) (fun a => match a with
    | ⟨0, _⟩ => by show (i 1).val = if (512 : Nat) = 1 then 0 else (i 1).val; rw [if_neg (by decide)])

def val_main_v51 : (⟨S10000x512, .f32⟩ : BufTy).Contents (Elt F) :=
  broadcastInDim S10000x512 ![0, 1] bcast_S1x512_S10000x512_0_1 (val_main_v50 (F := F) x3)

abbrev idx_main_v51 (i : S10000x512.Idx) : S1x512.Idx := fun a => match a with
  | ⟨0, _⟩ => ⟨0, Nat.one_pos⟩
  | ⟨1, _⟩ => ⟨(i 1).val, (i 1).isLt⟩

theorem val_main_v51_apply (i : S10000x512.Idx) :
    val_main_v51 (F := F) x3 i = val_main_v50 (F := F) x3 (idx_main_v51 i) := by
  unfold val_main_v51
  generalize val_main_v50 (F := F) x3 = y
  exact broadcastInDim_apply _ bcast_S1x512_S10000x512_0_1 y i (idx_main_v51 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v52 : (⟨S10000x512, .f32⟩ : BufTy).Contents (Elt F) :=
  addf (val_main_v49 (F := F) x0 x1 x2) (val_main_v51 (F := F) x3)

theorem val_main_v52_apply (i : S10000x512.Idx) :
    val_main_v52 (F := F) x0 x1 x2 x3 i = FloatOps.addf (val_main_v49 (F := F) x0 x1 x2 i) (val_main_v51 (F := F) x3 i) := rfl

def val_main_call1_cst : (⟨S_, .f32⟩ : BufTy).Contents (Elt F) :=
  constant S_ .f32 0x00000000#32

theorem val_main_call1_cst_apply (i : S_.Idx) :
    val_main_call1_cst (F := F) i = FloatOps.ofBits .f32 0x00000000#32 := rfl

def val_main_call1_v0 : (⟨S10000x512, .f32⟩ : BufTy).Contents (Elt F) :=
  broadcastInDim S10000x512 ![] bcast_S_S10000x512 (val_main_call1_cst (F := F))

abbrev idx_main_call1_v0 (i : S10000x512.Idx) : S_.Idx := fun a => a.elim0

theorem val_main_call1_v0_apply (i : S10000x512.Idx) :
    val_main_call1_v0 (F := F) i = val_main_call1_cst (F := F) (idx_main_call1_v0 i) := by
  unfold val_main_call1_v0
  generalize val_main_call1_cst (F := F) = y
  exact broadcastInDim_apply _ bcast_S_S10000x512 y i (idx_main_call1_v0 i) (fun a => a.elim0)

def val_main_v53 : (⟨S10000x512, .f32⟩ : BufTy).Contents (Elt F) :=
  maximumf (val_main_v52 (F := F) x0 x1 x2 x3) (val_main_call1_v0 (F := F))

theorem val_main_v53_apply (i : S10000x512.Idx) :
    val_main_v53 (F := F) x0 x1 x2 x3 i = FloatOps.maximumf (val_main_v52 (F := F) x0 x1 x2 x3 i) (val_main_call1_v0 (F := F) i) := rfl

def val_main_v54 : (⟨S10000x512, .f32⟩ : BufTy).Contents (Elt F) :=
  Host.dotGeneral dot_S10000x512_S512x512_S10000x512_1_0_0_1_n_n none (val_main_v53 (F := F) x0 x1 x2 x3) (x4)

theorem lhs_main_v54_0 (i : S10000x512.Idx) (q : dot_S10000x512_S512x512_S10000x512_1_0_0_1_n_n.contr.Idx) :
    (dot_S10000x512_S512x512_S10000x512_1_0_0_1_n_n.lhsIdx i q 0).val = (i 0).val := by
  unfold DotDims.lhsIdx
  rw [dif_neg (show ¬(0 : Fin S10000x512.rank) ∈ dot_S10000x512_S512x512_S10000x512_1_0_0_1_n_n.lhsBatch by decide), dif_pos (show (0 : Fin S10000x512.rank) ∈ dot_S10000x512_S512x512_S10000x512_1_0_0_1_n_n.lhsNonContracting by decide)]
  rfl

theorem lhs_main_v54_1 (i : S10000x512.Idx) (q : dot_S10000x512_S512x512_S10000x512_1_0_0_1_n_n.contr.Idx) :
    (dot_S10000x512_S512x512_S10000x512_1_0_0_1_n_n.lhsIdx i q 1).val = (q ⟨0, by decide⟩).val :=
  dot_S10000x512_S512x512_S10000x512_1_0_0_1_n_n.lhsIdx_val_of_single rfl i q

theorem rhs_main_v54_0 (i : S10000x512.Idx) (q : dot_S10000x512_S512x512_S10000x512_1_0_0_1_n_n.contr.Idx) :
    (dot_S10000x512_S512x512_S10000x512_1_0_0_1_n_n.rhsIdx i q 0).val = (q ⟨0, by decide⟩).val :=
  dot_S10000x512_S512x512_S10000x512_1_0_0_1_n_n.rhsIdx_val_of_single rfl i q

theorem rhs_main_v54_1 (i : S10000x512.Idx) (q : dot_S10000x512_S512x512_S10000x512_1_0_0_1_n_n.contr.Idx) :
    (dot_S10000x512_S512x512_S10000x512_1_0_0_1_n_n.rhsIdx i q 1).val = (i 1).val := by
  unfold DotDims.rhsIdx
  rw [dif_neg (show ¬(1 : Fin S512x512.rank) ∈ dot_S10000x512_S512x512_S10000x512_1_0_0_1_n_n.rhsBatch by decide), dif_pos (show (1 : Fin S512x512.rank) ∈ dot_S10000x512_S512x512_S10000x512_1_0_0_1_n_n.rhsNonContracting by decide)]
  rfl

abbrev lidx_main_v54 (i : S10000x512.Idx) (k : Fin 512) : S10000x512.Idx := fun a => match a with
  | ⟨0, _⟩ => ⟨(i 0).val, (i 0).isLt⟩
  | ⟨1, _⟩ => ⟨k.val, k.isLt⟩

abbrev ridx_main_v54 (i : S10000x512.Idx) (k : Fin 512) : S512x512.Idx := fun a => match a with
  | ⟨0, _⟩ => ⟨k.val, k.isLt⟩
  | ⟨1, _⟩ => ⟨(i 1).val, (i 1).isLt⟩

theorem val_main_v54_apply (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (i : S10000x512.Idx) :
    val_main_v54 (F := Ideal) x0 x1 x2 x3 x4 i = ∑ k : Fin 512, (val_main_v53 (F := Ideal) x0 x1 x2 x3) (lidx_main_v54 i k) * x4 (ridx_main_v54 i k) := by
  unfold val_main_v54
  generalize val_main_v53 (F := Ideal) x0 x1 x2 x3 = y0
  simp only [Host.dotGeneral]
  rw [Ideal.dotGeneral_apply, ← Equiv.sum_comp (ValueIdx.contrEquiv1 dot_S10000x512_S512x512_S10000x512_1_0_0_1_n_n 512 rfl rfl).symm]
  refine Finset.sum_congr rfl fun k _ => ?_
  have hk := ValueIdx.contrEquiv1_symm_val dot_S10000x512_S512x512_S10000x512_1_0_0_1_n_n 512 rfl rfl k
  have el : dot_S10000x512_S512x512_S10000x512_1_0_0_1_n_n.lhsIdx i ((ValueIdx.contrEquiv1 dot_S10000x512_S512x512_S10000x512_1_0_0_1_n_n 512 rfl rfl).symm k) = lidx_main_v54 i k := funext fun a => Fin.ext (by
    match a with
    | ⟨0, _⟩ => exact lhs_main_v54_0 _ _
    | ⟨1, _⟩ => exact (lhs_main_v54_1 _ _).trans hk)
  have er : dot_S10000x512_S512x512_S10000x512_1_0_0_1_n_n.rhsIdx i ((ValueIdx.contrEquiv1 dot_S10000x512_S512x512_S10000x512_1_0_0_1_n_n 512 rfl rfl).symm k) = ridx_main_v54 i k := funext fun a => Fin.ext (by
    match a with
    | ⟨0, _⟩ => exact (rhs_main_v54_0 _ _).trans hk
    | ⟨1, _⟩ => exact rhs_main_v54_1 _ _)
  rw [el, er]

def val_main_cst_10 : (⟨S_, .f32⟩ : BufTy).Contents (Elt F) :=
  constant S_ .f32 0x00000000#32

def val_main_v55 : (⟨S10000, .f32⟩ : BufTy).Contents (Elt F) :=
  broadcastInDim S10000 ![] bcast_S_S10000 (val_main_cst_10 (F := F))

def val_main_v56 : (⟨S170000x1, .i32⟩ : BufTy).Contents (Elt F) :=
  broadcastInDim S170000x1 ![0] bcast_S170000_S170000x1_0 (val_main_v6 (F := F) x1)

def val_main_v57 : (⟨S10000, .f32⟩ : BufTy).Contents (Elt F) :=
  Host.scatterAdd scatter_S10000_S170000x1_S170000_n_0_0_1 (val_main_v55 (F := F)) (val_main_v56 (F := F) x1) (val_main_v10 (F := F) x1)

def val_main_cst_11 : (⟨S_, .f32⟩ : BufTy).Contents (Elt F) :=
  constant S_ .f32 0x00000000#32

def val_main_v58 : (⟨S10000, .f32⟩ : BufTy).Contents (Elt F) :=
  broadcastInDim S10000 ![] bcast_S_S10000 (val_main_cst_11 (F := F))

def val_main_v59 : (⟨S10000, .i1⟩ : BufTy).Contents (Elt F) :=
  cmpf (F := F) .ogt (val_main_v57 (F := F) x1) (val_main_v58 (F := F))

def val_main_cst_12 : (⟨S_, .f32⟩ : BufTy).Contents (Elt F) :=
  constant S_ .f32 0x2B8CBCCC#32

def val_main_v60 : (⟨S10000, .f32⟩ : BufTy).Contents (Elt F) :=
  broadcastInDim S10000 ![] bcast_S_S10000 (val_main_cst_12 (F := F))

def val_main_v61 : (⟨S10000, .f32⟩ : BufTy).Contents (Elt F) :=
  maximumf (val_main_v57 (F := F) x1) (val_main_v60 (F := F))

def val_main_v62 : (⟨S10000, .f32⟩ : BufTy).Contents (Elt F) :=
  Host.rsqrt (val_main_v61 (F := F) x1)

def val_main_cst_13 : (⟨S_, .f32⟩ : BufTy).Contents (Elt F) :=
  constant S_ .f32 0x00000000#32

def val_main_call2_v0 : (⟨S_, .f32⟩ : BufTy).Contents (Elt F) :=
  id (val_main_cst_13 (F := F))

def val_main_call2_v1 : (⟨S10000, .f32⟩ : BufTy).Contents (Elt F) :=
  broadcastInDim S10000 ![] bcast_S_S10000 (val_main_call2_v0 (F := F))

def val_main_v63 : (⟨S10000, .f32⟩ : BufTy).Contents (Elt F) :=
  select (val_main_v59 (F := F) x1) (val_main_v62 (F := F) x1) (val_main_call2_v1 (F := F))

def val_main_c_14 : (⟨S_, .i32⟩ : BufTy).Contents (Elt F) :=
  constantI S_ 32 0#32

def val_main_v64 : (⟨S170000, .i32⟩ : BufTy).Contents (Elt F) :=
  broadcastInDim S170000 ![] bcast_S_S170000 (val_main_c_14 (F := F))

def val_main_v65 : (⟨S170000, .i1⟩ : BufTy).Contents (Elt F) :=
  cmpi .slt (val_main_v5 (F := F) x1) (val_main_v64 (F := F))

def val_main_c_15 : (⟨S_, .i32⟩ : BufTy).Contents (Elt F) :=
  constantI S_ 32 10000#32

def val_main_v66 : (⟨S170000, .i32⟩ : BufTy).Contents (Elt F) :=
  broadcastInDim S170000 ![] bcast_S_S170000 (val_main_c_15 (F := F))

def val_main_v67 : (⟨S170000, .i32⟩ : BufTy).Contents (Elt F) :=
  addi (val_main_v5 (F := F) x1) (val_main_v66 (F := F))

def val_main_v68 : (⟨S170000, .i32⟩ : BufTy).Contents (Elt F) :=
  select (val_main_v65 (F := F) x1) (val_main_v67 (F := F) x1) (val_main_v5 (F := F) x1)

def val_main_v69 : (⟨S170000x1, .i32⟩ : BufTy).Contents (Elt F) :=
  broadcastInDim S170000x1 ![0] bcast_S170000_S170000x1_0 (val_main_v68 (F := F) x1)

def val_main_v70 : (⟨S170000, .f32⟩ : BufTy).Contents (Elt F) :=
  Host.gather gather_S10000_S170000x1_S170000_n_0_n_n_0_1_1 (val_main_v63 (F := F) x1) (val_main_v69 (F := F) x1)

def val_main_c_16 : (⟨S_, .i32⟩ : BufTy).Contents (Elt F) :=
  constantI S_ 32 0#32

def val_main_v71 : (⟨S170000, .i32⟩ : BufTy).Contents (Elt F) :=
  broadcastInDim S170000 ![] bcast_S_S170000 (val_main_c_16 (F := F))

def val_main_v72 : (⟨S170000, .i1⟩ : BufTy).Contents (Elt F) :=
  cmpi .slt (val_main_v6 (F := F) x1) (val_main_v71 (F := F))

def val_main_c_17 : (⟨S_, .i32⟩ : BufTy).Contents (Elt F) :=
  constantI S_ 32 10000#32

def val_main_v73 : (⟨S170000, .i32⟩ : BufTy).Contents (Elt F) :=
  broadcastInDim S170000 ![] bcast_S_S170000 (val_main_c_17 (F := F))

def val_main_v74 : (⟨S170000, .i32⟩ : BufTy).Contents (Elt F) :=
  addi (val_main_v6 (F := F) x1) (val_main_v73 (F := F))

def val_main_v75 : (⟨S170000, .i32⟩ : BufTy).Contents (Elt F) :=
  select (val_main_v72 (F := F) x1) (val_main_v74 (F := F) x1) (val_main_v6 (F := F) x1)

def val_main_v76 : (⟨S170000x1, .i32⟩ : BufTy).Contents (Elt F) :=
  broadcastInDim S170000x1 ![0] bcast_S170000_S170000x1_0 (val_main_v75 (F := F) x1)

def val_main_v77 : (⟨S170000, .f32⟩ : BufTy).Contents (Elt F) :=
  Host.gather gather_S10000_S170000x1_S170000_n_0_n_n_0_1_1 (val_main_v63 (F := F) x1) (val_main_v76 (F := F) x1)

def val_main_v78 : (⟨S170000, .f32⟩ : BufTy).Contents (Elt F) :=
  mulf (val_main_v70 (F := F) x1) (val_main_v77 (F := F) x1)

def val_main_v79 : (⟨S170000, .f32⟩ : BufTy).Contents (Elt F) :=
  mulf (val_main_v78 (F := F) x1) (val_main_v10 (F := F) x1)

def val_main_c_18 : (⟨S_, .i32⟩ : BufTy).Contents (Elt F) :=
  constantI S_ 32 0#32

def val_main_v80 : (⟨S170000, .i32⟩ : BufTy).Contents (Elt F) :=
  broadcastInDim S170000 ![] bcast_S_S170000 (val_main_c_18 (F := F))

def val_main_v81 : (⟨S170000, .i1⟩ : BufTy).Contents (Elt F) :=
  cmpi .slt (val_main_v5 (F := F) x1) (val_main_v80 (F := F))

def val_main_c_19 : (⟨S_, .i32⟩ : BufTy).Contents (Elt F) :=
  constantI S_ 32 10000#32

def val_main_v82 : (⟨S170000, .i32⟩ : BufTy).Contents (Elt F) :=
  broadcastInDim S170000 ![] bcast_S_S170000 (val_main_c_19 (F := F))

def val_main_v83 : (⟨S170000, .i32⟩ : BufTy).Contents (Elt F) :=
  addi (val_main_v5 (F := F) x1) (val_main_v82 (F := F))

def val_main_v84 : (⟨S170000, .i32⟩ : BufTy).Contents (Elt F) :=
  select (val_main_v81 (F := F) x1) (val_main_v83 (F := F) x1) (val_main_v5 (F := F) x1)

def val_main_v85 : (⟨S170000x1, .i32⟩ : BufTy).Contents (Elt F) :=
  broadcastInDim S170000x1 ![0] bcast_S170000_S170000x1_0 (val_main_v84 (F := F) x1)

abbrev idx_main_v85 (i : S170000x1.Idx) : S170000.Idx := fun a => match a with
  | ⟨0, _⟩ => ⟨(i 0).val, (i 0).isLt⟩

theorem val_main_v85_apply (i : S170000x1.Idx) :
    val_main_v85 (F := F) x1 i = val_main_v84 (F := F) x1 (idx_main_v85 i) := by
  unfold val_main_v85
  generalize val_main_v84 (F := F) x1 = y
  exact broadcastInDim_apply _ bcast_S170000_S170000x1_0 y i (idx_main_v85 i) (fun a => match a with
    | ⟨0, _⟩ => by show (i 0).val = if (170000 : Nat) = 1 then 0 else (i 0).val; rw [if_neg (by decide)])

def val_main_v86 : (⟨S170000x512, .f32⟩ : BufTy).Contents (Elt F) :=
  Host.gather gather_S10000x512_S170000x1_S170000x512_1_0_n_n_0_1_1512 (val_main_v54 (F := F) x0 x1 x2 x3 x4) (val_main_v85 (F := F) x1)

def val_main_v87 : (⟨S170000x1, .f32⟩ : BufTy).Contents (Elt F) :=
  broadcastInDim S170000x1 ![0] bcast_S170000_S170000x1_0 (val_main_v79 (F := F) x1)

abbrev idx_main_v87 (i : S170000x1.Idx) : S170000.Idx := fun a => match a with
  | ⟨0, _⟩ => ⟨(i 0).val, (i 0).isLt⟩

theorem val_main_v87_apply (i : S170000x1.Idx) :
    val_main_v87 (F := F) x1 i = val_main_v79 (F := F) x1 (idx_main_v87 i) := by
  unfold val_main_v87
  generalize val_main_v79 (F := F) x1 = y
  exact broadcastInDim_apply _ bcast_S170000_S170000x1_0 y i (idx_main_v87 i) (fun a => match a with
    | ⟨0, _⟩ => by show (i 0).val = if (170000 : Nat) = 1 then 0 else (i 0).val; rw [if_neg (by decide)])

def val_main_v88 : (⟨S170000x512, .f32⟩ : BufTy).Contents (Elt F) :=
  broadcastInDim S170000x512 ![0, 1] bcast_S170000x1_S170000x512_0_1 (val_main_v87 (F := F) x1)

abbrev idx_main_v88 (i : S170000x512.Idx) : S170000x1.Idx := fun a => match a with
  | ⟨0, _⟩ => ⟨(i 0).val, (i 0).isLt⟩
  | ⟨1, _⟩ => ⟨0, Nat.one_pos⟩

theorem val_main_v88_apply (i : S170000x512.Idx) :
    val_main_v88 (F := F) x1 i = val_main_v87 (F := F) x1 (idx_main_v88 i) := by
  unfold val_main_v88
  generalize val_main_v87 (F := F) x1 = y
  exact broadcastInDim_apply _ bcast_S170000x1_S170000x512_0_1 y i (idx_main_v88 i) (fun a => match a with
    | ⟨0, _⟩ => by show (i 0).val = if (170000 : Nat) = 1 then 0 else (i 0).val; rw [if_neg (by decide)]
    | ⟨1, _⟩ => by show 0 = if (1 : Nat) = 1 then 0 else (i 1).val; rw [if_pos rfl])

def val_main_v89 : (⟨S170000x512, .f32⟩ : BufTy).Contents (Elt F) :=
  mulf (val_main_v86 (F := F) x0 x1 x2 x3 x4) (val_main_v88 (F := F) x1)

def val_main_cst_20 : (⟨S_, .f32⟩ : BufTy).Contents (Elt F) :=
  constant S_ .f32 0x00000000#32

theorem val_main_cst_20_apply (i : S_.Idx) :
    val_main_cst_20 (F := F) i = FloatOps.ofBits .f32 0x00000000#32 := rfl

def val_main_v90 : (⟨S10000x512, .f32⟩ : BufTy).Contents (Elt F) :=
  broadcastInDim S10000x512 ![] bcast_S_S10000x512 (val_main_cst_20 (F := F))

abbrev idx_main_v90 (i : S10000x512.Idx) : S_.Idx := fun a => a.elim0

theorem val_main_v90_apply (i : S10000x512.Idx) :
    val_main_v90 (F := F) i = val_main_cst_20 (F := F) (idx_main_v90 i) := by
  unfold val_main_v90
  generalize val_main_cst_20 (F := F) = y
  exact broadcastInDim_apply _ bcast_S_S10000x512 y i (idx_main_v90 i) (fun a => a.elim0)

def val_main_v91 : (⟨S170000x1, .i32⟩ : BufTy).Contents (Elt F) :=
  broadcastInDim S170000x1 ![0] bcast_S170000_S170000x1_0 (val_main_v6 (F := F) x1)

abbrev idx_main_v91 (i : S170000x1.Idx) : S170000.Idx := fun a => match a with
  | ⟨0, _⟩ => ⟨(i 0).val, (i 0).isLt⟩

theorem val_main_v91_apply (i : S170000x1.Idx) :
    val_main_v91 (F := F) x1 i = val_main_v6 (F := F) x1 (idx_main_v91 i) := by
  unfold val_main_v91
  generalize val_main_v6 (F := F) x1 = y
  exact broadcastInDim_apply _ bcast_S170000_S170000x1_0 y i (idx_main_v91 i) (fun a => match a with
    | ⟨0, _⟩ => by show (i 0).val = if (170000 : Nat) = 1 then 0 else (i 0).val; rw [if_neg (by decide)])

def val_main_v92 : (⟨S10000x512, .f32⟩ : BufTy).Contents (Elt F) :=
  Host.scatterAdd scatter_S10000x512_S170000x1_S170000x512_1_0_0_1 (val_main_v90 (F := F)) (val_main_v91 (F := F) x1) (val_main_v89 (F := F) x0 x1 x2 x3 x4)

def val_main_v93 : (⟨S1x512, .f32⟩ : BufTy).Contents (Elt F) :=
  broadcastInDim S1x512 ![1] bcast_S512_S1x512_1 (x5)

abbrev idx_main_v93 (i : S1x512.Idx) : S512.Idx := fun a => match a with
  | ⟨0, _⟩ => ⟨(i 1).val, (i 1).isLt⟩

theorem val_main_v93_apply (i : S1x512.Idx) :
    val_main_v93 (F := F) x5 i = x5 (idx_main_v93 i) := by
  unfold val_main_v93
  exact broadcastInDim_apply _ bcast_S512_S1x512_1 x5 i (idx_main_v93 i) (fun a => match a with
    | ⟨0, _⟩ => by show (i 1).val = if (512 : Nat) = 1 then 0 else (i 1).val; rw [if_neg (by decide)])

def val_main_v94 : (⟨S10000x512, .f32⟩ : BufTy).Contents (Elt F) :=
  broadcastInDim S10000x512 ![0, 1] bcast_S1x512_S10000x512_0_1 (val_main_v93 (F := F) x5)

abbrev idx_main_v94 (i : S10000x512.Idx) : S1x512.Idx := fun a => match a with
  | ⟨0, _⟩ => ⟨0, Nat.one_pos⟩
  | ⟨1, _⟩ => ⟨(i 1).val, (i 1).isLt⟩

theorem val_main_v94_apply (i : S10000x512.Idx) :
    val_main_v94 (F := F) x5 i = val_main_v93 (F := F) x5 (idx_main_v94 i) := by
  unfold val_main_v94
  generalize val_main_v93 (F := F) x5 = y
  exact broadcastInDim_apply _ bcast_S1x512_S10000x512_0_1 y i (idx_main_v94 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v95 : (⟨S10000x512, .f32⟩ : BufTy).Contents (Elt F) :=
  addf (val_main_v92 (F := F) x0 x1 x2 x3 x4) (val_main_v94 (F := F) x5)

theorem val_main_v95_apply (i : S10000x512.Idx) :
    val_main_v95 (F := F) x0 x1 x2 x3 x4 x5 i = FloatOps.addf (val_main_v92 (F := F) x0 x1 x2 x3 x4 i) (val_main_v94 (F := F) x5 i) := rfl

def val_main_v96 : (⟨S10000x64, .f32⟩ : BufTy).Contents (Elt F) :=
  Host.dotGeneral dot_S10000x512_S512x64_S10000x64_1_0_0_1_n_n none (val_main_v95 (F := F) x0 x1 x2 x3 x4 x5) (x6)

theorem lhs_main_v96_0 (i : S10000x64.Idx) (q : dot_S10000x512_S512x64_S10000x64_1_0_0_1_n_n.contr.Idx) :
    (dot_S10000x512_S512x64_S10000x64_1_0_0_1_n_n.lhsIdx i q 0).val = (i 0).val := by
  unfold DotDims.lhsIdx
  rw [dif_neg (show ¬(0 : Fin S10000x512.rank) ∈ dot_S10000x512_S512x64_S10000x64_1_0_0_1_n_n.lhsBatch by decide), dif_pos (show (0 : Fin S10000x512.rank) ∈ dot_S10000x512_S512x64_S10000x64_1_0_0_1_n_n.lhsNonContracting by decide)]
  rfl

theorem lhs_main_v96_1 (i : S10000x64.Idx) (q : dot_S10000x512_S512x64_S10000x64_1_0_0_1_n_n.contr.Idx) :
    (dot_S10000x512_S512x64_S10000x64_1_0_0_1_n_n.lhsIdx i q 1).val = (q ⟨0, by decide⟩).val :=
  dot_S10000x512_S512x64_S10000x64_1_0_0_1_n_n.lhsIdx_val_of_single rfl i q

theorem rhs_main_v96_0 (i : S10000x64.Idx) (q : dot_S10000x512_S512x64_S10000x64_1_0_0_1_n_n.contr.Idx) :
    (dot_S10000x512_S512x64_S10000x64_1_0_0_1_n_n.rhsIdx i q 0).val = (q ⟨0, by decide⟩).val :=
  dot_S10000x512_S512x64_S10000x64_1_0_0_1_n_n.rhsIdx_val_of_single rfl i q

theorem rhs_main_v96_1 (i : S10000x64.Idx) (q : dot_S10000x512_S512x64_S10000x64_1_0_0_1_n_n.contr.Idx) :
    (dot_S10000x512_S512x64_S10000x64_1_0_0_1_n_n.rhsIdx i q 1).val = (i 1).val := by
  unfold DotDims.rhsIdx
  rw [dif_neg (show ¬(1 : Fin S512x64.rank) ∈ dot_S10000x512_S512x64_S10000x64_1_0_0_1_n_n.rhsBatch by decide), dif_pos (show (1 : Fin S512x64.rank) ∈ dot_S10000x512_S512x64_S10000x64_1_0_0_1_n_n.rhsNonContracting by decide)]
  rfl

abbrev lidx_main_v96 (i : S10000x64.Idx) (k : Fin 512) : S10000x512.Idx := fun a => match a with
  | ⟨0, _⟩ => ⟨(i 0).val, (i 0).isLt⟩
  | ⟨1, _⟩ => ⟨k.val, k.isLt⟩

abbrev ridx_main_v96 (i : S10000x64.Idx) (k : Fin 512) : S512x64.Idx := fun a => match a with
  | ⟨0, _⟩ => ⟨k.val, k.isLt⟩
  | ⟨1, _⟩ => ⟨(i 1).val, (i 1).isLt⟩

theorem val_main_v96_apply (x0 : (⟨S10000x512, .f32⟩ : BufTy).Contents (Elt Ideal)) (x1 : (⟨S2x160000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x64, .f32⟩ : BufTy).Contents (Elt Ideal)) (i : S10000x64.Idx) :
    val_main_v96 (F := Ideal) x0 x1 x2 x3 x4 x5 x6 i = ∑ k : Fin 512, (val_main_v95 (F := Ideal) x0 x1 x2 x3 x4 x5) (lidx_main_v96 i k) * x6 (ridx_main_v96 i k) := by
  unfold val_main_v96
  generalize val_main_v95 (F := Ideal) x0 x1 x2 x3 x4 x5 = y0
  simp only [Host.dotGeneral]
  rw [Ideal.dotGeneral_apply, ← Equiv.sum_comp (ValueIdx.contrEquiv1 dot_S10000x512_S512x64_S10000x64_1_0_0_1_n_n 512 rfl rfl).symm]
  refine Finset.sum_congr rfl fun k _ => ?_
  have hk := ValueIdx.contrEquiv1_symm_val dot_S10000x512_S512x64_S10000x64_1_0_0_1_n_n 512 rfl rfl k
  have el : dot_S10000x512_S512x64_S10000x64_1_0_0_1_n_n.lhsIdx i ((ValueIdx.contrEquiv1 dot_S10000x512_S512x64_S10000x64_1_0_0_1_n_n 512 rfl rfl).symm k) = lidx_main_v96 i k := funext fun a => Fin.ext (by
    match a with
    | ⟨0, _⟩ => exact lhs_main_v96_0 _ _
    | ⟨1, _⟩ => exact (lhs_main_v96_1 _ _).trans hk)
  have er : dot_S10000x512_S512x64_S10000x64_1_0_0_1_n_n.rhsIdx i ((ValueIdx.contrEquiv1 dot_S10000x512_S512x64_S10000x64_1_0_0_1_n_n 512 rfl rfl).symm k) = ridx_main_v96 i k := funext fun a => Fin.ext (by
    match a with
    | ⟨0, _⟩ => exact (rhs_main_v96_0 _ _).trans hk
    | ⟨1, _⟩ => exact rhs_main_v96_1 _ _)
  rw [el, er]

def val_main_v97 : (⟨S1x64, .f32⟩ : BufTy).Contents (Elt F) :=
  broadcastInDim S1x64 ![1] bcast_S64_S1x64_1 (x7)

abbrev idx_main_v97 (i : S1x64.Idx) : S64.Idx := fun a => match a with
  | ⟨0, _⟩ => ⟨(i 1).val, (i 1).isLt⟩

theorem val_main_v97_apply (i : S1x64.Idx) :
    val_main_v97 (F := F) x7 i = x7 (idx_main_v97 i) := by
  unfold val_main_v97
  exact broadcastInDim_apply _ bcast_S64_S1x64_1 x7 i (idx_main_v97 i) (fun a => match a with
    | ⟨0, _⟩ => by show (i 1).val = if (64 : Nat) = 1 then 0 else (i 1).val; rw [if_neg (by decide)])

def val_main_v98 : (⟨S10000x64, .f32⟩ : BufTy).Contents (Elt F) :=
  broadcastInDim S10000x64 ![0, 1] bcast_S1x64_S10000x64_0_1 (val_main_v97 (F := F) x7)

abbrev idx_main_v98 (i : S10000x64.Idx) : S1x64.Idx := fun a => match a with
  | ⟨0, _⟩ => ⟨0, Nat.one_pos⟩
  | ⟨1, _⟩ => ⟨(i 1).val, (i 1).isLt⟩

theorem val_main_v98_apply (i : S10000x64.Idx) :
    val_main_v98 (F := F) x7 i = val_main_v97 (F := F) x7 (idx_main_v98 i) := by
  unfold val_main_v98
  generalize val_main_v97 (F := F) x7 = y
  exact broadcastInDim_apply _ bcast_S1x64_S10000x64_0_1 y i (idx_main_v98 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v99 : (⟨S10000x64, .f32⟩ : BufTy).Contents (Elt F) :=
  addf (val_main_v96 (F := F) x0 x1 x2 x3 x4 x5 x6) (val_main_v98 (F := F) x7)

theorem val_main_v99_apply (i : S10000x64.Idx) :
    val_main_v99 (F := F) x0 x1 x2 x3 x4 x5 x6 x7 i = FloatOps.addf (val_main_v96 (F := F) x0 x1 x2 x3 x4 x5 x6 i) (val_main_v98 (F := F) x7 i) := rfl

def val_main_call3_cst : (⟨S_, .f32⟩ : BufTy).Contents (Elt F) :=
  constant S_ .f32 0xFF800000#32

def val_main_call3_v0 : (⟨S10000, .f32⟩ : BufTy).Contents (Elt F) :=
  Host.reduce FloatOps.maximumf (val_main_v99 (F := F) x0 x1 x2 x3 x4 x5 x6 x7) (val_main_call3_cst (F := F)) reducesTo_S10000x64_S10000_d1 h_S_

def val_main_call3_cst_0 : (⟨S_, .f32⟩ : BufTy).Contents (Elt F) :=
  constant S_ .f32 0xFF800000#32

def val_main_call3_v1 : (⟨S10000, .f32⟩ : BufTy).Contents (Elt F) :=
  broadcastInDim S10000 ![] bcast_S_S10000 (val_main_call3_cst_0 (F := F))

def val_main_call3_v2 : (⟨S10000, .f32⟩ : BufTy).Contents (Elt F) :=
  maximumf (val_main_call3_v1 (F := F)) (val_main_call3_v0 (F := F) x0 x1 x2 x3 x4 x5 x6 x7)

def val_main_call3_v3 : (⟨S10000x1, .f32⟩ : BufTy).Contents (Elt F) :=
  broadcastInDim S10000x1 ![0] bcast_S10000_S10000x1_0 (val_main_call3_v2 (F := F) x0 x1 x2 x3 x4 x5 x6 x7)

def val_main_call3_v4 : (⟨S10000x64, .f32⟩ : BufTy).Contents (Elt F) :=
  broadcastInDim S10000x64 ![0, 1] bcast_S10000x1_S10000x64_0_1 (val_main_call3_v3 (F := F) x0 x1 x2 x3 x4 x5 x6 x7)

def val_main_call3_v5 : (⟨S10000x64, .f32⟩ : BufTy).Contents (Elt F) :=
  subf (val_main_v99 (F := F) x0 x1 x2 x3 x4 x5 x6 x7) (val_main_call3_v4 (F := F) x0 x1 x2 x3 x4 x5 x6 x7)

def val_main_call3_v6 : (⟨S10000x64, .f32⟩ : BufTy).Contents (Elt F) :=
  Host.exp (val_main_call3_v5 (F := F) x0 x1 x2 x3 x4 x5 x6 x7)

def val_main_call3_cst_1 : (⟨S_, .f32⟩ : BufTy).Contents (Elt F) :=
  constant S_ .f32 0x00000000#32

def val_main_call3_v7 : (⟨S10000, .f32⟩ : BufTy).Contents (Elt F) :=
  Host.reduceAdd (val_main_call3_v6 (F := F) x0 x1 x2 x3 x4 x5 x6 x7) (val_main_call3_cst_1 (F := F)) reducesTo_S10000x64_S10000_d1 h_S_

def val_main_call3_v8 : (⟨S10000x1, .f32⟩ : BufTy).Contents (Elt F) :=
  broadcastInDim S10000x1 ![0] bcast_S10000_S10000x1_0 (val_main_call3_v7 (F := F) x0 x1 x2 x3 x4 x5 x6 x7)

def val_main_call3_v9 : (⟨S10000x1, .f32⟩ : BufTy).Contents (Elt F) :=
  Host.log (val_main_call3_v8 (F := F) x0 x1 x2 x3 x4 x5 x6 x7)

def val_main_call3_v10 : (⟨S10000x64, .f32⟩ : BufTy).Contents (Elt F) :=
  broadcastInDim S10000x64 ![0, 1] bcast_S10000x1_S10000x64_0_1 (val_main_call3_v9 (F := F) x0 x1 x2 x3 x4 x5 x6 x7)

def val_main_v100 : (⟨S10000x64, .f32⟩ : BufTy).Contents (Elt F) :=
  subf (val_main_call3_v5 (F := F) x0 x1 x2 x3 x4 x5 x6 x7) (val_main_call3_v10 (F := F) x0 x1 x2 x3 x4 x5 x6 x7)

end Cert.ReferenceIdeal.ReadP

end
-- ==== Proof.RefRun.lean ====
import proofs.«408842_j29429115912637_1_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ unary main_arg1 main_v0 ((extractStridedSlice S1x160000 ![0, 0] · slices_S2x160000_S1x160000_0_0) : (⟨S2x160000, .i32⟩ : BufTy).Contents (Elt F) → (⟨S1x160000, .i32⟩ : BufTy).Contents (Elt F)),
    reshape main_v0 main_v1 rfl shapeCasts_S1x160000_S160000,
    unary main_arg1 main_v2 ((extractStridedSlice S1x160000 ![1, 0] · slices_S2x160000_S1x160000_1_0) : (⟨S2x160000, .i32⟩ : BufTy).Contents (Elt F) → (⟨S1x160000, .i32⟩ : BufTy).Contents (Elt F)),
    reshape main_v2 main_v3 rfl shapeCasts_S1x160000_S160000,
    nullary main_v4 (iotaInDim S10000 32 0),
    binary main_v1 main_v4 main_v5 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    binary main_v3 main_v4 main_v6 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    binary main_v1 main_v3 main_v7 (cmpi .ne : (⟨S160000, .i32⟩ : BufTy).Contents (Elt F) → (⟨S160000, .i32⟩ : BufTy).Contents (Elt F) → (⟨S160000, .i1⟩ : BufTy).Contents (Elt F)),
    unary main_v7 main_v8 (uitofp (F := F) .f32 : (⟨S160000, .i1⟩ : BufTy).Contents (Elt F) → (⟨S160000, .f32⟩ : BufTy).Contents (Elt F)),
    nullary main_cst (constant S_ .f32 0x3F800000#32),
    unary main_cst main_v9 (broadcastInDim S10000 ![] bcast_S_S10000 : (⟨S_, .f32⟩ : BufTy).Contents (Elt F) → (⟨S10000, .f32⟩ : BufTy).Contents (Elt F)),
    binary main_v8 main_v9 main_v10 ((fun a b => concatenate S170000 0 [⟨S160000, a⟩, ⟨S10000, b⟩] concatenates_S160000_S10000_S170000_d0) : (⟨S160000, .f32⟩ : BufTy).Contents (Elt F) → (⟨S10000, .f32⟩ : BufTy).Contents (Elt F) → (⟨S170000, .f32⟩ : BufTy).Contents (Elt F)),
    binary main_arg0 main_arg2 main_v11 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    nullary main_cst_0 (constant S_ .f32 0x00000000#32),
    unary main_cst_0 main_v12 (broadcastInDim S10000 ![] bcast_S_S10000 : (⟨S_, .f32⟩ : BufTy).Contents (Elt F) → (⟨S10000, .f32⟩ : BufTy).Contents (Elt F)),
    unary main_v6 main_v13 (broadcastInDim S170000x1 ![0] bcast_S170000_S170000x1_0 : (⟨S170000, .i32⟩ : BufTy).Contents (Elt F) → (⟨S170000x1, .i32⟩ : BufTy).Contents (Elt F)),
    ternary main_v12 main_v13 main_v10 main_v14 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    nullary main_cst_1 (constant S_ .f32 0x00000000#32),
    unary main_cst_1 main_v15 (broadcastInDim S10000 ![] bcast_S_S10000 : (⟨S_, .f32⟩ : BufTy).Contents (Elt F) → (⟨S10000, .f32⟩ : BufTy).Contents (Elt F)),
    binary main_v14 main_v15 main_v16 (cmpf (F := F) .ogt : (⟨S10000, .f32⟩ : BufTy).Contents (Elt F) → (⟨S10000, .f32⟩ : BufTy).Contents (Elt F) → (⟨S10000, .i1⟩ : BufTy).Contents (Elt F)),
    nullary main_cst_2 (constant S_ .f32 0x2B8CBCCC#32),
    unary main_cst_2 main_v17 (broadcastInDim S10000 ![] bcast_S_S10000 : (⟨S_, .f32⟩ : BufTy).Contents (Elt F) → (⟨S10000, .f32⟩ : BufTy).Contents (Elt F)),
    binary main_v14 main_v17 main_v18 (maximumf : (⟨S10000, .f32⟩ : BufTy).Contents (Elt F) → (⟨S10000, .f32⟩ : BufTy).Contents (Elt F) → (⟨S10000, .f32⟩ : BufTy).Contents (Elt F)),
    unary main_v18 main_v19 (Host.rsqrt : (⟨S10000, .f32⟩ : BufTy).Contents (Elt F) → (⟨S10000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v16) (TRef.of (T := ⟨S10000, .f32⟩) main_v19) (TRef.of (T := ⟨S10000, .f32⟩) main_call0_v1) (TRef.of (T := ⟨S10000, .f32⟩) main_v20) select,
    nullary main_c (constantI S_ 32 0#32),
    unary main_c main_v21 (broadcastInDim S170000 ![] bcast_S_S170000 : (⟨S_, .i32⟩ : BufTy).Contents (Elt F) → (⟨S170000, .i32⟩ : BufTy).Contents (Elt F)),
    binary main_v5 main_v21 main_v22 (cmpi .slt : (⟨S170000, .i32⟩ : BufTy).Contents (Elt F) → (⟨S170000, .i32⟩ : BufTy).Contents (Elt F) → (⟨S170000, .i1⟩ : BufTy).Contents (Elt F)),
    nullary main_c_4 (constantI S_ 32 10000#32),
    unary main_c_4 main_v23 (broadcastInDim S170000 ![] bcast_S_S170000 : (⟨S_, .i32⟩ : BufTy).Contents (Elt F) → (⟨S170000, .i32⟩ : BufTy).Contents (Elt F)),
    binary main_v5 main_v23 main_v24 (addi : (⟨S170000, .i32⟩ : BufTy).Contents (Elt F) → (⟨S170000, .i32⟩ : BufTy).Contents (Elt F) → (⟨S170000, .i32⟩ : BufTy).Contents (Elt F)),
    ternary main_v22 main_v24 main_v5 main_v25 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v25 main_v26 (broadcastInDim S170000x1 ![0] bcast_S170000_S170000x1_0 : (⟨S170000, .i32⟩ : BufTy).Contents (Elt F) → (⟨S170000x1, .i32⟩ : BufTy).Contents (Elt F)),
    binary main_v20 main_v26 main_v27 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    nullary main_c_5 (constantI S_ 32 0#32),
    unary main_c_5 main_v28 (broadcastInDim S170000 ![] bcast_S_S170000 : (⟨S_, .i32⟩ : BufTy).Contents (Elt F) → (⟨S170000, .i32⟩ : BufTy).Contents (Elt F)),
    binary main_v6 main_v28 main_v29 (cmpi .slt : (⟨S170000, .i32⟩ : BufTy).Contents (Elt F) → (⟨S170000, .i32⟩ : BufTy).Contents (Elt F) → (⟨S170000, .i1⟩ : BufTy).Contents (Elt F)),
    nullary main_c_6 (constantI S_ 32 10000#32),
    unary main_c_6 main_v30 (broadcastInDim S170000 ![] bcast_S_S170000 : (⟨S_, .i32⟩ : BufTy).Contents (Elt F) → (⟨S170000, .i32⟩ : BufTy).Contents (Elt F)),
    binary main_v6 main_v30 main_v31 (addi : (⟨S170000, .i32⟩ : BufTy).Contents (Elt F) → (⟨S170000, .i32⟩ : BufTy).Contents (Elt F) → (⟨S170000, .i32⟩ : BufTy).Contents (Elt F)),
    ternary main_v29 main_v31 main_v6 main_v32 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v32 main_v33 (broadcastInDim S170000x1 ![0] bcast_S170000_S170000x1_0 : (⟨S170000, .i32⟩ : BufTy).Contents (Elt F) → (⟨S170000x1, .i32⟩ : BufTy).Contents (Elt F)),
    binary main_v20 main_v33 main_v34 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    binary main_v27 main_v34 main_v35 (mulf : (⟨S170000, .f32⟩ : BufTy).Contents (Elt F) → (⟨S170000, .f32⟩ : BufTy).Contents (Elt F) → (⟨S170000, .f32⟩ : BufTy).Contents (Elt F)),
    binary main_v35 main_v10 main_v36 (mulf : (⟨S170000, .f32⟩ : BufTy).Contents (Elt F) → (⟨S170000, .f32⟩ : BufTy).Contents (Elt F) → (⟨S170000, .f32⟩ : BufTy).Contents (Elt F)),
    nullary main_c_7 (constantI S_ 32 0#32),
    unary main_c_7 main_v37 (broadcastInDim S170000 ![] bcast_S_S170000 : (⟨S_, .i32⟩ : BufTy).Contents (Elt F) → (⟨S170000, .i32⟩ : BufTy).Contents (Elt F)),
    binary main_v5 main_v37 main_v38 (cmpi .slt : (⟨S170000, .i32⟩ : BufTy).Contents (Elt F) → (⟨S170000, .i32⟩ : BufTy).Contents (Elt F) → (⟨S170000, .i1⟩ : BufTy).Contents (Elt F)),
    nullary main_c_8 (constantI S_ 32 10000#32),
    unary main_c_8 main_v39 (broadcastInDim S170000 ![] bcast_S_S170000 : (⟨S_, .i32⟩ : BufTy).Contents (Elt F) → (⟨S170000, .i32⟩ : BufTy).Contents (Elt F)),
    binary main_v5 main_v39 main_v40 (addi : (⟨S170000, .i32⟩ : BufTy).Contents (Elt F) → (⟨S170000, .i32⟩ : BufTy).Contents (Elt F) → (⟨S170000, .i32⟩ : BufTy).Contents (Elt F)),
    ternary main_v38 main_v40 main_v5 main_v41 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v41 main_v42 (broadcastInDim S170000x1 ![0] bcast_S170000_S170000x1_0 : (⟨S170000, .i32⟩ : BufTy).Contents (Elt F) → (⟨S170000x1, .i32⟩ : BufTy).Contents (Elt F)),
    binary main_v11 main_v42 main_v43 ((fun x i => Host.gather gather_S10000x512_S170000x1_S170000x512_1_0_n_n_0_1_1512 x i) : (⟨S10000x512, .f32⟩ : BufTy).Contents (Elt F) → (⟨S170000x1, .i32⟩ : BufTy).Contents (Elt F) → (⟨S170000x512, .f32⟩ : BufTy).Contents (Elt F)),
    unary main_v36 main_v44 (broadcastInDim S170000x1 ![0] bcast_S170000_S170000x1_0 : (⟨S170000, .f32⟩ : BufTy).Contents (Elt F) → (⟨S170000x1, .f32⟩ : BufTy).Contents (Elt F)),
    unary main_v44 main_v45 (broadcastInDim S170000x512 ![0, 1] bcast_S170000x1_S170000x512_0_1 : (⟨S170000x1, .f32⟩ : BufTy).Contents (Elt F) → (⟨S170000x512, .f32⟩ : BufTy).Contents (Elt F)),
    binary main_v43 main_v45 main_v46 (mulf : (⟨S170000x512, .f32⟩ : BufTy).Contents (Elt F) → (⟨S170000x512, .f32⟩ : BufTy).Contents (Elt F) → (⟨S170000x512, .f32⟩ : BufTy).Contents (Elt F)),
    nullary main_cst_9 (constant S_ .f32 0x00000000#32),
    unary main_cst_9 main_v47 (broadcastInDim S10000x512 ![] bcast_S_S10000x512 : (⟨S_, .f32⟩ : BufTy).Contents (Elt F) → (⟨S10000x512, .f32⟩ : BufTy).Contents (Elt F)),
    unary main_v6 main_v48 (broadcastInDim S170000x1 ![0] bcast_S170000_S170000x1_0 : (⟨S170000, .i32⟩ : BufTy).Contents (Elt F) → (⟨S170000x1, .i32⟩ : BufTy).Contents (Elt F)),
    ternary main_v47 main_v48 main_v46 main_v49 ((fun x i u => Host.scatterAdd scatter_S10000x512_S170000x1_S170000x512_1_0_0_1 x i u) : (⟨S10000x512, .f32⟩ : BufTy).Contents (Elt F) → (⟨S170000x1, .i32⟩ : BufTy).Contents (Elt F) → (⟨S170000x512, .f32⟩ : BufTy).Contents (Elt F) → (⟨S10000x512, .f32⟩ : BufTy).Contents (Elt F)),
    unary main_arg3 main_v50 (broadcastInDim S1x512 ![1] bcast_S512_S1x512_1 : (⟨S512, .f32⟩ : BufTy).Contents (Elt F) → (⟨S1x512, .f32⟩ : BufTy).Contents (Elt F)),
    unary main_v50 main_v51 (broadcastInDim S10000x512 ![0, 1] bcast_S1x512_S10000x512_0_1 : (⟨S1x512, .f32⟩ : BufTy).Contents (Elt F) → (⟨S10000x512, .f32⟩ : BufTy).Contents (Elt F)),
    binary main_v49 main_v51 main_v52 (addf : (⟨S10000x512, .f32⟩ : BufTy).Contents (Elt F) → (⟨S10000x512, .f32⟩ : BufTy).Contents (Elt F) → (⟨S10000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x512, .f32⟩) main_call1_v0) (broadcastInDim S10000x512 ![] bcast_S_S10000x512),
    TRef.binary (TRef.of (T := ⟨S10000x512, .f32⟩) main_v52) (TRef.of (T := ⟨S10000x512, .f32⟩) main_call1_v0) (TRef.of (T := ⟨S10000x512, .f32⟩) main_v53) maximumf,
    binary main_v53 main_arg4 main_v54 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    nullary main_cst_10 (constant S_ .f32 0x00000000#32),
    unary main_cst_10 main_v55 (broadcastInDim S10000 ![] bcast_S_S10000 : (⟨S_, .f32⟩ : BufTy).Contents (Elt F) → (⟨S10000, .f32⟩ : BufTy).Contents (Elt F)),
    unary main_v6 main_v56 (broadcastInDim S170000x1 ![0] bcast_S170000_S170000x1_0 : (⟨S170000, .i32⟩ : BufTy).Contents (Elt F) → (⟨S170000x1, .i32⟩ : BufTy).Contents (Elt F)),
    ternary main_v55 main_v56 main_v10 main_v57 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    nullary main_cst_11 (constant S_ .f32 0x00000000#32),
    unary main_cst_11 main_v58 (broadcastInDim S10000 ![] bcast_S_S10000 : (⟨S_, .f32⟩ : BufTy).Contents (Elt F) → (⟨S10000, .f32⟩ : BufTy).Contents (Elt F)),
    binary main_v57 main_v58 main_v59 (cmpf (F := F) .ogt : (⟨S10000, .f32⟩ : BufTy).Contents (Elt F) → (⟨S10000, .f32⟩ : BufTy).Contents (Elt F) → (⟨S10000, .i1⟩ : BufTy).Contents (Elt F)),
    nullary main_cst_12 (constant S_ .f32 0x2B8CBCCC#32),
    unary main_cst_12 main_v60 (broadcastInDim S10000 ![] bcast_S_S10000 : (⟨S_, .f32⟩ : BufTy).Contents (Elt F) → (⟨S10000, .f32⟩ : BufTy).Contents (Elt F)),
    binary main_v57 main_v60 main_v61 (maximumf : (⟨S10000, .f32⟩ : BufTy).Contents (Elt F) → (⟨S10000, .f32⟩ : BufTy).Contents (Elt F) → (⟨S10000, .f32⟩ : BufTy).Contents (Elt F)),
    unary main_v61 main_v62 (Host.rsqrt : (⟨S10000, .f32⟩ : BufTy).Contents (Elt F) → (⟨S10000, .f32⟩ : BufTy).Contents (Elt F)),
    nullary main_cst_13 (constant S_ .f32 0x00000000#32),
    TRef.unary (TRef.of (T := ⟨S_, .f32⟩) main_cst_13) (TRef.of (T := ⟨S_, .f32⟩) main_call2_v0) id,
    TRef.unary (TRef.of (T := ⟨S_, .f32⟩) main_call2_v0) (TRef.of (T := ⟨S10000, .f32⟩) main_call2_v1) (broadcastInDim S10000 ![] bcast_S_S10000),
    TRef.ternary (TRef.of (T := ⟨S10000, .i1⟩) main_v59) (TRef.of (T := ⟨S10000, .f32⟩) main_v62) (TRef.of (T := ⟨S10000, .f32⟩) main_call2_v1) (TRef.of (T := ⟨S10000, .f32⟩) main_v63) select,
    nullary main_c_14 (constantI S_ 32 0#32),
    unary main_c_14 main_v64 (broadcastInDim S170000 ![] bcast_S_S170000 : (⟨S_, .i32⟩ : BufTy).Contents (Elt F) → (⟨S170000, .i32⟩ : BufTy).Contents (Elt F)),
    binary main_v5 main_v64 main_v65 (cmpi .slt : (⟨S170000, .i32⟩ : BufTy).Contents (Elt F) → (⟨S170000, .i32⟩ : BufTy).Contents (Elt F) → (⟨S170000, .i1⟩ : BufTy).Contents (Elt F)),
    nullary main_c_15 (constantI S_ 32 10000#32),
    unary main_c_15 main_v66 (broadcastInDim S170000 ![] bcast_S_S170000 : (⟨S_, .i32⟩ : BufTy).Contents (Elt F) → (⟨S170000, .i32⟩ : BufTy).Contents (Elt F)),
    binary main_v5 main_v66 main_v67 (addi : (⟨S170000, .i32⟩ : BufTy).Contents (Elt F) → (⟨S170000, .i32⟩ : BufTy).Contents (Elt F) → (⟨S170000, .i32⟩ : BufTy).Contents (Elt F)),
    ternary main_v65 main_v67 main_v5 main_v68 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v68 main_v69 (broadcastInDim S170000x1 ![0] bcast_S170000_S170000x1_0 : (⟨S170000, .i32⟩ : BufTy).Contents (Elt F) → (⟨S170000x1, .i32⟩ : BufTy).Contents (Elt F)),
    binary main_v63 main_v69 main_v70 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    nullary main_c_16 (constantI S_ 32 0#32),
    unary main_c_16 main_v71 (broadcastInDim S170000 ![] bcast_S_S170000 : (⟨S_, .i32⟩ : BufTy).Contents (Elt F) → (⟨S170000, .i32⟩ : BufTy).Contents (Elt F)),
    binary main_v6 main_v71 main_v72 (cmpi .slt : (⟨S170000, .i32⟩ : BufTy).Contents (Elt F) → (⟨S170000, .i32⟩ : BufTy).Contents (Elt F) → (⟨S170000, .i1⟩ : BufTy).Contents (Elt F)),
    nullary main_c_17 (constantI S_ 32 10000#32),
    unary main_c_17 main_v73 (broadcastInDim S170000 ![] bcast_S_S170000 : (⟨S_, .i32⟩ : BufTy).Contents (Elt F) → (⟨S170000, .i32⟩ : BufTy).Contents (Elt F)),
    binary main_v6 main_v73 main_v74 (addi : (⟨S170000, .i32⟩ : BufTy).Contents (Elt F) → (⟨S170000, .i32⟩ : BufTy).Contents (Elt F) → (⟨S170000, .i32⟩ : BufTy).Contents (Elt F)),
    ternary main_v72 main_v74 main_v6 main_v75 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v75 main_v76 (broadcastInDim S170000x1 ![0] bcast_S170000_S170000x1_0 : (⟨S170000, .i32⟩ : BufTy).Contents (Elt F) → (⟨S170000x1, .i32⟩ : BufTy).Contents (Elt F)),
    binary main_v63 main_v76 main_v77 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    binary main_v70 main_v77 main_v78 (mulf : (⟨S170000, .f32⟩ : BufTy).Contents (Elt F) → (⟨S170000, .f32⟩ : BufTy).Contents (Elt F) → (⟨S170000, .f32⟩ : BufTy).Contents (Elt F)),
    binary main_v78 main_v10 main_v79 (mulf : (⟨S170000, .f32⟩ : BufTy).Contents (Elt F) → (⟨S170000, .f32⟩ : BufTy).Contents (Elt F) → (⟨S170000, .f32⟩ : BufTy).Contents (Elt F)),
    nullary main_c_18 (constantI S_ 32 0#32),
    unary main_c_18 main_v80 (broadcastInDim S170000 ![] bcast_S_S170000 : (⟨S_, .i32⟩ : BufTy).Contents (Elt F) → (⟨S170000, .i32⟩ : BufTy).Contents (Elt F)),
    binary main_v5 main_v80 main_v81 (cmpi .slt : (⟨S170000, .i32⟩ : BufTy).Contents (Elt F) → (⟨S170000, .i32⟩ : BufTy).Contents (Elt F) → (⟨S170000, .i1⟩ : BufTy).Contents (Elt F)),
    nullary main_c_19 (constantI S_ 32 10000#32),
    unary main_c_19 main_v82 (broadcastInDim S170000 ![] bcast_S_S170000 : (⟨S_, .i32⟩ : BufTy).Contents (Elt F) → (⟨S170000, .i32⟩ : BufTy).Contents (Elt F)),
    binary main_v5 main_v82 main_v83 (addi : (⟨S170000, .i32⟩ : BufTy).Contents (Elt F) → (⟨S170000, .i32⟩ : BufTy).Contents (Elt F) → (⟨S170000, .i32⟩ : BufTy).Contents (Elt F)),
    ternary main_v81 main_v83 main_v5 main_v84 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v84 main_v85 (broadcastInDim S170000x1 ![0] bcast_S170000_S170000x1_0 : (⟨S170000, .i32⟩ : BufTy).Contents (Elt F) → (⟨S170000x1, .i32⟩ : BufTy).Contents (Elt F)),
    binary main_v54 main_v85 main_v86 ((fun x i => Host.gather gather_S10000x512_S170000x1_S170000x512_1_0_n_n_0_1_1512 x i) : (⟨S10000x512, .f32⟩ : BufTy).Contents (Elt F) → (⟨S170000x1, .i32⟩ : BufTy).Contents (Elt F) → (⟨S170000x512, .f32⟩ : BufTy).Contents (Elt F)),
    unary main_v79 main_v87 (broadcastInDim S170000x1 ![0] bcast_S170000_S170000x1_0 : (⟨S170000, .f32⟩ : BufTy).Contents (Elt F) → (⟨S170000x1, .f32⟩ : BufTy).Contents (Elt F)),
    unary main_v87 main_v88 (broadcastInDim S170000x512 ![0, 1] bcast_S170000x1_S170000x512_0_1 : (⟨S170000x1, .f32⟩ : BufTy).Contents (Elt F) → (⟨S170000x512, .f32⟩ : BufTy).Contents (Elt F)),
    binary main_v86 main_v88 main_v89 (mulf : (⟨S170000x512, .f32⟩ : BufTy).Contents (Elt F) → (⟨S170000x512, .f32⟩ : BufTy).Contents (Elt F) → (⟨S170000x512, .f32⟩ : BufTy).Contents (Elt F)),
    nullary main_cst_20 (constant S_ .f32 0x00000000#32),
    unary main_cst_20 main_v90 (broadcastInDim S10000x512 ![] bcast_S_S10000x512 : (⟨S_, .f32⟩ : BufTy).Contents (Elt F) → (⟨S10000x512, .f32⟩ : BufTy).Contents (Elt F)),
    unary main_v6 main_v91 (broadcastInDim S170000x1 ![0] bcast_S170000_S170000x1_0 : (⟨S170000, .i32⟩ : BufTy).Contents (Elt F) → (⟨S170000x1, .i32⟩ : BufTy).Contents (Elt F)),
    ternary main_v90 main_v91 main_v89 main_v92 ((fun x i u => Host.scatterAdd scatter_S10000x512_S170000x1_S170000x512_1_0_0_1 x i u) : (⟨S10000x512, .f32⟩ : BufTy).Contents (Elt F) → (⟨S170000x1, .i32⟩ : BufTy).Contents (Elt F) → (⟨S170000x512, .f32⟩ : BufTy).Contents (Elt F) → (⟨S10000x512, .f32⟩ : BufTy).Contents (Elt F)),
    unary main_arg5 main_v93 (broadcastInDim S1x512 ![1] bcast_S512_S1x512_1 : (⟨S512, .f32⟩ : BufTy).Contents (Elt F) → (⟨S1x512, .f32⟩ : BufTy).Contents (Elt F)),
    unary main_v93 main_v94 (broadcastInDim S10000x512 ![0, 1] bcast_S1x512_S10000x512_0_1 : (⟨S1x512, .f32⟩ : BufTy).Contents (Elt F) → (⟨S10000x512, .f32⟩ : BufTy).Contents (Elt F)),
    binary main_v92 main_v94 main_v95 (addf : (⟨S10000x512, .f32⟩ : BufTy).Contents (Elt F) → (⟨S10000x512, .f32⟩ : BufTy).Contents (Elt F) → (⟨S10000x512, .f32⟩ : BufTy).Contents (Elt F)),
    binary main_v95 main_arg6 main_v96 ((fun l r => Host.dotGeneral dot_S10000x512_S512x64_S10000x64_1_0_0_1_n_n none l r) : (⟨S10000x512, .f32⟩ : BufTy).Contents (Elt F) → (⟨S512x64, .f32⟩ : BufTy).Contents (Elt F) → (⟨S10000x64, .f32⟩ : BufTy).Contents (Elt F)),
    unary main_arg7 main_v97 (broadcastInDim S1x64 ![1] bcast_S64_S1x64_1 : (⟨S64, .f32⟩ : BufTy).Contents (Elt F) → (⟨S1x64, .f32⟩ : BufTy).Contents (Elt F)),
    unary main_v97 main_v98 (broadcastInDim S10000x64 ![0, 1] bcast_S1x64_S10000x64_0_1 : (⟨S1x64, .f32⟩ : BufTy).Contents (Elt F) → (⟨S10000x64, .f32⟩ : BufTy).Contents (Elt F)),
    binary main_v96 main_v98 main_v99 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call3_cst) (constant S_ .f32 0xFF800000#32),
    TRef.binary (TRef.of (T := ⟨S10000x64, .f32⟩) main_v99) (TRef.of (T := ⟨S_, .f32⟩) main_call3_cst) (TRef.of (T := ⟨S10000, .f32⟩) main_call3_v0) (fun x v => Host.reduce FloatOps.maximumf x v reducesTo_S10000x64_S10000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S10000, .f32⟩) main_call3_v1) (broadcastInDim S10000 ![] bcast_S_S10000),
    TRef.binary (TRef.of (T := ⟨S10000, .f32⟩) main_call3_v1) (TRef.of (T := ⟨S10000, .f32⟩) main_call3_v0) (TRef.of (T := ⟨S10000, .f32⟩) main_call3_v2) maximumf,
    TRef.unary (TRef.of (T := ⟨S10000, .f32⟩) main_call3_v2) (TRef.of (T := ⟨S10000x1, .f32⟩) main_call3_v3) (broadcastInDim S10000x1 ![0] bcast_S10000_S10000x1_0),
    TRef.unary (TRef.of (T := ⟨S10000x1, .f32⟩) main_call3_v3) (TRef.of (T := ⟨S10000x64, .f32⟩) main_call3_v4) (broadcastInDim S10000x64 ![0, 1] bcast_S10000x1_S10000x64_0_1),
    TRef.binary (TRef.of (T := ⟨S10000x64, .f32⟩) main_v99) (TRef.of (T := ⟨S10000x64, .f32⟩) main_call3_v4) (TRef.of (T := ⟨S10000x64, .f32⟩) main_call3_v5) subf,
    TRef.unary (TRef.of (T := ⟨S10000x64, .f32⟩) main_call3_v5) (TRef.of (T := ⟨S10000x64, .f32⟩) main_call3_v6) Host.exp,
    TRef.nullary (TRef.of (T := ⟨S_, .f32⟩) main_call3_cst_1) (constant S_ .f32 0x00000000#32),
    TRef.binary (TRef.of (T := ⟨S10000x64, .f32⟩) main_call3_v6) (TRef.of (T := ⟨S_, .f32⟩) main_call3_cst_1) (TRef.of (T := ⟨S10000, .f32⟩) main_call3_v7) (fun x v => Host.reduceAdd x v reducesTo_S10000x64_S10000_d1 h_S_),
    TRef.unary (TRef.of (T := ⟨S10000, .f32⟩) main_call3_v7) (TRef.of (T := ⟨S10000x1, .f32⟩) main_call3_v8) (broadcastInDim S10000x1 ![0] bcast_S10000_S10000x1_0),
    TRef.unary (TRef.of (T := ⟨S10000x1, .f32⟩) main_call3_v8) (TRef.of (T := ⟨S10000x1, .f32⟩) main_call3_v9) Host.log,
    TRef.unary (TRef.of (T := ⟨S10000x1, .f32⟩) main_call3_v9) (TRef.of (T := ⟨S10000x64, .f32⟩) main_call3_v10) (broadcastInDim S10000x64 ![0, 1] bcast_S10000x1_S10000x64_0_1),
    TRef.binary (TRef.of (T := ⟨S10000x64, .f32⟩) main_call3_v5) (TRef.of (T := ⟨S10000x64, .f32⟩) main_call3_v10) (TRef.of (T := ⟨S10000x64, .f32⟩) main_v100) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., binary_bufs_sub .., unary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

-- Each result ends at its stage of the arguments' contents: the operations, composed in order, unfold to it.
set_option maxRecDepth 65536 in
set_option maxHeartbeats 57600000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99) = ReadP.val_main_v99 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v100) = ReadP.val_main_v100 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v99).trans (by after_results_simp <;> rfl),
      (h c main_v100).trans (by after_results_simp <;> (try simp only [TRef.ofBuf, TRef.toBuf, cast_eq]) <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.ValueP

end
-- ==== Proof.Spec.lean ====
import Idealize.ShloMosaic.PureOps.Ideal
import Idealize.ShloMosaic.Lib.ValueIdx

noncomputable section

namespace Cert.Spec

open Idealize.ShloMosaic Idealize.ShloMosaic.ValueIdx

def mmb {M K N : Nat} (a : (⟨2, ![M, K]⟩ : Shape).Idx → EReal) (b : (⟨2, ![K, N]⟩ : Shape).Idx → EReal)
    (bias : (⟨2, ![1, N]⟩ : Shape).Idx → EReal) : (⟨2, ![M, N]⟩ : Shape).Idx → EReal :=
  fun i => (∑ k : Fin K, a (ix2 (i 0) k) * b (ix2 k (i 1))) + bias (ix2 0 (i 1))

def mmbRelu {M K N : Nat} (a : (⟨2, ![M, K]⟩ : Shape).Idx → EReal) (b : (⟨2, ![K, N]⟩ : Shape).Idx → EReal)
    (bias : (⟨2, ![1, N]⟩ : Shape).Idx → EReal) : (⟨2, ![M, N]⟩ : Shape).Idx → EReal :=
  fun i => max (mmb a b bias i) 0

def adj {E N : Nat} (dst src : (⟨1, ![E]⟩ : Shape).Idx → BitVec 32) (nrm : (⟨1, ![E]⟩ : Shape).Idx → EReal) :
    (⟨2, ![N, N]⟩ : Shape).Idx → EReal :=
  fun i => ∑ e ∈ Finset.univ.filter (fun e : (⟨1, ![E]⟩ : Shape).Idx => (dst e).toInt = ((i 0).val : Int) ∧ (src e).toInt = ((i 1).val : Int)), nrm e

def agg {E N D : Nat} (dst : (⟨1, ![E]⟩ : Shape).Idx → BitVec 32) (row : (⟨1, ![E]⟩ : Shape).Idx → Fin N)
    (nrm : (⟨1, ![E]⟩ : Shape).Idx → EReal) (H : (⟨2, ![N, D]⟩ : Shape).Idx → EReal) : (⟨2, ![N, D]⟩ : Shape).Idx → EReal :=
  fun i => ∑ e ∈ Finset.univ.filter (fun e : (⟨1, ![E]⟩ : Shape).Idx => (dst e).toInt = ((i 0).val : Int)), H (ix2 (row e) (i 1)) * nrm e

end Cert.Spec

end
-- ==== Proof.KI.Val0.lean ====
import proofs.«408842_j29429115912637_1_alg».proof.Proof.KI.R0
import proofs.«408842_j29429115912637_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Pieces

variable {F : FTy → Type} [FloatOps F]

theorem hz0 : (![0, 0] : Fin 2 → Nat) = fun _ => 0 := funext fun a => by fin_cases a <;> rfl

theorem readCov_cons_unit_zero0 {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem out0_eq (c : Dev nD) (i : grid0.Coords) (arg2 : Memref sig .tc .vmem S1280x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1280x512 .bf16) (harg5 : arg5.IsWhole) (arg6 : Memref sig .tc .vmem S1280x512 .f32) (harg6 : arg6.IsWhole) (hc0 : cond0_0 i) (hc1 : cond0_1 i)
    (x0 : Vec F S1280x512 .f32) (x1 : Vec F S512x512 .f32) (x2 : Vec F S1x512 .f32) :
    out0 c i arg2 harg2 arg3 harg3 arg4 harg4 arg5 harg5 arg6 harg6 hc0 hc1 x0 x1 x2 = k0_pay3 (k0_pay2 x0 x1 (k0_pay1 (F := F))) x2 := by
  unfold out0
  rw [View.read_writes_eq_canon _ _ _ (cover0_3 c i arg2 harg2 arg3 harg3 arg4 harg4 arg5 harg5 arg6 harg6 hc0 hc1 x0 x1 x2)]
  unfold kernelRun0
  dsimp only
  sl_unfold_words
  rw [View.canon_unit_zero hz0]
  simp only [View.readAt_eq_ld, harg2.read_unread, harg3.read_unread, harg4.read_unread, View.ld_unit_zero (S := S1280x512) hz0, View.ld_unit_zero (S := S512x512) hz0, View.ld_unit_zero (S := S1x512) hz0,
    View.readCov_unit_zero (S := S1280x512) _ hz0, readCov_cons_unit_zero0 (S := S1280x512) _ hz0]

end Pieces

theorem lhs_dot0_0 (i : S1280x512.Idx) (q : dot_S1280x512_S512x512_S1280x512_1_0_0_1_n_n.contr.Idx) :
    (dot_S1280x512_S512x512_S1280x512_1_0_0_1_n_n.lhsIdx i q 0).val = (i 0).val := by
  unfold DotDims.lhsIdx
  rw [dif_neg (show ¬(0 : Fin S1280x512.rank) ∈ dot_S1280x512_S512x512_S1280x512_1_0_0_1_n_n.lhsBatch by decide), dif_pos (show (0 : Fin S1280x512.rank) ∈ dot_S1280x512_S512x512_S1280x512_1_0_0_1_n_n.lhsNonContracting by decide)]
  rfl

theorem lhs_dot0_1 (i : S1280x512.Idx) (q : dot_S1280x512_S512x512_S1280x512_1_0_0_1_n_n.contr.Idx) :
    (dot_S1280x512_S512x512_S1280x512_1_0_0_1_n_n.lhsIdx i q 1).val = (q ⟨0, by decide⟩).val :=
  dot_S1280x512_S512x512_S1280x512_1_0_0_1_n_n.lhsIdx_val_of_single rfl i q

theorem rhs_dot0_0 (i : S1280x512.Idx) (q : dot_S1280x512_S512x512_S1280x512_1_0_0_1_n_n.contr.Idx) :
    (dot_S1280x512_S512x512_S1280x512_1_0_0_1_n_n.rhsIdx i q 0).val = (q ⟨0, by decide⟩).val :=
  dot_S1280x512_S512x512_S1280x512_1_0_0_1_n_n.rhsIdx_val_of_single rfl i q

theorem rhs_dot0_1 (i : S1280x512.Idx) (q : dot_S1280x512_S512x512_S1280x512_1_0_0_1_n_n.contr.Idx) :
    (dot_S1280x512_S512x512_S1280x512_1_0_0_1_n_n.rhsIdx i q 1).val = (i 1).val := by
  unfold DotDims.rhsIdx
  rw [dif_neg (show ¬(1 : Fin S512x512.rank) ∈ dot_S1280x512_S512x512_S1280x512_1_0_0_1_n_n.rhsBatch by decide), dif_pos (show (1 : Fin S512x512.rank) ∈ dot_S1280x512_S512x512_S1280x512_1_0_0_1_n_n.rhsNonContracting by decide)]
  rfl

theorem matmul0_apply {φ₁ φ₂ : FTy} (a : FVec Ideal S1280x512 φ₁) (b : FVec Ideal S512x512 φ₂) (p : Fin 1280) (q : Fin 512) :
    matmul (F := Ideal) dot_S1280x512_S512x512_S1280x512_1_0_0_1_n_n none a b (constant (F := Ideal) S1280x512 .f32 0x00000000#32) (ix2 p q)
      = ∑ k : Fin 512, a (ix2 p k) * b (ix2 k q) := by
  show FloatOps.matmul dot_S1280x512_S512x512_S1280x512_1_0_0_1_n_n none a b (constant (F := Ideal) S1280x512 .f32 0x00000000#32) (ix2 p q) = _
  rw [Ideal.matmul_constant_zero_apply, ← Equiv.sum_comp (contrEquiv1 dot_S1280x512_S512x512_S1280x512_1_0_0_1_n_n 512 rfl rfl).symm]
  refine Finset.sum_congr rfl fun k _ => ?_
  have hk := contrEquiv1_symm_val dot_S1280x512_S512x512_S1280x512_1_0_0_1_n_n 512 rfl rfl k
  have el : dot_S1280x512_S512x512_S1280x512_1_0_0_1_n_n.lhsIdx (ix2 p q) ((contrEquiv1 dot_S1280x512_S512x512_S1280x512_1_0_0_1_n_n 512 rfl rfl).symm k) = ix2 p k := funext fun ax => Fin.ext (by
    match ax with
    | ⟨0, _⟩ => exact lhs_dot0_0 _ _
    | ⟨1, _⟩ => exact (lhs_dot0_1 _ _).trans hk)
  have er : dot_S1280x512_S512x512_S1280x512_1_0_0_1_n_n.rhsIdx (ix2 p q) ((contrEquiv1 dot_S1280x512_S512x512_S1280x512_1_0_0_1_n_n 512 rfl rfl).symm k) = ix2 k q := funext fun ax => Fin.ext (by
    match ax with
    | ⟨0, _⟩ => exact (rhs_dot0_0 _ _).trans hk
    | ⟨1, _⟩ => exact rhs_dot0_1 _ _)
  rw [el, er]

theorem blockValue0_apply (a : Vec Ideal S1280x512 .f32) (b : Vec Ideal S512x512 .f32) (bias : Vec Ideal S1x512 .f32) (p : Fin 1280) (q : Fin 512) :
    k0_pay3 (F := Ideal) (k0_pay2 (F := Ideal) a b (k0_pay1 (F := Ideal))) bias (ix2 p q)
      = (∑ k : Fin 512, a (ix2 p k) * b (ix2 k q)) + bias (ix2 (0 : Fin 1) q) := by
  unfold k0_pay3 k0_pay2 k0_pay1
  simp only [shapeCast_self, truncf_apply, addf_apply]
  rw [broadcastTo_1b_ab_apply, matmul0_apply, broadcast_apply]
  show Ideal.ofBits .f32 0x00000000#32 + _ + _ = _
  rw [Ideal.ofBits_zero_f32, zero_add]
  rfl

theorem blockValue0_at (a : Vec Ideal S1280x512 .f32) (b : Vec Ideal S512x512 .f32) (bias : Vec Ideal S1x512 .f32) (j : S1280x512.Idx) :
    k0_pay3 (F := Ideal) (k0_pay2 (F := Ideal) a b (k0_pay1 (F := Ideal))) bias j
      = (∑ k : Fin 512, a (ix2 (j 0) k) * b (ix2 k (j 1))) + bias (ix2 (0 : Fin 1) (j 1)) := by
  obtain ⟨p, q, rfl⟩ : ∃ (p : Fin 1280) (q : Fin 512), j = ix2 p q := ⟨j 0, j 1, eq_ix2 j⟩
  exact blockValue0_apply a b bias p q

section Blocks

variable (V : (c : Dev nD) → (b : Ref sig .tc) → Buf (Elt Ideal) ((c : Thread nD τ).loc b))

theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

theorem idx_onto0 : ∀ (q0 : Fin 8), ∃ t : Fin cfg0.N, win0_3.index t = ![q0.val, 0] :=
  (by decide +kernel : ∀ (q0 : Fin 8), ∃ t : Fin grid0.N, win0_3.index t = ![q0.val, 0])

theorem flushed0_eq (c : Dev nD) (t : Fin cfg0.N) :
    (dat0 V c).flushed 3 t = ((cfg0.win 3).blk t).view.read (Elt Ideal)
      (Cert.Spec.mmb (M := 10240) (K := 512) (N := 512) (V c main_v52) (V c main_arg2) (V c main_v54)) := by
  show (cfg0.win 3).cut (grid0.coords t) ((dat0 V c).after 3 t) = _
  rw [after0_3]
  unfold outAt0
  rw [out0_eq]
  obtain ⟨e0, e1, e2, e3, e4, e5, e6, e7⟩ := idx_facts0 t
  funext j
  show k0_pay3 (F := Ideal) (k0_pay2 (F := Ideal) (iblk0 V c 0 t) (iblk0 V c 1 t) (k0_pay1 (F := Ideal))) (iblk0 V c 2 t) j
    = Cert.Spec.mmb (M := 10240) (K := 512) (N := 512) (V c main_v52) (V c main_arg2) (V c main_v54) (((cfg0.win 3).blk t).view.emb j)
  rw [blockValue0_at]
  unfold Cert.Spec.mmb
  have hj0 : (j 0).val < 1280 := (j 0).isLt
  have hj1 : (j 1).val < 512 := (j 1).isLt
  have hA : ∀ k : Fin 512, iblk0 V c 0 t (ix2 (j 0) k) = V c main_v52 (ix2 ((((cfg0.win 3).blk t).view.emb j) 0) k) := fun k => by
    show V c main_v52 (((cfg0.win 0).blk t).view.emb (ix2 (j 0) k)) = _
    refine congrArg (V c main_v52) (funext fun ax => Fin.ext ?_)
    match ax with
    | ⟨0, _⟩ => show win0_0.index t (0 : Fin 2) * 1280 + 1 * (j 0).val = win0_3.index t (0 : Fin 2) * 1280 + 1 * (j 0).val; omega
    | ⟨1, _⟩ => show win0_0.index t (1 : Fin 2) * 512 + 1 * k.val = k.val; omega
  have hB : ∀ k : Fin 512, iblk0 V c 1 t (ix2 k (j 1)) = V c main_arg2 (ix2 k ((((cfg0.win 3).blk t).view.emb j) 1)) := fun k => by
    show V c main_arg2 (((cfg0.win 1).blk t).view.emb (ix2 k (j 1))) = _
    refine congrArg (V c main_arg2) (funext fun ax => Fin.ext ?_)
    match ax with
    | ⟨0, _⟩ => show win0_1.index t (0 : Fin 2) * 512 + 1 * k.val = k.val; omega
    | ⟨1, _⟩ => show win0_1.index t (1 : Fin 2) * 512 + 1 * (j 1).val = win0_3.index t (1 : Fin 2) * 512 + 1 * (j 1).val; omega
  have hC : iblk0 V c 2 t (ix2 (0 : Fin 1) (j 1)) = V c main_v54 (ix2 (0 : Fin 1) ((((cfg0.win 3).blk t).view.emb j) 1)) := by
    show V c main_v54 (((cfg0.win 2).blk t).view.emb (ix2 (0 : Fin 1) (j 1))) = _
    refine congrArg (V c main_v54) (funext fun ax => Fin.ext ?_)
    match ax with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega
  rw [hC]
  exact congrArg (· + _) (Finset.sum_congr rfl fun k _ => by rw [hA k, hB k])

theorem mem_blk0 (t : Fin cfg0.N) (i : S10240x512.Idx) :
    i ∈ ((cfg0.win 3).blk t).view.set ↔ ∀ a : Fin 2, win0_3.index t a * S1280x512.size a ≤ (i a).val ∧ (i a).val < win0_3.index t a * S1280x512.size a + S1280x512.size a := by
  show i ∈ ((View.whole main_v55).slice (win0_3.rect t)).set ↔ _
  rw [View.set_slice_whole, Rect.mem_set_unit]
  exact Iff.rfl

theorem covered0 (i : S10240x512.Idx) :
    ∃ t : Fin cfg0.N, (cfg0.win 3).flush t = true ∧ i ∈ ((cfg0.win 3).blk t).view.set := by
  have hi0 : (i 0).val < 10240 := (i 0).isLt
  have hi1 : (i 1).val < 512 := (i 1).isLt
  obtain ⟨t, ht⟩ := idx_onto0 ⟨(i 0).val / 1280, by omega⟩
  have q0 : win0_3.index t (0 : Fin 2) = (i 0).val / 1280 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 1280 ≤ (i 0).val ∧ (i 0).val < win0_3.index t (0 : Fin 2) * 1280 + 1280; omega
  | ⟨1, _⟩ => show win0_3.index t (1 : Fin 2) * 512 ≤ (i 1).val ∧ (i 1).val < win0_3.index t (1 : Fin 2) * 512 + 512; omega

theorem final0 (c : Dev nD) :
    (dat0 V c).arrAt 3 cfg0.N = Cert.Spec.mmb (M := 10240) (K := 512) (N := 512) (V c main_v52) (V c main_arg2) (V c main_v54) :=
  (dat0 V c).arrAt_eq_of_cover 3 _ (fun t _ => flushed0_eq V c t) covered0

end Blocks

end Cert.KernelIdeal.Hand

end
-- ==== Proof.KI.Val1.lean ====
import proofs.«408842_j29429115912637_1_alg».proof.Proof.KI.R1
import proofs.«408842_j29429115912637_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Pieces

variable {F : FTy → Type} [FloatOps F]

theorem hz1 : (![0, 0] : Fin 2 → Nat) = fun _ => 0 := funext fun a => by fin_cases a <;> rfl

theorem readCov_cons_unit_zero1 {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem sout1_A_eq (c : Dev nD) (i : grid1.Coords) (arg2 : Memref sig .tc .vmem S1280x1280 .bf16) (harg2 : arg2.IsWhole) (arg3 : Memref sig .tc .vmem S1280x512 .bf16) (harg3 : arg3.IsWhole) (arg4 : Memref sig .tc .vmem S1x512 .f32) (harg4 : arg4.IsWhole) (arg5 : Memref sig .tc .vmem S1280x512 .f32) (harg5 : arg5.IsWhole) (arg6 : Memref sig .tc .vmem S1280x512 .f32) (harg6 : arg6.IsWhole) (hc0 : cond1_0 i) (hc1 : ¬cond1_1 i)
    (x0 : Vec F S1280x1280 .bf16) (x1 : Vec F S1280x512 .bf16) :
    sout1_A c i arg2 harg2 arg3 harg3 arg4 harg4 arg5 harg5 arg6 harg6 hc0 hc1 x0 x1 = k1_pay2 x0 x1 (k1_pay1 (F := F)) := by
  unfold sout1_A
  rw [View.read_writes_eq_canon _ _ _ (scover1_A c i arg2 harg2 arg3 harg3 arg4 harg4 arg5 harg5 arg6 harg6 hc0 hc1 x0 x1)]
  unfold kernelRun1_A
  dsimp only
  sl_unfold_words
  rw [View.canon_cons_unit_zero hz1]
  simp only [View.readAt_eq_ld, harg2.read_unread, harg3.read_unread, View.ld_unit_zero (S := S1280x1280) hz1,
    View.ld_unit_zero (S := S1280x512) hz1, View.readCov_unit_zero (S := S1280x512) _ hz1]

theorem sout1_B_eq (c : Dev nD) (i : grid1.Coords) (arg2 : Memref sig .tc .vmem S1280x1280 .bf16) (harg2 : arg2.IsWhole) (arg3 : Memref sig .tc .vmem S1280x512 .bf16) (harg3 : arg3.IsWhole) (arg4 : Memref sig .tc .vmem S1x512 .f32) (harg4 : arg4.IsWhole) (arg5 : Memref sig .tc .vmem S1280x512 .f32) (harg5 : arg5.IsWhole) (arg6 : Memref sig .tc .vmem S1280x512 .f32) (harg6 : arg6.IsWhole) (hc0 : ¬cond1_0 i) (hc1 : ¬cond1_1 i)
    (x0 : Vec F S1280x1280 .bf16) (x1 : Vec F S1280x512 .bf16) (xs : Vec F S1280x512 .f32) :
    sout1_B c i arg2 harg2 arg3 harg3 arg4 harg4 arg5 harg5 arg6 harg6 hc0 hc1 x0 x1 xs = k1_pay2 x0 x1 xs := by
  unfold sout1_B
  rw [View.read_writes_eq_canon _ _ _ (scover1_B c i arg2 harg2 arg3 harg3 arg4 harg4 arg5 harg5 arg6 harg6 hc0 hc1 x0 x1 xs)]
  unfold kernelRun1_B
  dsimp only
  sl_unfold_words
  rw [View.canon_unit_zero hz1]
  simp only [View.readAt_eq_ld, harg2.read_unread, harg3.read_unread, harg6.read_unread, View.ld_unit_zero (S := S1280x1280) hz1,
    View.ld_unit_zero (S := S1280x512) hz1]

theorem sout1_C_eq (c : Dev nD) (i : grid1.Coords) (arg2 : Memref sig .tc .vmem S1280x1280 .bf16) (harg2 : arg2.IsWhole) (arg3 : Memref sig .tc .vmem S1280x512 .bf16) (harg3 : arg3.IsWhole) (arg4 : Memref sig .tc .vmem S1x512 .f32) (harg4 : arg4.IsWhole) (arg5 : Memref sig .tc .vmem S1280x512 .f32) (harg5 : arg5.IsWhole) (arg6 : Memref sig .tc .vmem S1280x512 .f32) (harg6 : arg6.IsWhole) (hc0 : ¬cond1_0 i) (hc1 : cond1_1 i)
    (x0 : Vec F S1280x1280 .bf16) (x1 : Vec F S1280x512 .bf16) (x2 : Vec F S1x512 .f32) (xs : Vec F S1280x512 .f32) :
    sout1_C c i arg2 harg2 arg3 harg3 arg4 harg4 arg5 harg5 arg6 harg6 hc0 hc1 x0 x1 x2 xs = k1_pay2 x0 x1 xs := by
  unfold sout1_C
  rw [View.read_writes_eq_canon _ _ _ (scover1_C c i arg2 harg2 arg3 harg3 arg4 harg4 arg5 harg5 arg6 harg6 hc0 hc1 x0 x1 x2 xs)]
  unfold kernelRun1_C
  dsimp only
  sl_unfold_words
  rw [View.canon_unit_zero hz1]
  simp only [View.readAt_eq_ld, harg2.read_unread, harg3.read_unread, harg6.read_unread, View.ld_unit_zero (S := S1280x1280) hz1,
    View.ld_unit_zero (S := S1280x512) hz1]

theorem out1_C_eq (c : Dev nD) (i : grid1.Coords) (arg2 : Memref sig .tc .vmem S1280x1280 .bf16) (harg2 : arg2.IsWhole) (arg3 : Memref sig .tc .vmem S1280x512 .bf16) (harg3 : arg3.IsWhole) (arg4 : Memref sig .tc .vmem S1x512 .f32) (harg4 : arg4.IsWhole) (arg5 : Memref sig .tc .vmem S1280x512 .f32) (harg5 : arg5.IsWhole) (arg6 : Memref sig .tc .vmem S1280x512 .f32) (harg6 : arg6.IsWhole) (hc0 : ¬cond1_0 i) (hc1 : cond1_1 i)
    (x0 : Vec F S1280x1280 .bf16) (x1 : Vec F S1280x512 .bf16) (x2 : Vec F S1x512 .f32) (xs : Vec F S1280x512 .f32) :
    out1_C c i arg2 harg2 arg3 harg3 arg4 harg4 arg5 harg5 arg6 harg6 hc0 hc1 x0 x1 x2 xs = k1_pay3 (k1_pay2 x0 x1 xs) x2 := by
  unfold out1_C
  rw [View.read_writes_eq_canon _ _ _ (cover1_C c i arg2 harg2 arg3 harg3 arg4 harg4 arg5 harg5 arg6 harg6 hc0 hc1 x0 x1 x2 xs)]
  unfold kernelRun1_C
  dsimp only
  sl_unfold_words
  rw [View.canon_unit_zero hz1]
  simp only [View.readAt_eq_ld, harg2.read_unread, harg3.read_unread, harg4.read_unread, harg6.read_unread, View.ld_unit_zero (S := S1280x1280) hz1,
    View.ld_unit_zero (S := S1280x512) hz1, View.ld_unit_zero (S := S1x512) hz1, View.readCov_unit_zero (S := S1280x512) _ hz1]

end Pieces

section Payloads

open Idealize.ShloMosaic.ValueIdx

theorem lhs_mm1_0 (j : S1280x512.Idx) (q : dot_S1280x1280_S1280x512_S1280x512_1_0_0_1_n_n.contr.Idx) :
    (dot_S1280x1280_S1280x512_S1280x512_1_0_0_1_n_n.lhsIdx j q 0).val = (j 0).val := by
  unfold DotDims.lhsIdx
  rw [dif_neg (show ¬(0 : Fin S1280x1280.rank) ∈ dot_S1280x1280_S1280x512_S1280x512_1_0_0_1_n_n.lhsBatch by decide), dif_pos (show (0 : Fin S1280x1280.rank) ∈ dot_S1280x1280_S1280x512_S1280x512_1_0_0_1_n_n.lhsNonContracting by decide)]
  rfl
theorem lhs_mm1_1 (j : S1280x512.Idx) (q : dot_S1280x1280_S1280x512_S1280x512_1_0_0_1_n_n.contr.Idx) :
    (dot_S1280x1280_S1280x512_S1280x512_1_0_0_1_n_n.lhsIdx j q 1).val = (q ⟨0, by decide⟩).val :=
  dot_S1280x1280_S1280x512_S1280x512_1_0_0_1_n_n.lhsIdx_val_of_single rfl j q
theorem rhs_mm1_0 (j : S1280x512.Idx) (q : dot_S1280x1280_S1280x512_S1280x512_1_0_0_1_n_n.contr.Idx) :
    (dot_S1280x1280_S1280x512_S1280x512_1_0_0_1_n_n.rhsIdx j q 0).val = (q ⟨0, by decide⟩).val :=
  dot_S1280x1280_S1280x512_S1280x512_1_0_0_1_n_n.rhsIdx_val_of_single rfl j q
theorem rhs_mm1_1 (j : S1280x512.Idx) (q : dot_S1280x1280_S1280x512_S1280x512_1_0_0_1_n_n.contr.Idx) :
    (dot_S1280x1280_S1280x512_S1280x512_1_0_0_1_n_n.rhsIdx j q 1).val = (j 1).val := by
  unfold DotDims.rhsIdx
  rw [dif_neg (show ¬(1 : Fin S1280x512.rank) ∈ dot_S1280x1280_S1280x512_S1280x512_1_0_0_1_n_n.rhsBatch by decide), dif_pos (show (1 : Fin S1280x512.rank) ∈ dot_S1280x1280_S1280x512_S1280x512_1_0_0_1_n_n.rhsNonContracting by decide)]
  rfl

theorem mm1_apply (x0 : FVec Ideal S1280x1280 .bf16) (x1 : FVec Ideal S1280x512 .bf16) (p : Fin 1280) (q : Fin 512) :
    FloatOps.matmul dot_S1280x1280_S1280x512_S1280x512_1_0_0_1_n_n none x0 x1 (constant (F := Ideal) S1280x512 .f32 0x00000000#32) (ix2 p q)
      = ∑ kk : Fin 1280, x0 (ix2 p kk) * x1 (ix2 kk q) := by
  rw [Ideal.matmul_constant_zero_apply, ← Equiv.sum_comp (contrEquiv1 dot_S1280x1280_S1280x512_S1280x512_1_0_0_1_n_n 1280 rfl rfl).symm]
  refine Finset.sum_congr rfl fun k _ => ?_
  have hk := contrEquiv1_symm_val dot_S1280x1280_S1280x512_S1280x512_1_0_0_1_n_n 1280 rfl rfl k
  have el : dot_S1280x1280_S1280x512_S1280x512_1_0_0_1_n_n.lhsIdx (ix2 p q) ((contrEquiv1 dot_S1280x1280_S1280x512_S1280x512_1_0_0_1_n_n 1280 rfl rfl).symm k) = ix2 p k := funext fun a => Fin.ext (by
    match a with
    | ⟨0, _⟩ => exact lhs_mm1_0 _ _
    | ⟨1, _⟩ => exact (lhs_mm1_1 _ _).trans hk)
  have er : dot_S1280x1280_S1280x512_S1280x512_1_0_0_1_n_n.rhsIdx (ix2 p q) ((contrEquiv1 dot_S1280x1280_S1280x512_S1280x512_1_0_0_1_n_n 1280 rfl rfl).symm k) = ix2 k q := funext fun a => Fin.ext (by
    match a with
    | ⟨0, _⟩ => exact (rhs_mm1_0 _ _).trans hk
    | ⟨1, _⟩ => exact rhs_mm1_1 _ _)
  rw [el, er]

theorem pay1_apply1 (j : S1280x512.Idx) : k1_pay1 (F := Ideal) j = 0 := by
  unfold k1_pay1
  simp only [shapeCast_self]
  exact Ideal.ofBits_zero_f32

theorem pay2_apply1 (x0 : Vec Ideal S1280x1280 .bf16) (x1 : Vec Ideal S1280x512 .bf16) (xs : Vec Ideal S1280x512 .f32) (p : Fin 1280) (q : Fin 512) :
    k1_pay2 x0 x1 xs (ix2 p q) = (xs (ix2 p q) + ∑ kk : Fin 1280, (x0 (ix2 p kk) * x1 (ix2 kk q) : EReal) : EReal) := by
  unfold k1_pay2
  simp only [shapeCast_self]
  rw [addf_apply]
  simp only [matmul]
  rw [mm1_apply]

abbrev fin1 (z : EReal) : EReal := max z 0

theorem pay3_apply1 (acc : Vec Ideal S1280x512 .f32) (b : Vec Ideal S1x512 .f32) (p : Fin 1280) (q : Fin 512) :
    k1_pay3 acc b (ix2 p q) = fin1 (acc (ix2 p q) + b (ix2 0 q) : EReal) := by
  unfold k1_pay3
  simp only [shapeCast_self]
  rw [maximumf_apply, addf_apply, broadcast_apply, broadcastTo_apply _ broadcasts_S1x512_S1280x512 (ix2 p q) (ix2 0 q) (fun a => by
    match a with
    | ⟨0, _⟩ => rfl
    | ⟨1, _⟩ => rfl)]
  exact congrArg (max (acc (ix2 p q) + b (ix2 0 q) : EReal)) Ideal.ofBits_zero_f32

end Payloads

section Blocks

open Idealize.ShloMosaic.ValueIdx

theorem idx_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

def tot1 {M N : Nat} (X : (⟨2, ![M, N]⟩ : Shape).Idx → EReal) (r s : ℕ) : EReal :=
  if h : r < M ∧ s < N then X (ix2 ⟨r, h.1⟩ ⟨s, h.2⟩) else 0

theorem tot1_of_eq {M N : Nat} (X : (⟨2, ![M, N]⟩ : Shape).Idx → EReal) (i : (⟨2, ![M, N]⟩ : Shape).Idx) (r s : ℕ)
    (h0 : (i 0).val = r) (h1 : (i 1).val = s) : X i = tot1 X r s := by
  subst h0; subst h1
  unfold tot1
  rw [dif_pos ⟨(i 0).isLt, (i 1).isLt⟩]
  exact congrArg X (eq_ix2 i)

variable (V : (c : Dev nD) → (b : Ref sig .tc) → Buf (Elt Ideal) ((c : Thread nD τ).loc b))

theorem iblk1_0_apply (c : Dev nD) (t : Fin cfg1.N) (p : Fin 1280) (kk : Fin 1280) :
    (iblk1 V c 0 t (ix2 p kk) : EReal) = tot1 (V c main_v51) (1280 * (t.val / 8) + p.val) (1280 * (t.val % 8) + kk.val) := by
  obtain ⟨e0, e1, -⟩ := idx_facts1 t
  show V c main_v51 (((cfg1.win 0).blk t).view.emb (ix2 p kk)) = _
  apply tot1_of_eq
  · show win1_0.index t (0 : Fin 2) * 1280 + 1 * p.val = _; omega
  · show win1_0.index t (1 : Fin 2) * 1280 + 1 * kk.val = _; omega

theorem iblk1_1_apply (c : Dev nD) (t : Fin cfg1.N) (kk : Fin 1280) (q : Fin 512) :
    (iblk1 V c 1 t (ix2 kk q) : EReal) = tot1 (V c main_v55) (1280 * (t.val % 8) + kk.val) q.val := by
  obtain ⟨-, -, e0, e1, -⟩ := idx_facts1 t
  show V c main_v55 (((cfg1.win 1).blk t).view.emb (ix2 kk q)) = _
  apply tot1_of_eq
  · show win1_1.index t (0 : Fin 2) * 1280 + 1 * kk.val = _; omega
  · show win1_1.index t (1 : Fin 2) * 512 + 1 * q.val = _; omega

theorem iblk1_2_apply (c : Dev nD) (t : Fin cfg1.N) (q : Fin 512) :
    (iblk1 V c 2 t (ix2 0 q) : EReal) = tot1 (V c main_v56) 0 q.val := by
  obtain ⟨-, -, -, -, e0, e1, -⟩ := idx_facts1 t
  show V c main_v56 (((cfg1.win 2).blk t).view.emb (ix2 0 q)) = _
  apply tot1_of_eq
  · show win1_2.index t (0 : Fin 2) * 1 + 1 * 0 = _; omega
  · show win1_2.index t (1 : Fin 2) * 512 + 1 * q.val = _; omega

end Blocks

section Accumulator

open Idealize.ShloMosaic.ValueIdx

theorem sum_range_blocks1 {β : Type*} [AddCommMonoid β] (g : ℕ → β) (m : ℕ) :
    ∀ n : ℕ, ∑ i ∈ Finset.range (n * m), g i = ∑ s ∈ Finset.range n, ∑ kk ∈ Finset.range m, g (m * s + kk)
  | 0 => by simp
  | n + 1 => by
    rw [Nat.succ_mul, Finset.sum_range_add, sum_range_blocks1 g m n, Finset.sum_range_succ, Nat.mul_comm n m]

theorem spec_entry1 (A : (⟨2, ![10240, 10240]⟩ : Shape).Idx → EReal) (B : (⟨2, ![10240, 512]⟩ : Shape).Idx → EReal)
    (bias : (⟨2, ![1, 512]⟩ : Shape).Idx → EReal) (i : (⟨2, ![10240, 512]⟩ : Shape).Idx) (r s : ℕ)
    (hr : (i 0).val = r) (hs : (i 1).val = s) :
    Cert.Spec.mmbRelu A B bias i
      = fin1 ((∑ sb ∈ Finset.range 8, ∑ kk : Fin 1280, tot1 A r (1280 * sb + kk.val) * tot1 B (1280 * sb + kk.val) s) + tot1 bias 0 s) := by
  unfold Cert.Spec.mmbRelu Cert.Spec.mmb
  have hb : bias (ix2 0 (i 1)) = tot1 bias 0 s := tot1_of_eq bias _ 0 s rfl hs
  have hsum : (∑ k : Fin 10240, A (ix2 (i 0) k) * B (ix2 k (i 1)))
      = ∑ sb ∈ Finset.range 8, ∑ kk : Fin 1280, tot1 A r (1280 * sb + kk.val) * tot1 B (1280 * sb + kk.val) s := by
    have e1 : (∑ k : Fin 10240, A (ix2 (i 0) k) * B (ix2 k (i 1)))
        = ∑ k : Fin 10240, (fun x : ℕ => tot1 A r x * tot1 B x s) k.val :=
      Finset.sum_congr rfl fun k _ => by
        rw [tot1_of_eq A (ix2 (i 0) k) r k.val hr rfl, tot1_of_eq B (ix2 k (i 1)) k.val s rfl hs]
    rw [e1, Fin.sum_univ_eq_sum_range (fun x : ℕ => tot1 A r x * tot1 B x s) 10240]
    refine (sum_range_blocks1 (fun x : ℕ => tot1 A r x * tot1 B x s) 1280 8).trans ?_
    refine Finset.sum_congr rfl fun sb _ => ?_
    exact (Fin.sum_univ_eq_sum_range (fun x : ℕ => tot1 A r (1280 * sb + x) * tot1 B (1280 * sb + x) s) 1280).symm
  rw [hsum, hb]

variable (V : (c : Dev nD) → (b : Ref sig .tc) → Buf (Elt Ideal) ((c : Thread nD τ).loc b))

theorem acc_first1 (c : Dev nD) (n : ℕ) (hn : n < cfg1.N) (h0 : n % 8 = 0) :
    (outsAt1 V c n hn).2 = k1_pay2 (iblk1 V c 0 ⟨n, hn⟩) (iblk1 V c 1 ⟨n, hn⟩) (k1_pay1 (F := Ideal)) := by
  rw [show outsAt1 V c n hn = _ from outsAt1_A V c ⟨n, hn⟩ h0 (by dsimp only; omega), sout1_A_eq]

theorem acc_step1 (c : Dev nD) (n : ℕ) (hn : n < cfg1.N) (h0 : ¬n % 8 = 0) :
    (outsAt1 V c n hn).2 = k1_pay2 (iblk1 V c 0 ⟨n, hn⟩) (iblk1 V c 1 ⟨n, hn⟩)
      (outsAt1 V c (n - 1) (Nat.lt_of_le_of_lt (Nat.sub_le _ _) hn)).2 := by
  by_cases h1 : n % 8 = 7
  · rw [show outsAt1 V c n hn = _ from outsAt1_C V c ⟨n, hn⟩ h0 h1, sout1_C_eq]
  · rw [show outsAt1 V c n hn = _ from outsAt1_B V c ⟨n, hn⟩ h0 h1, sout1_B_eq]

theorem out_last1 (c : Dev nD) (t : Fin cfg1.N) (h1 : t.val % 8 = 7) :
    (outsAt1 V c t.val t.isLt).1 = k1_pay3 (outsAt1 V c t.val t.isLt).2 (iblk1 V c 2 t) := by
  rw [outsAt1_C V c t (by omega) h1, out1_C_eq, sout1_C_eq]

def accSum1 (c : Dev nD) (n : ℕ) (p : Fin 1280) (q : Fin 512) : EReal :=
  ∑ sb ∈ Finset.range (n % 8 + 1), ∑ kk : Fin 1280,
    tot1 (V c main_v51) (1280 * (n / 8) + p.val) (1280 * sb + kk.val) * tot1 (V c main_v55) (1280 * sb + kk.val) q.val

theorem acc_eq1 (c : Dev nD) : ∀ (n : ℕ) (hn : n < cfg1.N) (p : Fin 1280) (q : Fin 512),
    ((outsAt1 V c n hn).2 (ix2 p q) : EReal) = accSum1 V c n p q := by
  intro n
  induction n using Nat.strong_induction_on with
  | _ n ih =>
    intro hn p q
    have hN : cfg1.N = 64 := N_1
    by_cases h0 : n % 8 = 0
    · rw [acc_first1 V c n hn h0, pay2_apply1, pay1_apply1, zero_add]
      unfold accSum1
      rw [h0, Finset.sum_range_one]
      refine Finset.sum_congr rfl fun kk _ => ?_
      rw [iblk1_0_apply, iblk1_1_apply]
      simp only [Fin.val_mk, h0]
    · rw [acc_step1 V c n hn h0, pay2_apply1, ih (n - 1) (by omega) (by omega) p q]
      unfold accSum1
      have e1 : (n - 1) / 8 = n / 8 := by omega
      have e2 : (n - 1) % 8 + 1 = n % 8 := by omega
      rw [e1, e2, Finset.sum_range_succ]
      congr 1
      refine Finset.sum_congr rfl fun kk _ => ?_
      rw [iblk1_0_apply, iblk1_1_apply]

theorem flushed1_eq (c : Dev nD) (t : Fin cfg1.N) (hf : (cfg1.win 3).flush t = true) :
    (dat1 V c).flushed 3 t = ((cfg1.win 3).blk t).view.read (Elt Ideal) (Cert.Spec.mmbRelu (M := 10240) (K := 10240) (N := 512) (V c main_v51) (V c main_v55) (V c main_v56)) := by
  have h7 : t.val % 8 = 7 := (flush1_3 t).mp hf
  obtain ⟨-, -, -, -, -, -, e0, e1⟩ := idx_facts1 t
  show (cfg1.win 3).cut (grid1.coords t) ((dat1 V c).after 3 t) = _
  rw [after1_3, out_last1 V c t h7]
  funext j
  obtain ⟨p, q, rfl⟩ : ∃ (p : Fin 1280) (q : Fin 512), j = ix2 p q := ⟨j 0, j 1, eq_ix2 j⟩
  show k1_pay3 (outsAt1 V c t.val t.isLt).2 (iblk1 V c 2 t) (ix2 p q)
    = Cert.Spec.mmbRelu (M := 10240) (K := 10240) (N := 512) (V c main_v51) (V c main_v55) (V c main_v56) (((cfg1.win 3).blk t).view.emb (ix2 p q))
  rw [pay3_apply1, acc_eq1, iblk1_2_apply,
    spec_entry1 _ _ _ _ (1280 * (t.val / 8) + p.val) q.val
      (by show win1_3.index t (0 : Fin 2) * 1280 + 1 * p.val = _; omega)
      (by show win1_3.index t (1 : Fin 2) * 512 + 1 * q.val = _; omega)]
  unfold accSum1
  rw [h7]

theorem cover1 (i : S10240x512.Idx) :
    ∃ t : Fin cfg1.N, (cfg1.win 3).flush t = true ∧ i ∈ ((cfg1.win 3).blk t).view.set := by
  have hN : cfg1.N = 64 := N_1
  have hi0 : (i 0).val < 10240 := (i 0).isLt
  have hi1 : (i 1).val < 512 := (i 1).isLt
  obtain ⟨t, ht⟩ : ∃ t : Fin cfg1.N, t.val = 8 * ((i 0).val / 1280) + 7 := ⟨⟨8 * ((i 0).val / 1280) + 7, by omega⟩, rfl⟩
  obtain ⟨-, -, -, -, -, -, e0, e1⟩ := idx_facts1 t
  refine ⟨t, (flush1_3 t).mpr (by omega), ?_⟩
  show i ∈ ((View.whole main_v57).slice (win1_3.rect t)).set
  rw [View.set_slice_whole, Rect.mem_set_unit]
  intro a
  match a with
  | ⟨0, _⟩ => show win1_3.index t (0 : Fin 2) * 1280 ≤ (i 0).val ∧ (i 0).val < win1_3.index t (0 : Fin 2) * 1280 + 1280; omega
  | ⟨1, _⟩ => show win1_3.index t (1 : Fin 2) * 512 ≤ (i 1).val ∧ (i 1).val < win1_3.index t (1 : Fin 2) * 512 + 512; omega

theorem final1 (c : Dev nD) : (dat1 V c).arrAt 3 cfg1.N = Cert.Spec.mmbRelu (M := 10240) (K := 10240) (N := 512) (V c main_v51) (V c main_v55) (V c main_v56) :=
  (dat1 V c).arrAt_eq_of_cover 3 _ (fun t hf => flushed1_eq V c t hf) cover1

end Accumulator

end Cert.KernelIdeal.Hand

end
-- ==== Proof.KI.Val2.lean ====
import proofs.«408842_j29429115912637_1_alg».proof.Proof.KI.R2
import proofs.«408842_j29429115912637_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Pieces

variable {F : FTy → Type} [FloatOps F]

theorem hz2 : (![0, 0] : Fin 2 → Nat) = fun _ => 0 := funext fun a => by fin_cases a <;> rfl

theorem readCov_cons_unit_zero2 {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem out2_eq (c : Dev nD) (i : grid2.Coords) (arg2 : Memref sig .tc .vmem S1280x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1280x512 .bf16) (harg5 : arg5.IsWhole) (arg6 : Memref sig .tc .vmem S1280x512 .f32) (harg6 : arg6.IsWhole) (hc0 : cond2_0 i) (hc1 : cond2_1 i)
    (x0 : Vec F S1280x512 .f32) (x1 : Vec F S512x512 .f32) (x2 : Vec F S1x512 .f32) :
    out2 c i arg2 harg2 arg3 harg3 arg4 harg4 arg5 harg5 arg6 harg6 hc0 hc1 x0 x1 x2 = k2_pay3 (k2_pay2 x0 x1 (k2_pay1 (F := F))) x2 := by
  unfold out2
  rw [View.read_writes_eq_canon _ _ _ (cover2_3 c i arg2 harg2 arg3 harg3 arg4 harg4 arg5 harg5 arg6 harg6 hc0 hc1 x0 x1 x2)]
  unfold kernelRun2
  dsimp only
  sl_unfold_words
  rw [View.canon_unit_zero hz2]
  simp only [View.readAt_eq_ld, harg2.read_unread, harg3.read_unread, harg4.read_unread, View.ld_unit_zero (S := S1280x512) hz2, View.ld_unit_zero (S := S512x512) hz2, View.ld_unit_zero (S := S1x512) hz2,
    View.readCov_unit_zero (S := S1280x512) _ hz2, readCov_cons_unit_zero2 (S := S1280x512) _ hz2]

end Pieces

theorem lhs_dot2_0 (i : S1280x512.Idx) (q : dot_S1280x512_S512x512_S1280x512_1_0_0_1_n_n.contr.Idx) :
    (dot_S1280x512_S512x512_S1280x512_1_0_0_1_n_n.lhsIdx i q 0).val = (i 0).val := by
  unfold DotDims.lhsIdx
  rw [dif_neg (show ¬(0 : Fin S1280x512.rank) ∈ dot_S1280x512_S512x512_S1280x512_1_0_0_1_n_n.lhsBatch by decide), dif_pos (show (0 : Fin S1280x512.rank) ∈ dot_S1280x512_S512x512_S1280x512_1_0_0_1_n_n.lhsNonContracting by decide)]
  rfl

theorem lhs_dot2_1 (i : S1280x512.Idx) (q : dot_S1280x512_S512x512_S1280x512_1_0_0_1_n_n.contr.Idx) :
    (dot_S1280x512_S512x512_S1280x512_1_0_0_1_n_n.lhsIdx i q 1).val = (q ⟨0, by decide⟩).val :=
  dot_S1280x512_S512x512_S1280x512_1_0_0_1_n_n.lhsIdx_val_of_single rfl i q

theorem rhs_dot2_0 (i : S1280x512.Idx) (q : dot_S1280x512_S512x512_S1280x512_1_0_0_1_n_n.contr.Idx) :
    (dot_S1280x512_S512x512_S1280x512_1_0_0_1_n_n.rhsIdx i q 0).val = (q ⟨0, by decide⟩).val :=
  dot_S1280x512_S512x512_S1280x512_1_0_0_1_n_n.rhsIdx_val_of_single rfl i q

theorem rhs_dot2_1 (i : S1280x512.Idx) (q : dot_S1280x512_S512x512_S1280x512_1_0_0_1_n_n.contr.Idx) :
    (dot_S1280x512_S512x512_S1280x512_1_0_0_1_n_n.rhsIdx i q 1).val = (i 1).val := by
  unfold DotDims.rhsIdx
  rw [dif_neg (show ¬(1 : Fin S512x512.rank) ∈ dot_S1280x512_S512x512_S1280x512_1_0_0_1_n_n.rhsBatch by decide), dif_pos (show (1 : Fin S512x512.rank) ∈ dot_S1280x512_S512x512_S1280x512_1_0_0_1_n_n.rhsNonContracting by decide)]
  rfl

theorem matmul2_apply {φ₁ φ₂ : FTy} (a : FVec Ideal S1280x512 φ₁) (b : FVec Ideal S512x512 φ₂) (p : Fin 1280) (q : Fin 512) :
    matmul (F := Ideal) dot_S1280x512_S512x512_S1280x512_1_0_0_1_n_n none a b (constant (F := Ideal) S1280x512 .f32 0x00000000#32) (ix2 p q)
      = ∑ k : Fin 512, a (ix2 p k) * b (ix2 k q) := by
  show FloatOps.matmul dot_S1280x512_S512x512_S1280x512_1_0_0_1_n_n none a b (constant (F := Ideal) S1280x512 .f32 0x00000000#32) (ix2 p q) = _
  rw [Ideal.matmul_constant_zero_apply, ← Equiv.sum_comp (contrEquiv1 dot_S1280x512_S512x512_S1280x512_1_0_0_1_n_n 512 rfl rfl).symm]
  refine Finset.sum_congr rfl fun k _ => ?_
  have hk := contrEquiv1_symm_val dot_S1280x512_S512x512_S1280x512_1_0_0_1_n_n 512 rfl rfl k
  have el : dot_S1280x512_S512x512_S1280x512_1_0_0_1_n_n.lhsIdx (ix2 p q) ((contrEquiv1 dot_S1280x512_S512x512_S1280x512_1_0_0_1_n_n 512 rfl rfl).symm k) = ix2 p k := funext fun ax => Fin.ext (by
    match ax with
    | ⟨0, _⟩ => exact lhs_dot2_0 _ _
    | ⟨1, _⟩ => exact (lhs_dot2_1 _ _).trans hk)
  have er : dot_S1280x512_S512x512_S1280x512_1_0_0_1_n_n.rhsIdx (ix2 p q) ((contrEquiv1 dot_S1280x512_S512x512_S1280x512_1_0_0_1_n_n 512 rfl rfl).symm k) = ix2 k q := funext fun ax => Fin.ext (by
    match ax with
    | ⟨0, _⟩ => exact (rhs_dot2_0 _ _).trans hk
    | ⟨1, _⟩ => exact rhs_dot2_1 _ _)
  rw [el, er]

theorem blockValue2_apply (a : Vec Ideal S1280x512 .f32) (b : Vec Ideal S512x512 .f32) (bias : Vec Ideal S1x512 .f32) (p : Fin 1280) (q : Fin 512) :
    k2_pay3 (F := Ideal) (k2_pay2 (F := Ideal) a b (k2_pay1 (F := Ideal))) bias (ix2 p q)
      = (∑ k : Fin 512, a (ix2 p k) * b (ix2 k q)) + bias (ix2 (0 : Fin 1) q) := by
  unfold k2_pay3 k2_pay2 k2_pay1
  simp only [shapeCast_self, truncf_apply, addf_apply]
  rw [broadcastTo_1b_ab_apply, matmul2_apply, broadcast_apply]
  show Ideal.ofBits .f32 0x00000000#32 + _ + _ = _
  rw [Ideal.ofBits_zero_f32, zero_add]
  rfl

theorem blockValue2_at (a : Vec Ideal S1280x512 .f32) (b : Vec Ideal S512x512 .f32) (bias : Vec Ideal S1x512 .f32) (j : S1280x512.Idx) :
    k2_pay3 (F := Ideal) (k2_pay2 (F := Ideal) a b (k2_pay1 (F := Ideal))) bias j
      = (∑ k : Fin 512, a (ix2 (j 0) k) * b (ix2 k (j 1))) + bias (ix2 (0 : Fin 1) (j 1)) := by
  obtain ⟨p, q, rfl⟩ : ∃ (p : Fin 1280) (q : Fin 512), j = ix2 p q := ⟨j 0, j 1, eq_ix2 j⟩
  exact blockValue2_apply a b bias p q

section Blocks

variable (V : (c : Dev nD) → (b : Ref sig .tc) → Buf (Elt Ideal) ((c : Thread nD τ).loc b))

theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 7 ∧ win2_3.index t (1 : Fin 2) = 0 :=
  (by decide +kernel : ∀ t : Fin grid2.N, _)

theorem idx_onto2 : ∀ (q0 : Fin 8), ∃ t : Fin cfg2.N, win2_3.index t = ![q0.val, 0] :=
  (by decide +kernel : ∀ (q0 : Fin 8), ∃ t : Fin grid2.N, win2_3.index t = ![q0.val, 0])

theorem flushed2_eq (c : Dev nD) (t : Fin cfg2.N) :
    (dat2 V c).flushed 3 t = ((cfg2.win 3).blk t).view.read (Elt Ideal)
      (Cert.Spec.mmb (M := 10240) (K := 512) (N := 512) (V c main_v57) (V c main_arg4) (V c main_v58)) := by
  show (cfg2.win 3).cut (grid2.coords t) ((dat2 V c).after 3 t) = _
  rw [after2_3]
  unfold outAt2
  rw [out2_eq]
  obtain ⟨e0, e1, e2, e3, e4, e5, e6, e7⟩ := idx_facts2 t
  funext j
  show k2_pay3 (F := Ideal) (k2_pay2 (F := Ideal) (iblk2 V c 0 t) (iblk2 V c 1 t) (k2_pay1 (F := Ideal))) (iblk2 V c 2 t) j
    = Cert.Spec.mmb (M := 10240) (K := 512) (N := 512) (V c main_v57) (V c main_arg4) (V c main_v58) (((cfg2.win 3).blk t).view.emb j)
  rw [blockValue2_at]
  unfold Cert.Spec.mmb
  have hj0 : (j 0).val < 1280 := (j 0).isLt
  have hj1 : (j 1).val < 512 := (j 1).isLt
  have hA : ∀ k : Fin 512, iblk2 V c 0 t (ix2 (j 0) k) = V c main_v57 (ix2 ((((cfg2.win 3).blk t).view.emb j) 0) k) := fun k => by
    show V c main_v57 (((cfg2.win 0).blk t).view.emb (ix2 (j 0) k)) = _
    refine congrArg (V c main_v57) (funext fun ax => Fin.ext ?_)
    match ax with
    | ⟨0, _⟩ => show win2_0.index t (0 : Fin 2) * 1280 + 1 * (j 0).val = win2_3.index t (0 : Fin 2) * 1280 + 1 * (j 0).val; omega
    | ⟨1, _⟩ => show win2_0.index t (1 : Fin 2) * 512 + 1 * k.val = k.val; omega
  have hB : ∀ k : Fin 512, iblk2 V c 1 t (ix2 k (j 1)) = V c main_arg4 (ix2 k ((((cfg2.win 3).blk t).view.emb j) 1)) := fun k => by
    show V c main_arg4 (((cfg2.win 1).blk t).view.emb (ix2 k (j 1))) = _
    refine congrArg (V c main_arg4) (funext fun ax => Fin.ext ?_)
    match ax with
    | ⟨0, _⟩ => show win2_1.index t (0 : Fin 2) * 512 + 1 * k.val = k.val; omega
    | ⟨1, _⟩ => show win2_1.index t (1 : Fin 2) * 512 + 1 * (j 1).val = win2_3.index t (1 : Fin 2) * 512 + 1 * (j 1).val; omega
  have hC : iblk2 V c 2 t (ix2 (0 : Fin 1) (j 1)) = V c main_v58 (ix2 (0 : Fin 1) ((((cfg2.win 3).blk t).view.emb j) 1)) := by
    show V c main_v58 (((cfg2.win 2).blk t).view.emb (ix2 (0 : Fin 1) (j 1))) = _
    refine congrArg (V c main_v58) (funext fun ax => Fin.ext ?_)
    match ax with
    | ⟨0, _⟩ => show win2_2.index t (0 : Fin 2) * 1 + 1 * 0 = 0; omega
    | ⟨1, _⟩ => show win2_2.index t (1 : Fin 2) * 512 + 1 * (j 1).val = win2_3.index t (1 : Fin 2) * 512 + 1 * (j 1).val; omega
  rw [hC]
  exact congrArg (· + _) (Finset.sum_congr rfl fun k _ => by rw [hA k, hB k])

theorem mem_blk2 (t : Fin cfg2.N) (i : S10240x512.Idx) :
    i ∈ ((cfg2.win 3).blk t).view.set ↔ ∀ a : Fin 2, win2_3.index t a * S1280x512.size a ≤ (i a).val ∧ (i a).val < win2_3.index t a * S1280x512.size a + S1280x512.size a := by
  show i ∈ ((View.whole main_v59).slice (win2_3.rect t)).set ↔ _
  rw [View.set_slice_whole, Rect.mem_set_unit]
  exact Iff.rfl

theorem covered2 (i : S10240x512.Idx) :
    ∃ t : Fin cfg2.N, (cfg2.win 3).flush t = true ∧ i ∈ ((cfg2.win 3).blk t).view.set := by
  have hi0 : (i 0).val < 10240 := (i 0).isLt
  have hi1 : (i 1).val < 512 := (i 1).isLt
  obtain ⟨t, ht⟩ := idx_onto2 ⟨(i 0).val / 1280, by omega⟩
  have q0 : win2_3.index t (0 : Fin 2) = (i 0).val / 1280 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 1280 ≤ (i 0).val ∧ (i 0).val < win2_3.index t (0 : Fin 2) * 1280 + 1280; omega
  | ⟨1, _⟩ => show win2_3.index t (1 : Fin 2) * 512 ≤ (i 1).val ∧ (i 1).val < win2_3.index t (1 : Fin 2) * 512 + 512; omega

theorem final2 (c : Dev nD) :
    (dat2 V c).arrAt 3 cfg2.N = Cert.Spec.mmb (M := 10240) (K := 512) (N := 512) (V c main_v57) (V c main_arg4) (V c main_v58) :=
  (dat2 V c).arrAt_eq_of_cover 3 _ (fun t _ => flushed2_eq V c t) covered2

end Blocks

end Cert.KernelIdeal.Hand

end
-- ==== Proof.KI.Val3.lean ====
/- GENERATED by tools/mk_sibling.py: python3 tools/mk_sibling.py proof/Proof/KI/Val1.lean proof/Proof/KI/Val3.lean 'r:\b(cond|cfg|grid|win|k|sout|out|scover|cover|kernelRun|outsAt|iblk|dat|after|flush|flushed|N_|hz|readCov_cons_unit_zero|lhs_mm|rhs_mm|mm|pay1_apply|pay2_apply|pay3_apply|fin|idx_facts|tot|sum_range_blocks|spec_entry|acc_first|acc_step|out_last|accSum|acc_eq|final)1=>\g<1>3' 's:Proof.KI.R1=>Proof.KI.R3' 's:main_v55=>main_v59' 's:main_v56=>main_v60' 's:main_v57=>main_v61' 's:abbrev fin3 (z : EReal) : EReal := max z 0=>abbrev fin3 (z : EReal) : EReal := z' 's:rw [maximumf_apply, addf_apply, broadcast_apply, broadcastTo_apply=>rw [addf_apply, broadcastTo_apply' 's:
  exact congrArg (max (acc (ix2 p q) + b (ix2 0 q) : EReal)) Ideal.ofBits_zero_f32=>' 's:unfold Cert.Spec.mmbRelu Cert.Spec.mmb=>unfold Cert.Spec.mmb' 's:Cert.Spec.mmbRelu=>Cert.Spec.mmb' -/
import proofs.«408842_j29429115912637_1_alg».proof.Proof.KI.R3
import proofs.«408842_j29429115912637_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Pieces

variable {F : FTy → Type} [FloatOps F]

theorem hz3 : (![0, 0] : Fin 2 → Nat) = fun _ => 0 := funext fun a => by fin_cases a <;> rfl

theorem readCov_cons_unit_zero3 {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem sout3_A_eq (c : Dev nD) (i : grid3.Coords) (arg2 : Memref sig .tc .vmem S1280x1280 .bf16) (harg2 : arg2.IsWhole) (arg3 : Memref sig .tc .vmem S1280x512 .bf16) (harg3 : arg3.IsWhole) (arg4 : Memref sig .tc .vmem S1x512 .f32) (harg4 : arg4.IsWhole) (arg5 : Memref sig .tc .vmem S1280x512 .f32) (harg5 : arg5.IsWhole) (arg6 : Memref sig .tc .vmem S1280x512 .f32) (harg6 : arg6.IsWhole) (hc0 : cond3_0 i) (hc1 : ¬cond3_1 i)
    (x0 : Vec F S1280x1280 .bf16) (x1 : Vec F S1280x512 .bf16) :
    sout3_A c i arg2 harg2 arg3 harg3 arg4 harg4 arg5 harg5 arg6 harg6 hc0 hc1 x0 x1 = k3_pay2 x0 x1 (k3_pay1 (F := F)) := by
  unfold sout3_A
  rw [View.read_writes_eq_canon _ _ _ (scover3_A c i arg2 harg2 arg3 harg3 arg4 harg4 arg5 harg5 arg6 harg6 hc0 hc1 x0 x1)]
  unfold kernelRun3_A
  dsimp only
  sl_unfold_words
  rw [View.canon_cons_unit_zero hz3]
  simp only [View.readAt_eq_ld, harg2.read_unread, harg3.read_unread, View.ld_unit_zero (S := S1280x1280) hz3,
    View.ld_unit_zero (S := S1280x512) hz3, View.readCov_unit_zero (S := S1280x512) _ hz3]

theorem sout3_B_eq (c : Dev nD) (i : grid3.Coords) (arg2 : Memref sig .tc .vmem S1280x1280 .bf16) (harg2 : arg2.IsWhole) (arg3 : Memref sig .tc .vmem S1280x512 .bf16) (harg3 : arg3.IsWhole) (arg4 : Memref sig .tc .vmem S1x512 .f32) (harg4 : arg4.IsWhole) (arg5 : Memref sig .tc .vmem S1280x512 .f32) (harg5 : arg5.IsWhole) (arg6 : Memref sig .tc .vmem S1280x512 .f32) (harg6 : arg6.IsWhole) (hc0 : ¬cond3_0 i) (hc1 : ¬cond3_1 i)
    (x0 : Vec F S1280x1280 .bf16) (x1 : Vec F S1280x512 .bf16) (xs : Vec F S1280x512 .f32) :
    sout3_B c i arg2 harg2 arg3 harg3 arg4 harg4 arg5 harg5 arg6 harg6 hc0 hc1 x0 x1 xs = k3_pay2 x0 x1 xs := by
  unfold sout3_B
  rw [View.read_writes_eq_canon _ _ _ (scover3_B c i arg2 harg2 arg3 harg3 arg4 harg4 arg5 harg5 arg6 harg6 hc0 hc1 x0 x1 xs)]
  unfold kernelRun3_B
  dsimp only
  sl_unfold_words
  rw [View.canon_unit_zero hz3]
  simp only [View.readAt_eq_ld, harg2.read_unread, harg3.read_unread, harg6.read_unread, View.ld_unit_zero (S := S1280x1280) hz3,
    View.ld_unit_zero (S := S1280x512) hz3]

theorem sout3_C_eq (c : Dev nD) (i : grid3.Coords) (arg2 : Memref sig .tc .vmem S1280x1280 .bf16) (harg2 : arg2.IsWhole) (arg3 : Memref sig .tc .vmem S1280x512 .bf16) (harg3 : arg3.IsWhole) (arg4 : Memref sig .tc .vmem S1x512 .f32) (harg4 : arg4.IsWhole) (arg5 : Memref sig .tc .vmem S1280x512 .f32) (harg5 : arg5.IsWhole) (arg6 : Memref sig .tc .vmem S1280x512 .f32) (harg6 : arg6.IsWhole) (hc0 : ¬cond3_0 i) (hc1 : cond3_1 i)
    (x0 : Vec F S1280x1280 .bf16) (x1 : Vec F S1280x512 .bf16) (x2 : Vec F S1x512 .f32) (xs : Vec F S1280x512 .f32) :
    sout3_C c i arg2 harg2 arg3 harg3 arg4 harg4 arg5 harg5 arg6 harg6 hc0 hc1 x0 x1 x2 xs = k3_pay2 x0 x1 xs := by
  unfold sout3_C
  rw [View.read_writes_eq_canon _ _ _ (scover3_C c i arg2 harg2 arg3 harg3 arg4 harg4 arg5 harg5 arg6 harg6 hc0 hc1 x0 x1 x2 xs)]
  unfold kernelRun3_C
  dsimp only
  sl_unfold_words
  rw [View.canon_unit_zero hz3]
  simp only [View.readAt_eq_ld, harg2.read_unread, harg3.read_unread, harg6.read_unread, View.ld_unit_zero (S := S1280x1280) hz3,
    View.ld_unit_zero (S := S1280x512) hz3]

theorem out3_C_eq (c : Dev nD) (i : grid3.Coords) (arg2 : Memref sig .tc .vmem S1280x1280 .bf16) (harg2 : arg2.IsWhole) (arg3 : Memref sig .tc .vmem S1280x512 .bf16) (harg3 : arg3.IsWhole) (arg4 : Memref sig .tc .vmem S1x512 .f32) (harg4 : arg4.IsWhole) (arg5 : Memref sig .tc .vmem S1280x512 .f32) (harg5 : arg5.IsWhole) (arg6 : Memref sig .tc .vmem S1280x512 .f32) (harg6 : arg6.IsWhole) (hc0 : ¬cond3_0 i) (hc1 : cond3_1 i)
    (x0 : Vec F S1280x1280 .bf16) (x1 : Vec F S1280x512 .bf16) (x2 : Vec F S1x512 .f32) (xs : Vec F S1280x512 .f32) :
    out3_C c i arg2 harg2 arg3 harg3 arg4 harg4 arg5 harg5 arg6 harg6 hc0 hc1 x0 x1 x2 xs = k3_pay3 (k3_pay2 x0 x1 xs) x2 := by
  unfold out3_C
  rw [View.read_writes_eq_canon _ _ _ (cover3_C c i arg2 harg2 arg3 harg3 arg4 harg4 arg5 harg5 arg6 harg6 hc0 hc1 x0 x1 x2 xs)]
  unfold kernelRun3_C
  dsimp only
  sl_unfold_words
  rw [View.canon_unit_zero hz3]
  simp only [View.readAt_eq_ld, harg2.read_unread, harg3.read_unread, harg4.read_unread, harg6.read_unread, View.ld_unit_zero (S := S1280x1280) hz3,
    View.ld_unit_zero (S := S1280x512) hz3, View.ld_unit_zero (S := S1x512) hz3, View.readCov_unit_zero (S := S1280x512) _ hz3]

end Pieces

section Payloads

open Idealize.ShloMosaic.ValueIdx

theorem lhs_mm3_0 (j : S1280x512.Idx) (q : dot_S1280x1280_S1280x512_S1280x512_1_0_0_1_n_n.contr.Idx) :
    (dot_S1280x1280_S1280x512_S1280x512_1_0_0_1_n_n.lhsIdx j q 0).val = (j 0).val := by
  unfold DotDims.lhsIdx
  rw [dif_neg (show ¬(0 : Fin S1280x1280.rank) ∈ dot_S1280x1280_S1280x512_S1280x512_1_0_0_1_n_n.lhsBatch by decide), dif_pos (show (0 : Fin S1280x1280.rank) ∈ dot_S1280x1280_S1280x512_S1280x512_1_0_0_1_n_n.lhsNonContracting by decide)]
  rfl
theorem lhs_mm3_1 (j : S1280x512.Idx) (q : dot_S1280x1280_S1280x512_S1280x512_1_0_0_1_n_n.contr.Idx) :
    (dot_S1280x1280_S1280x512_S1280x512_1_0_0_1_n_n.lhsIdx j q 1).val = (q ⟨0, by decide⟩).val :=
  dot_S1280x1280_S1280x512_S1280x512_1_0_0_1_n_n.lhsIdx_val_of_single rfl j q
theorem rhs_mm3_0 (j : S1280x512.Idx) (q : dot_S1280x1280_S1280x512_S1280x512_1_0_0_1_n_n.contr.Idx) :
    (dot_S1280x1280_S1280x512_S1280x512_1_0_0_1_n_n.rhsIdx j q 0).val = (q ⟨0, by decide⟩).val :=
  dot_S1280x1280_S1280x512_S1280x512_1_0_0_1_n_n.rhsIdx_val_of_single rfl j q
theorem rhs_mm3_1 (j : S1280x512.Idx) (q : dot_S1280x1280_S1280x512_S1280x512_1_0_0_1_n_n.contr.Idx) :
    (dot_S1280x1280_S1280x512_S1280x512_1_0_0_1_n_n.rhsIdx j q 1).val = (j 1).val := by
  unfold DotDims.rhsIdx
  rw [dif_neg (show ¬(1 : Fin S1280x512.rank) ∈ dot_S1280x1280_S1280x512_S1280x512_1_0_0_1_n_n.rhsBatch by decide), dif_pos (show (1 : Fin S1280x512.rank) ∈ dot_S1280x1280_S1280x512_S1280x512_1_0_0_1_n_n.rhsNonContracting by decide)]
  rfl

theorem mm3_apply (x0 : FVec Ideal S1280x1280 .bf16) (x1 : FVec Ideal S1280x512 .bf16) (p : Fin 1280) (q : Fin 512) :
    FloatOps.matmul dot_S1280x1280_S1280x512_S1280x512_1_0_0_1_n_n none x0 x1 (constant (F := Ideal) S1280x512 .f32 0x00000000#32) (ix2 p q)
      = ∑ kk : Fin 1280, x0 (ix2 p kk) * x1 (ix2 kk q) := by
  rw [Ideal.matmul_constant_zero_apply, ← Equiv.sum_comp (contrEquiv1 dot_S1280x1280_S1280x512_S1280x512_1_0_0_1_n_n 1280 rfl rfl).symm]
  refine Finset.sum_congr rfl fun k _ => ?_
  have hk := contrEquiv1_symm_val dot_S1280x1280_S1280x512_S1280x512_1_0_0_1_n_n 1280 rfl rfl k
  have el : dot_S1280x1280_S1280x512_S1280x512_1_0_0_1_n_n.lhsIdx (ix2 p q) ((contrEquiv1 dot_S1280x1280_S1280x512_S1280x512_1_0_0_1_n_n 1280 rfl rfl).symm k) = ix2 p k := funext fun a => Fin.ext (by
    match a with
    | ⟨0, _⟩ => exact lhs_mm3_0 _ _
    | ⟨1, _⟩ => exact (lhs_mm3_1 _ _).trans hk)
  have er : dot_S1280x1280_S1280x512_S1280x512_1_0_0_1_n_n.rhsIdx (ix2 p q) ((contrEquiv1 dot_S1280x1280_S1280x512_S1280x512_1_0_0_1_n_n 1280 rfl rfl).symm k) = ix2 k q := funext fun a => Fin.ext (by
    match a with
    | ⟨0, _⟩ => exact (rhs_mm3_0 _ _).trans hk
    | ⟨1, _⟩ => exact rhs_mm3_1 _ _)
  rw [el, er]

theorem pay1_apply3 (j : S1280x512.Idx) : k3_pay1 (F := Ideal) j = 0 := by
  unfold k3_pay1
  simp only [shapeCast_self]
  exact Ideal.ofBits_zero_f32

theorem pay2_apply3 (x0 : Vec Ideal S1280x1280 .bf16) (x1 : Vec Ideal S1280x512 .bf16) (xs : Vec Ideal S1280x512 .f32) (p : Fin 1280) (q : Fin 512) :
    k3_pay2 x0 x1 xs (ix2 p q) = (xs (ix2 p q) + ∑ kk : Fin 1280, (x0 (ix2 p kk) * x1 (ix2 kk q) : EReal) : EReal) := by
  unfold k3_pay2
  simp only [shapeCast_self]
  rw [addf_apply]
  simp only [matmul]
  rw [mm3_apply]

abbrev fin3 (z : EReal) : EReal := z

theorem pay3_apply3 (acc : Vec Ideal S1280x512 .f32) (b : Vec Ideal S1x512 .f32) (p : Fin 1280) (q : Fin 512) :
    k3_pay3 acc b (ix2 p q) = fin3 (acc (ix2 p q) + b (ix2 0 q) : EReal) := by
  unfold k3_pay3
  simp only [shapeCast_self]
  rw [addf_apply, broadcastTo_apply _ broadcasts_S1x512_S1280x512 (ix2 p q) (ix2 0 q) (fun a => by
    match a with
    | ⟨0, _⟩ => rfl
    | ⟨1, _⟩ => rfl)]

end Payloads

section Blocks

open Idealize.ShloMosaic.ValueIdx

theorem idx_facts3 : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = 0 ∧ win3_2.index t (1 : Fin 2) = 0
    ∧ win3_3.index t (0 : Fin 2) = t.val / 8 ∧ win3_3.index t (1 : Fin 2) = 0 :=
  (by decide +kernel : ∀ t : Fin grid3.N, _)

def tot3 {M N : Nat} (X : (⟨2, ![M, N]⟩ : Shape).Idx → EReal) (r s : ℕ) : EReal :=
  if h : r < M ∧ s < N then X (ix2 ⟨r, h.1⟩ ⟨s, h.2⟩) else 0

theorem tot3_of_eq {M N : Nat} (X : (⟨2, ![M, N]⟩ : Shape).Idx → EReal) (i : (⟨2, ![M, N]⟩ : Shape).Idx) (r s : ℕ)
    (h0 : (i 0).val = r) (h1 : (i 1).val = s) : X i = tot3 X r s := by
  subst h0; subst h1
  unfold tot3
  rw [dif_pos ⟨(i 0).isLt, (i 1).isLt⟩]
  exact congrArg X (eq_ix2 i)

variable (V : (c : Dev nD) → (b : Ref sig .tc) → Buf (Elt Ideal) ((c : Thread nD τ).loc b))

theorem iblk3_0_apply (c : Dev nD) (t : Fin cfg3.N) (p : Fin 1280) (kk : Fin 1280) :
    (iblk3 V c 0 t (ix2 p kk) : EReal) = tot3 (V c main_v51) (1280 * (t.val / 8) + p.val) (1280 * (t.val % 8) + kk.val) := by
  obtain ⟨e0, e1, -⟩ := idx_facts3 t
  show V c main_v51 (((cfg3.win 0).blk t).view.emb (ix2 p kk)) = _
  apply tot3_of_eq
  · show win3_0.index t (0 : Fin 2) * 1280 + 1 * p.val = _; omega
  · show win3_0.index t (1 : Fin 2) * 1280 + 1 * kk.val = _; omega

theorem iblk3_1_apply (c : Dev nD) (t : Fin cfg3.N) (kk : Fin 1280) (q : Fin 512) :
    (iblk3 V c 1 t (ix2 kk q) : EReal) = tot3 (V c main_v59) (1280 * (t.val % 8) + kk.val) q.val := by
  obtain ⟨-, -, e0, e1, -⟩ := idx_facts3 t
  show V c main_v59 (((cfg3.win 1).blk t).view.emb (ix2 kk q)) = _
  apply tot3_of_eq
  · show win3_1.index t (0 : Fin 2) * 1280 + 1 * kk.val = _; omega
  · show win3_1.index t (1 : Fin 2) * 512 + 1 * q.val = _; omega

theorem iblk3_2_apply (c : Dev nD) (t : Fin cfg3.N) (q : Fin 512) :
    (iblk3 V c 2 t (ix2 0 q) : EReal) = tot3 (V c main_v60) 0 q.val := by
  obtain ⟨-, -, -, -, e0, e1, -⟩ := idx_facts3 t
  show V c main_v60 (((cfg3.win 2).blk t).view.emb (ix2 0 q)) = _
  apply tot3_of_eq
  · show win3_2.index t (0 : Fin 2) * 1 + 1 * 0 = _; omega
  · show win3_2.index t (1 : Fin 2) * 512 + 1 * q.val = _; omega

end Blocks

section Accumulator

open Idealize.ShloMosaic.ValueIdx

theorem sum_range_blocks3 {β : Type*} [AddCommMonoid β] (g : ℕ → β) (m : ℕ) :
    ∀ n : ℕ, ∑ i ∈ Finset.range (n * m), g i = ∑ s ∈ Finset.range n, ∑ kk ∈ Finset.range m, g (m * s + kk)
  | 0 => by simp
  | n + 1 => by
    rw [Nat.succ_mul, Finset.sum_range_add, sum_range_blocks3 g m n, Finset.sum_range_succ, Nat.mul_comm n m]

theorem spec_entry3 (A : (⟨2, ![10240, 10240]⟩ : Shape).Idx → EReal) (B : (⟨2, ![10240, 512]⟩ : Shape).Idx → EReal)
    (bias : (⟨2, ![1, 512]⟩ : Shape).Idx → EReal) (i : (⟨2, ![10240, 512]⟩ : Shape).Idx) (r s : ℕ)
    (hr : (i 0).val = r) (hs : (i 1).val = s) :
    Cert.Spec.mmb A B bias i
      = fin3 ((∑ sb ∈ Finset.range 8, ∑ kk : Fin 1280, tot3 A r (1280 * sb + kk.val) * tot3 B (1280 * sb + kk.val) s) + tot3 bias 0 s) := by
  unfold Cert.Spec.mmb
  have hb : bias (ix2 0 (i 1)) = tot3 bias 0 s := tot3_of_eq bias _ 0 s rfl hs
  have hsum : (∑ k : Fin 10240, A (ix2 (i 0) k) * B (ix2 k (i 1)))
      = ∑ sb ∈ Finset.range 8, ∑ kk : Fin 1280, tot3 A r (1280 * sb + kk.val) * tot3 B (1280 * sb + kk.val) s := by
    have e1 : (∑ k : Fin 10240, A (ix2 (i 0) k) * B (ix2 k (i 1)))
        = ∑ k : Fin 10240, (fun x : ℕ => tot3 A r x * tot3 B x s) k.val :=
      Finset.sum_congr rfl fun k _ => by
        rw [tot3_of_eq A (ix2 (i 0) k) r k.val hr rfl, tot3_of_eq B (ix2 k (i 1)) k.val s rfl hs]
    rw [e1, Fin.sum_univ_eq_sum_range (fun x : ℕ => tot3 A r x * tot3 B x s) 10240]
    refine (sum_range_blocks3 (fun x : ℕ => tot3 A r x * tot3 B x s) 1280 8).trans ?_
    refine Finset.sum_congr rfl fun sb _ => ?_
    exact (Fin.sum_univ_eq_sum_range (fun x : ℕ => tot3 A r (1280 * sb + x) * tot3 B (1280 * sb + x) s) 1280).symm
  rw [hsum, hb]

variable (V : (c : Dev nD) → (b : Ref sig .tc) → Buf (Elt Ideal) ((c : Thread nD τ).loc b))

theorem acc_first3 (c : Dev nD) (n : ℕ) (hn : n < cfg3.N) (h0 : n % 8 = 0) :
    (outsAt3 V c n hn).2 = k3_pay2 (iblk3 V c 0 ⟨n, hn⟩) (iblk3 V c 1 ⟨n, hn⟩) (k3_pay1 (F := Ideal)) := by
  rw [show outsAt3 V c n hn = _ from outsAt3_A V c ⟨n, hn⟩ h0 (by dsimp only; omega), sout3_A_eq]

theorem acc_step3 (c : Dev nD) (n : ℕ) (hn : n < cfg3.N) (h0 : ¬n % 8 = 0) :
    (outsAt3 V c n hn).2 = k3_pay2 (iblk3 V c 0 ⟨n, hn⟩) (iblk3 V c 1 ⟨n, hn⟩)
      (outsAt3 V c (n - 1) (Nat.lt_of_le_of_lt (Nat.sub_le _ _) hn)).2 := by
  by_cases h1 : n % 8 = 7
  · rw [show outsAt3 V c n hn = _ from outsAt3_C V c ⟨n, hn⟩ h0 h1, sout3_C_eq]
  · rw [show outsAt3 V c n hn = _ from outsAt3_B V c ⟨n, hn⟩ h0 h1, sout3_B_eq]

theorem out_last3 (c : Dev nD) (t : Fin cfg3.N) (h1 : t.val % 8 = 7) :
    (outsAt3 V c t.val t.isLt).1 = k3_pay3 (outsAt3 V c t.val t.isLt).2 (iblk3 V c 2 t) := by
  rw [outsAt3_C V c t (by omega) h1, out3_C_eq, sout3_C_eq]

def accSum3 (c : Dev nD) (n : ℕ) (p : Fin 1280) (q : Fin 512) : EReal :=
  ∑ sb ∈ Finset.range (n % 8 + 1), ∑ kk : Fin 1280,
    tot3 (V c main_v51) (1280 * (n / 8) + p.val) (1280 * sb + kk.val) * tot3 (V c main_v59) (1280 * sb + kk.val) q.val

theorem acc_eq3 (c : Dev nD) : ∀ (n : ℕ) (hn : n < cfg3.N) (p : Fin 1280) (q : Fin 512),
    ((outsAt3 V c n hn).2 (ix2 p q) : EReal) = accSum3 V c n p q := by
  intro n
  induction n using Nat.strong_induction_on with
  | _ n ih =>
    intro hn p q
    have hN : cfg3.N = 64 := N_3
    by_cases h0 : n % 8 = 0
    · rw [acc_first3 V c n hn h0, pay2_apply3, pay1_apply3, zero_add]
      unfold accSum3
      rw [h0, Finset.sum_range_one]
      refine Finset.sum_congr rfl fun kk _ => ?_
      rw [iblk3_0_apply, iblk3_1_apply]
      simp only [Fin.val_mk, h0]
    · rw [acc_step3 V c n hn h0, pay2_apply3, ih (n - 1) (by omega) (by omega) p q]
      unfold accSum3
      have e1 : (n - 1) / 8 = n / 8 := by omega
      have e2 : (n - 1) % 8 + 1 = n % 8 := by omega
      rw [e1, e2, Finset.sum_range_succ]
      congr 1
      refine Finset.sum_congr rfl fun kk _ => ?_
      rw [iblk3_0_apply, iblk3_1_apply]

theorem flushed3_eq (c : Dev nD) (t : Fin cfg3.N) (hf : (cfg3.win 3).flush t = true) :
    (dat3 V c).flushed 3 t = ((cfg3.win 3).blk t).view.read (Elt Ideal) (Cert.Spec.mmb (M := 10240) (K := 10240) (N := 512) (V c main_v51) (V c main_v59) (V c main_v60)) := by
  have h7 : t.val % 8 = 7 := (flush3_3 t).mp hf
  obtain ⟨-, -, -, -, -, -, e0, e1⟩ := idx_facts3 t
  show (cfg3.win 3).cut (grid3.coords t) ((dat3 V c).after 3 t) = _
  rw [after3_3, out_last3 V c t h7]
  funext j
  obtain ⟨p, q, rfl⟩ : ∃ (p : Fin 1280) (q : Fin 512), j = ix2 p q := ⟨j 0, j 1, eq_ix2 j⟩
  show k3_pay3 (outsAt3 V c t.val t.isLt).2 (iblk3 V c 2 t) (ix2 p q)
    = Cert.Spec.mmb (M := 10240) (K := 10240) (N := 512) (V c main_v51) (V c main_v59) (V c main_v60) (((cfg3.win 3).blk t).view.emb (ix2 p q))
  rw [pay3_apply3, acc_eq3, iblk3_2_apply,
    spec_entry3 _ _ _ _ (1280 * (t.val / 8) + p.val) q.val
      (by show win3_3.index t (0 : Fin 2) * 1280 + 1 * p.val = _; omega)
      (by show win3_3.index t (1 : Fin 2) * 512 + 1 * q.val = _; omega)]
  unfold accSum3
  rw [h7]

theorem cover3 (i : S10240x512.Idx) :
    ∃ t : Fin cfg3.N, (cfg3.win 3).flush t = true ∧ i ∈ ((cfg3.win 3).blk t).view.set := by
  have hN : cfg3.N = 64 := N_3
  have hi0 : (i 0).val < 10240 := (i 0).isLt
  have hi1 : (i 1).val < 512 := (i 1).isLt
  obtain ⟨t, ht⟩ : ∃ t : Fin cfg3.N, t.val = 8 * ((i 0).val / 1280) + 7 := ⟨⟨8 * ((i 0).val / 1280) + 7, by omega⟩, rfl⟩
  obtain ⟨-, -, -, -, -, -, e0, e1⟩ := idx_facts3 t
  refine ⟨t, (flush3_3 t).mpr (by omega), ?_⟩
  show i ∈ ((View.whole main_v61).slice (win3_3.rect t)).set
  rw [View.set_slice_whole, Rect.mem_set_unit]
  intro a
  match a with
  | ⟨0, _⟩ => show win3_3.index t (0 : Fin 2) * 1280 ≤ (i 0).val ∧ (i 0).val < win3_3.index t (0 : Fin 2) * 1280 + 1280; omega
  | ⟨1, _⟩ => show win3_3.index t (1 : Fin 2) * 512 ≤ (i 1).val ∧ (i 1).val < win3_3.index t (1 : Fin 2) * 512 + 512; omega

theorem final3 (c : Dev nD) : (dat3 V c).arrAt 3 cfg3.N = Cert.Spec.mmb (M := 10240) (K := 10240) (N := 512) (V c main_v51) (V c main_v59) (V c main_v60) :=
  (dat3 V c).arrAt_eq_of_cover 3 _ (fun t hf => flushed3_eq V c t hf) cover3

end Accumulator

end Cert.KernelIdeal.Hand

end
-- ==== Proof.KI.Val4.lean ====
import proofs.«408842_j29429115912637_1_alg».proof.Proof.KI.R4
import proofs.«408842_j29429115912637_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Pieces

variable {F : FTy → Type} [FloatOps F]

theorem hz4 : (![0, 0] : Fin 2 → Nat) = fun _ => 0 := funext fun a => by fin_cases a <;> rfl

theorem readCov_cons_unit_zero4 {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem out4_eq (c : Dev nD) (i : grid4.Coords) (arg2 : Memref sig .tc .vmem S1280x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S1280x64 .f32) (harg5 : arg5.IsWhole) (arg6 : Memref sig .tc .vmem S1280x64 .f32) (harg6 : arg6.IsWhole) (hc0 : cond4_0 i) (hc1 : cond4_1 i)
    (x0 : Vec F S1280x512 .f32) (x1 : Vec F S512x64 .f32) (x2 : Vec F S1x64 .f32) :
    out4 c i arg2 harg2 arg3 harg3 arg4 harg4 arg5 harg5 arg6 harg6 hc0 hc1 x0 x1 x2 = k4_pay3 (k4_pay2 x0 x1 (k4_pay1 (F := F))) x2 := by
  unfold out4
  rw [View.read_writes_eq_canon _ _ _ (cover4_3 c i arg2 harg2 arg3 harg3 arg4 harg4 arg5 harg5 arg6 harg6 hc0 hc1 x0 x1 x2)]
  unfold kernelRun4
  dsimp only
  sl_unfold_words
  rw [View.canon_unit_zero hz4]
  simp only [View.readAt_eq_ld, harg2.read_unread, harg3.read_unread, harg4.read_unread, View.ld_unit_zero (S := S1280x512) hz4, View.ld_unit_zero (S := S512x64) hz4, View.ld_unit_zero (S := S1x64) hz4,
    View.readCov_unit_zero (S := S1280x64) _ hz4, readCov_cons_unit_zero4 (S := S1280x64) _ hz4]

end Pieces

theorem lhs_dot4_0 (i : S1280x64.Idx) (q : dot_S1280x512_S512x64_S1280x64_1_0_0_1_n_n.contr.Idx) :
    (dot_S1280x512_S512x64_S1280x64_1_0_0_1_n_n.lhsIdx i q 0).val = (i 0).val := by
  unfold DotDims.lhsIdx
  rw [dif_neg (show ¬(0 : Fin S1280x512.rank) ∈ dot_S1280x512_S512x64_S1280x64_1_0_0_1_n_n.lhsBatch by decide), dif_pos (show (0 : Fin S1280x512.rank) ∈ dot_S1280x512_S512x64_S1280x64_1_0_0_1_n_n.lhsNonContracting by decide)]
  rfl

theorem lhs_dot4_1 (i : S1280x64.Idx) (q : dot_S1280x512_S512x64_S1280x64_1_0_0_1_n_n.contr.Idx) :
    (dot_S1280x512_S512x64_S1280x64_1_0_0_1_n_n.lhsIdx i q 1).val = (q ⟨0, by decide⟩).val :=
  dot_S1280x512_S512x64_S1280x64_1_0_0_1_n_n.lhsIdx_val_of_single rfl i q

theorem rhs_dot4_0 (i : S1280x64.Idx) (q : dot_S1280x512_S512x64_S1280x64_1_0_0_1_n_n.contr.Idx) :
    (dot_S1280x512_S512x64_S1280x64_1_0_0_1_n_n.rhsIdx i q 0).val = (q ⟨0, by decide⟩).val :=
  dot_S1280x512_S512x64_S1280x64_1_0_0_1_n_n.rhsIdx_val_of_single rfl i q

theorem rhs_dot4_1 (i : S1280x64.Idx) (q : dot_S1280x512_S512x64_S1280x64_1_0_0_1_n_n.contr.Idx) :
    (dot_S1280x512_S512x64_S1280x64_1_0_0_1_n_n.rhsIdx i q 1).val = (i 1).val := by
  unfold DotDims.rhsIdx
  rw [dif_neg (show ¬(1 : Fin S512x64.rank) ∈ dot_S1280x512_S512x64_S1280x64_1_0_0_1_n_n.rhsBatch by decide), dif_pos (show (1 : Fin S512x64.rank) ∈ dot_S1280x512_S512x64_S1280x64_1_0_0_1_n_n.rhsNonContracting by decide)]
  rfl

theorem matmul4_apply {φ₁ φ₂ : FTy} (a : FVec Ideal S1280x512 φ₁) (b : FVec Ideal S512x64 φ₂) (p : Fin 1280) (q : Fin 64) :
    matmul (F := Ideal) dot_S1280x512_S512x64_S1280x64_1_0_0_1_n_n none a b (constant (F := Ideal) S1280x64 .f32 0x00000000#32) (ix2 p q)
      = ∑ k : Fin 512, a (ix2 p k) * b (ix2 k q) := by
  show FloatOps.matmul dot_S1280x512_S512x64_S1280x64_1_0_0_1_n_n none a b (constant (F := Ideal) S1280x64 .f32 0x00000000#32) (ix2 p q) = _
  rw [Ideal.matmul_constant_zero_apply, ← Equiv.sum_comp (contrEquiv1 dot_S1280x512_S512x64_S1280x64_1_0_0_1_n_n 512 rfl rfl).symm]
  refine Finset.sum_congr rfl fun k _ => ?_
  have hk := contrEquiv1_symm_val dot_S1280x512_S512x64_S1280x64_1_0_0_1_n_n 512 rfl rfl k
  have el : dot_S1280x512_S512x64_S1280x64_1_0_0_1_n_n.lhsIdx (ix2 p q) ((contrEquiv1 dot_S1280x512_S512x64_S1280x64_1_0_0_1_n_n 512 rfl rfl).symm k) = ix2 p k := funext fun ax => Fin.ext (by
    match ax with
    | ⟨0, _⟩ => exact lhs_dot4_0 _ _
    | ⟨1, _⟩ => exact (lhs_dot4_1 _ _).trans hk)
  have er : dot_S1280x512_S512x64_S1280x64_1_0_0_1_n_n.rhsIdx (ix2 p q) ((contrEquiv1 dot_S1280x512_S512x64_S1280x64_1_0_0_1_n_n 512 rfl rfl).symm k) = ix2 k q := funext fun ax => Fin.ext (by
    match ax with
    | ⟨0, _⟩ => exact (rhs_dot4_0 _ _).trans hk
    | ⟨1, _⟩ => exact rhs_dot4_1 _ _)
  rw [el, er]

theorem blockValue4_apply (a : Vec Ideal S1280x512 .f32) (b : Vec Ideal S512x64 .f32) (bias : Vec Ideal S1x64 .f32) (p : Fin 1280) (q : Fin 64) :
    k4_pay3 (F := Ideal) (k4_pay2 (F := Ideal) a b (k4_pay1 (F := Ideal))) bias (ix2 p q)
      = (∑ k : Fin 512, a (ix2 p k) * b (ix2 k q)) + bias (ix2 (0 : Fin 1) q) := by
  unfold k4_pay3 k4_pay2 k4_pay1
  simp only [shapeCast_self, truncf_apply, addf_apply]
  rw [broadcastTo_1b_ab_apply, matmul4_apply, broadcast_apply]
  show Ideal.ofBits .f32 0x00000000#32 + _ + _ = _
  rw [Ideal.ofBits_zero_f32, zero_add]
  rfl

theorem blockValue4_at (a : Vec Ideal S1280x512 .f32) (b : Vec Ideal S512x64 .f32) (bias : Vec Ideal S1x64 .f32) (j : S1280x64.Idx) :
    k4_pay3 (F := Ideal) (k4_pay2 (F := Ideal) a b (k4_pay1 (F := Ideal))) bias j
      = (∑ k : Fin 512, a (ix2 (j 0) k) * b (ix2 k (j 1))) + bias (ix2 (0 : Fin 1) (j 1)) := by
  obtain ⟨p, q, rfl⟩ : ∃ (p : Fin 1280) (q : Fin 64), j = ix2 p q := ⟨j 0, j 1, eq_ix2 j⟩
  exact blockValue4_apply a b bias p q

section Blocks

variable (V : (c : Dev nD) → (b : Ref sig .tc) → Buf (Elt Ideal) ((c : Thread nD τ).loc b))

theorem idx_facts4 : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) ≤ 7 ∧ win4_3.index t (1 : Fin 2) = 0 :=
  (by decide +kernel : ∀ t : Fin grid4.N, _)

theorem idx_onto4 : ∀ (q0 : Fin 8), ∃ t : Fin cfg4.N, win4_3.index t = ![q0.val, 0] :=
  (by decide +kernel : ∀ (q0 : Fin 8), ∃ t : Fin grid4.N, win4_3.index t = ![q0.val, 0])

theorem flushed4_eq (c : Dev nD) (t : Fin cfg4.N) :
    (dat4 V c).flushed 3 t = ((cfg4.win 3).blk t).view.read (Elt Ideal)
      (Cert.Spec.mmb (M := 10240) (K := 512) (N := 64) (V c main_v61) (V c main_arg6) (V c main_v62)) := by
  show (cfg4.win 3).cut (grid4.coords t) ((dat4 V c).after 3 t) = _
  rw [after4_3]
  unfold outAt4
  rw [out4_eq]
  obtain ⟨e0, e1, e2, e3, e4, e5, e6, e7⟩ := idx_facts4 t
  funext j
  show k4_pay3 (F := Ideal) (k4_pay2 (F := Ideal) (iblk4 V c 0 t) (iblk4 V c 1 t) (k4_pay1 (F := Ideal))) (iblk4 V c 2 t) j
    = Cert.Spec.mmb (M := 10240) (K := 512) (N := 64) (V c main_v61) (V c main_arg6) (V c main_v62) (((cfg4.win 3).blk t).view.emb j)
  rw [blockValue4_at]
  unfold Cert.Spec.mmb
  have hj0 : (j 0).val < 1280 := (j 0).isLt
  have hj1 : (j 1).val < 64 := (j 1).isLt
  have hA : ∀ k : Fin 512, iblk4 V c 0 t (ix2 (j 0) k) = V c main_v61 (ix2 ((((cfg4.win 3).blk t).view.emb j) 0) k) := fun k => by
    show V c main_v61 (((cfg4.win 0).blk t).view.emb (ix2 (j 0) k)) = _
    refine congrArg (V c main_v61) (funext fun ax => Fin.ext ?_)
    match ax with
    | ⟨0, _⟩ => show win4_0.index t (0 : Fin 2) * 1280 + 1 * (j 0).val = win4_3.index t (0 : Fin 2) * 1280 + 1 * (j 0).val; omega
    | ⟨1, _⟩ => show win4_0.index t (1 : Fin 2) * 512 + 1 * k.val = k.val; omega
  have hB : ∀ k : Fin 512, iblk4 V c 1 t (ix2 k (j 1)) = V c main_arg6 (ix2 k ((((cfg4.win 3).blk t).view.emb j) 1)) := fun k => by
    show V c main_arg6 (((cfg4.win 1).blk t).view.emb (ix2 k (j 1))) = _
    refine congrArg (V c main_arg6) (funext fun ax => Fin.ext ?_)
    match ax with
    | ⟨0, _⟩ => show win4_1.index t (0 : Fin 2) * 512 + 1 * k.val = k.val; omega
    | ⟨1, _⟩ => show win4_1.index t (1 : Fin 2) * 64 + 1 * (j 1).val = win4_3.index t (1 : Fin 2) * 64 + 1 * (j 1).val; omega
  have hC : iblk4 V c 2 t (ix2 (0 : Fin 1) (j 1)) = V c main_v62 (ix2 (0 : Fin 1) ((((cfg4.win 3).blk t).view.emb j) 1)) := by
    show V c main_v62 (((cfg4.win 2).blk t).view.emb (ix2 (0 : Fin 1) (j 1))) = _
    refine congrArg (V c main_v62) (funext fun ax => Fin.ext ?_)
    match ax with
    | ⟨0, _⟩ => show win4_2.index t (0 : Fin 2) * 1 + 1 * 0 = 0; omega
    | ⟨1, _⟩ => show win4_2.index t (1 : Fin 2) * 64 + 1 * (j 1).val = win4_3.index t (1 : Fin 2) * 64 + 1 * (j 1).val; omega
  rw [hC]
  exact congrArg (· + _) (Finset.sum_congr rfl fun k _ => by rw [hA k, hB k])

theorem mem_blk4 (t : Fin cfg4.N) (i : S10240x64.Idx) :
    i ∈ ((cfg4.win 3).blk t).view.set ↔ ∀ a : Fin 2, win4_3.index t a * S1280x64.size a ≤ (i a).val ∧ (i a).val < win4_3.index t a * S1280x64.size a + S1280x64.size a := by
  show i ∈ ((View.whole main_v63).slice (win4_3.rect t)).set ↔ _
  rw [View.set_slice_whole, Rect.mem_set_unit]
  exact Iff.rfl

theorem covered4 (i : S10240x64.Idx) :
    ∃ t : Fin cfg4.N, (cfg4.win 3).flush t = true ∧ i ∈ ((cfg4.win 3).blk t).view.set := by
  have hi0 : (i 0).val < 10240 := (i 0).isLt
  have hi1 : (i 1).val < 64 := (i 1).isLt
  obtain ⟨t, ht⟩ := idx_onto4 ⟨(i 0).val / 1280, by omega⟩
  have q0 : win4_3.index t (0 : Fin 2) = (i 0).val / 1280 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 1280 ≤ (i 0).val ∧ (i 0).val < win4_3.index t (0 : Fin 2) * 1280 + 1280; omega
  | ⟨1, _⟩ => show win4_3.index t (1 : Fin 2) * 64 ≤ (i 1).val ∧ (i 1).val < win4_3.index t (1 : Fin 2) * 64 + 64; omega

theorem final4 (c : Dev nD) :
    (dat4 V c).arrAt 3 cfg4.N = Cert.Spec.mmb (M := 10240) (K := 512) (N := 64) (V c main_v61) (V c main_arg6) (V c main_v62) :=
  (dat4 V c).arrAt_eq_of_cover 3 _ (fun t _ => flushed4_eq V c t) covered4

end Blocks

end Cert.KernelIdeal.Hand

end
-- ==== Proof.KI.Chain.lean ====
import proofs.«408842_j29429115912637_1_alg».proof.KernelIdeal
import proofs.«408842_j29429115912637_1_alg».proof.Proof.Gen.KernelIdeal

noncomputable section

namespace Cert.KernelIdeal.Hand

open Cert.KernelIdeal Cert.KernelIdeal.Gen
open Idealize.ShloMosaic

variable {F : FTy → Type} [FloatOps F]

def src1 (ei : IVec S2x160000 32) : IVec S160000 32 :=
  shapeCast S160000 (extractStridedSlice S1x160000 ![0, 0] ei slices_S2x160000_S1x160000_0_0) shapeCasts_S1x160000_S160000
def dst1 (ei : IVec S2x160000 32) : IVec S160000 32 :=
  shapeCast S160000 (extractStridedSlice S1x160000 ![1, 0] ei slices_S2x160000_S1x160000_1_0) shapeCasts_S1x160000_S160000

def srcT (ei : IVec S2x160000 32) : IVec S170000 32 :=
  concatenate S170000 0 [⟨S160000, src1 ei⟩, ⟨S10000, iotaInDim S10000 32 0⟩] concatenates_S160000_S10000_S170000_d0
def dstT (ei : IVec S2x160000 32) : IVec S170000 32 :=
  concatenate S170000 0 [⟨S160000, dst1 ei⟩, ⟨S10000, iotaInDim S10000 32 0⟩] concatenates_S160000_S10000_S170000_d0

def ewT (ei : IVec S2x160000 32) : FVec F S170000 .f32 :=
  concatenate S170000 0 [⟨S160000, uitofp (F := F) .f32 (cmpi .ne (src1 ei) (dst1 ei))⟩,
    ⟨S10000, broadcastInDim S10000 ![] bcast_S_S10000 (constant S_ .f32 0x3F800000#32)⟩] concatenates_S160000_S10000_S170000_d0

def degT (ei : IVec S2x160000 32) : FVec F S10000 .f32 :=
  Host.scatterAdd scatter_S10000_S170000x1_S170000_n_0_0_1 (broadcastInDim S10000 ![] bcast_S_S10000 (constant S_ .f32 0x00000000#32))
    (broadcastInDim S170000x1 ![0] bcast_S170000_S170000x1_0 (dstT ei)) (ewT ei)

def disT (ei : IVec S2x160000 32) : FVec F S10000 .f32 :=
  select (cmpf (F := F) .ogt (degT ei) (broadcastInDim S10000 ![] bcast_S_S10000 (constant S_ .f32 0x00000000#32)))
    (Host.rsqrt (maximumf (degT ei) (broadcastInDim S10000 ![] bcast_S_S10000 (constant S_ .f32 0x2B8CBCCC#32))))
    (broadcastInDim S10000 ![] bcast_S_S10000 (constant S_ .f32 0x00000000#32))

def wrapI (v : IVec S170000 32) (n : BitVec 32) : IVec S170000 32 :=
  select (cmpi .slt v (broadcastInDim S170000 ![] bcast_S_S170000 (constantI S_ 32 0#32)))
    (addi v (broadcastInDim S170000 ![] bcast_S_S170000 (constantI S_ 32 n))) v

def nrmT (ei : IVec S2x160000 32) : FVec F S170000 .f32 :=
  mulf (mulf
    (Host.gather gather_S10000_S170000x1_S170000_n_0_n_n_0_1_1 (disT (F := F) ei) (broadcastInDim S170000x1 ![0] bcast_S170000_S170000x1_0 (wrapI (srcT ei) 10000#32)))
    (Host.gather gather_S10000_S170000x1_S170000_n_0_n_n_0_1_1 (disT (F := F) ei) (broadcastInDim S170000x1 ![0] bcast_S170000_S170000x1_0 (wrapI (dstT ei) 10000#32))))
    (ewT ei)

def adjIdxT (ei : IVec S2x160000 32) : IVec S170000x2 32 :=
  concatenate S170000x2 1 [⟨S170000x1, broadcastInDim S170000x1 ![0] bcast_S170000_S170000x1_0 (wrapI (dstT ei) 10240#32)⟩,
    ⟨S170000x1, broadcastInDim S170000x1 ![0] bcast_S170000_S170000x1_0 (wrapI (srcT ei) 10240#32)⟩] concatenates_S170000x1_S170000x1_S170000x2_d1

def adjT (ei : IVec S2x160000 32) : FVec F S10240x10240 .bf16 :=
  truncf .bf16 (Host.scatterAdd scatter_S10240x10240_S170000x2_S170000_n_01_01_1
    (broadcastInDim S10240x10240 ![] bcast_S_S10240x10240 (constant S_ .f32 0x00000000#32)) (adjIdxT ei) (nrmT (F := F) ei)) bitsLt_bf16_f32

def xpadT (x : FVec F S10000x512 .f32) : FVec F S10240x512 .f32 :=
  pad S10240x512 ![0, 0] ![240, 0] ![0, 0] x (sitofp (F := F) .f32 (constantI S_ 32 0#32)) pads_S10000x512_S10240x512_02400_000 h_S_

def z512T : FVec F S1x512 .f32 :=
  shapeCast S1x512 (broadcastInDim S512 ![] bcast_S_S512 (constant S_ .f32 0x00000000#32)) shapeCasts_S512_S1x512
def rowT (b : FVec F S512 .f32) : FVec F S1x512 .f32 := shapeCast S1x512 b shapeCasts_S512_S1x512
def row64T (b : FVec F S64 .f32) : FVec F S1x64 .f32 := shapeCast S1x64 b shapeCasts_S64_S1x64

end Cert.KernelIdeal.Hand

end
-- ==== Proof.KI.Glue.lean ====
import proofs.«408842_j29429115912637_1_alg».proof.Proof.KI.Run
import proofs.«408842_j29429115912637_1_alg».proof.Proof.KI.Chain
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo

variable {F : FTy → Type} [FloatOps F]

section Stretches

variable (V : Valuation τ sig (Elt F))

theorem s0_v5 : StableHlo.after hostOps0 V (Proc.devRef .tc main_v5) = srcT (V (Proc.devRef .tc main_arg1)) := by
  after_results <;> rfl
theorem s0_v6 : StableHlo.after hostOps0 V (Proc.devRef .tc main_v6) = dstT (V (Proc.devRef .tc main_arg1)) := by
  after_results <;> rfl
theorem s0_v10 : StableHlo.after hostOps0 V (Proc.devRef .tc main_v10) = ewT (F := F) (V (Proc.devRef .tc main_arg1)) := by
  after_results <;> rfl
theorem s0_v15 : StableHlo.after hostOps0 V (Proc.devRef .tc main_v15)
    = cmpf (F := F) .ogt (degT (F := F) (V (Proc.devRef .tc main_arg1)))
        (broadcastInDim S10000 ![] bcast_S_S10000 (constant (F := F) S_ .f32 0x00000000#32)) := by
  after_results <;> rfl
theorem s0_v18 : StableHlo.after hostOps0 V (Proc.devRef .tc main_v18)
    = Host.rsqrt (maximumf (degT (F := F) (V (Proc.devRef .tc main_arg1)))
        (broadcastInDim S10000 ![] bcast_S_S10000 (constant (F := F) S_ .f32 0x2B8CBCCC#32))) := by
  after_results <;> rfl
theorem s0_cst3 : StableHlo.after hostOps0 V (Proc.devRef .tc main_cst_3) = constant (F := F) S_ .f32 0x00000000#32 := by
  after_results <;> rfl

theorem s1_v19 (ei : IVec S2x160000 32)
    (h15 : V (Proc.devRef .tc main_v15) = cmpf (F := F) .ogt (degT (F := F) ei)
        (broadcastInDim S10000 ![] bcast_S_S10000 (constant (F := F) S_ .f32 0x00000000#32)))
    (h18 : V (Proc.devRef .tc main_v18) = Host.rsqrt (maximumf (degT (F := F) ei)
        (broadcastInDim S10000 ![] bcast_S_S10000 (constant (F := F) S_ .f32 0x2B8CBCCC#32))))
    (h3 : V (Proc.devRef .tc main_cst_3) = constant (F := F) S_ .f32 0x00000000#32) :
    StableHlo.after hostOps0_1 V (Proc.devRef .tc main_v19) = disT (F := F) ei := by
  after_results
  rw [h15, h18, h3]
  simp only [TRef.ofBuf, TRef.toBuf, cast_eq]
  rfl

theorem s3_v52 (h12 : V (Proc.devRef .tc main_c_12) = constantI S_ 32 0#32) :
    StableHlo.after hostOps0_3 V (Proc.devRef .tc main_v52) = xpadT (F := F) (V (Proc.devRef .tc main_arg0)) := by
  after_results
  rw [h12]
  rfl

theorem s4_v53 : StableHlo.after hostOps0_4 V (Proc.devRef .tc main_v53)
    = broadcastInDim S512 ![] bcast_S_S512 (constant (F := F) S_ .f32 0x00000000#32) := by
  after_results <;> rfl
theorem s4_v54 : StableHlo.after hostOps0_4 V (Proc.devRef .tc main_v54) = z512T (F := F) := by
  after_results <;> rfl

theorem h1_v56 : StableHlo.after hostOps1 V (Proc.devRef .tc main_v56) = rowT (F := F) (V (Proc.devRef .tc main_arg3)) := by
  after_results <;> rfl
theorem h2_v58 (h53 : V (Proc.devRef .tc main_v53) = broadcastInDim S512 ![] bcast_S_S512 (constant (F := F) S_ .f32 0x00000000#32)) :
    StableHlo.after hostOps2 V (Proc.devRef .tc main_v58) = z512T (F := F) := by
  after_results
  rw [h53]
  rfl
theorem h3_v60 : StableHlo.after hostOps3 V (Proc.devRef .tc main_v60) = rowT (F := F) (V (Proc.devRef .tc main_arg5)) := by
  after_results <;> rfl
theorem h4_v62 : StableHlo.after hostOps4 V (Proc.devRef .tc main_v62) = row64T (F := F) (V (Proc.devRef .tc main_arg7)) := by
  after_results <;> rfl
theorem h5_v64 : StableHlo.after hostOps5 V (Proc.devRef .tc main_v64)
    = extractStridedSlice S10000x64 ![0, 0] (V (Proc.devRef .tc main_v63)) slices_S10240x64_S10000x64_0_0 := by
  after_results <;> rfl

def lsmT (x : FVec F S10000x64 .f32) : FVec F S10000x64 .f32 :=
  subf
    (subf x (broadcastInDim S10000x64 ![0, 1] bcast_S10000x1_S10000x64_0_1 (broadcastInDim S10000x1 ![0] bcast_S10000_S10000x1_0
      (maximumf (broadcastInDim S10000 ![] bcast_S_S10000 (constant (F := F) S_ .f32 0xFF800000#32))
        (Host.reduce FloatOps.maximumf x (constant (F := F) S_ .f32 0xFF800000#32) reducesTo_S10000x64_S10000_d1 h_S_)))))
    (broadcastInDim S10000x64 ![0, 1] bcast_S10000x1_S10000x64_0_1 (Host.log (broadcastInDim S10000x1 ![0] bcast_S10000_S10000x1_0
      (Host.reduceAdd
        (Host.exp (subf x (broadcastInDim S10000x64 ![0, 1] bcast_S10000x1_S10000x64_0_1 (broadcastInDim S10000x1 ![0] bcast_S10000_S10000x1_0
          (maximumf (broadcastInDim S10000 ![] bcast_S_S10000 (constant (F := F) S_ .f32 0xFF800000#32))
            (Host.reduce FloatOps.maximumf x (constant (F := F) S_ .f32 0xFF800000#32) reducesTo_S10000x64_S10000_d1 h_S_))))))
        (constant (F := F) S_ .f32 0x00000000#32) reducesTo_S10000x64_S10000_d1 h_S_))))

theorem h51_v65 : StableHlo.after hostOps5_1 V (Proc.devRef .tc main_v65) = lsmT (F := F) (V (Proc.devRef .tc main_v64)) := by
  after_results
  simp only [TRef.ofBuf, TRef.toBuf, cast_eq]
  unfold lsmT
  rfl

end Stretches

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

abbrev ops2A : List (HloOp τ sig (Elt F)) :=
  [ StableHlo.nullary main_c (constantI S_ 32 0#32),
    StableHlo.unary main_c main_v20 (broadcastInDim S170000 ![] bcast_S_S170000),
    StableHlo.binary main_v5 main_v20 main_v21 (cmpi .slt),
    StableHlo.nullary main_c_4 (constantI S_ 32 10000#32),
    StableHlo.unary main_c_4 main_v22 (broadcastInDim S170000 ![] bcast_S_S170000),
    StableHlo.binary main_v5 main_v22 main_v23 (addi),
    StableHlo.ternary main_v21 main_v23 main_v5 main_v24 (select),
    StableHlo.unary main_v24 main_v25 (broadcastInDim S170000x1 ![0] bcast_S170000_S170000x1_0),
    StableHlo.binary main_v19 main_v25 main_v26 ((fun x i => Host.gather gather_S10000_S170000x1_S170000_n_0_n_n_0_1_1 x i)) ]
abbrev ops2B : List (HloOp τ sig (Elt F)) :=
  [ StableHlo.nullary main_c_5 (constantI S_ 32 0#32),
    StableHlo.unary main_c_5 main_v27 (broadcastInDim S170000 ![] bcast_S_S170000),
    StableHlo.binary main_v6 main_v27 main_v28 (cmpi .slt),
    StableHlo.nullary main_c_6 (constantI S_ 32 10000#32),
    StableHlo.unary main_c_6 main_v29 (broadcastInDim S170000 ![] bcast_S_S170000),
    StableHlo.binary main_v6 main_v29 main_v30 (addi),
    StableHlo.ternary main_v28 main_v30 main_v6 main_v31 (select),
    StableHlo.unary main_v31 main_v32 (broadcastInDim S170000x1 ![0] bcast_S170000_S170000x1_0),
    StableHlo.binary main_v19 main_v32 main_v33 ((fun x i => Host.gather gather_S10000_S170000x1_S170000_n_0_n_n_0_1_1 x i)) ]
abbrev ops2C : List (HloOp τ sig (Elt F)) :=
  [ StableHlo.binary main_v26 main_v33 main_v34 (mulf),
    StableHlo.binary main_v34 main_v10 main_v35 (mulf) ]
abbrev ops2Y : List (HloOp τ sig (Elt F)) :=
  [ StableHlo.nullary main_cst_7 (constant S_ .f32 0x00000000#32),
    StableHlo.unary main_cst_7 main_v36 (broadcastInDim S10240x10240 ![] bcast_S_S10240x10240),
    StableHlo.nullary main_c_8 (constantI S_ 32 0#32),
    StableHlo.unary main_c_8 main_v37 (broadcastInDim S170000 ![] bcast_S_S170000),
    StableHlo.binary main_v6 main_v37 main_v38 (cmpi .slt),
    StableHlo.nullary main_c_9 (constantI S_ 32 10240#32),
    StableHlo.unary main_c_9 main_v39 (broadcastInDim S170000 ![] bcast_S_S170000),
    StableHlo.binary main_v6 main_v39 main_v40 (addi),
    StableHlo.ternary main_v38 main_v40 main_v6 main_v41 (select),
    StableHlo.nullary main_c_10 (constantI S_ 32 0#32),
    StableHlo.unary main_c_10 main_v42 (broadcastInDim S170000 ![] bcast_S_S170000),
    StableHlo.binary main_v5 main_v42 main_v43 (cmpi .slt),
    StableHlo.nullary main_c_11 (constantI S_ 32 10240#32),
    StableHlo.unary main_c_11 main_v44 (broadcastInDim S170000 ![] bcast_S_S170000),
    StableHlo.binary main_v5 main_v44 main_v45 (addi),
    StableHlo.ternary main_v43 main_v45 main_v5 main_v46 (select) ]
abbrev ops2Z : List (HloOp τ sig (Elt F)) :=
  [ StableHlo.unary main_v41 main_v47 (broadcastInDim S170000x1 ![0] bcast_S170000_S170000x1_0),
    StableHlo.unary main_v46 main_v48 (broadcastInDim S170000x1 ![0] bcast_S170000_S170000x1_0),
    StableHlo.binary main_v47 main_v48 main_v49 ((fun a b => concatenate S170000x2 1 [⟨S170000x1, a⟩, ⟨S170000x1, b⟩] concatenates_S170000x1_S170000x1_S170000x2_d1)),
    StableHlo.ternary main_v36 main_v49 main_v35 main_v50 ((fun x i u => Host.scatterAdd scatter_S10240x10240_S170000x2_S170000_n_01_01_1 x i u)),
    StableHlo.unary main_v50 main_v51 ((truncf .bf16 · bitsLt_bf16_f32)),
    StableHlo.nullary main_c_12 (constantI S_ 32 0#32) ]
theorem hostOps0_2_split :
    (hostOps0_2 : List (HloOp τ sig (Elt F))) = ops2A ++ (ops2B ++ (ops2C ++ (ops2Y ++ ops2Z))) := rfl

section Parts
variable (V : Valuation τ sig (Elt F))

theorem a_v26 (ei : IVec S2x160000 32) (h5 : V (Proc.devRef .tc main_v5) = srcT ei)
    (h19 : V (Proc.devRef .tc main_v19) = disT (F := F) ei) :
    StableHlo.after ops2A V (Proc.devRef .tc main_v26)
      = Host.gather gather_S10000_S170000x1_S170000_n_0_n_n_0_1_1 (disT (F := F) ei)
          (broadcastInDim S170000x1 ![0] bcast_S170000_S170000x1_0 (wrapI (srcT ei) 10000#32)) := by
  after_results
  rw [h5, h19]
  rfl
theorem a_v5 : StableHlo.after ops2A V (Proc.devRef .tc main_v5) = V (Proc.devRef .tc main_v5) := by
  after_results <;> rfl
theorem a_v6 : StableHlo.after ops2A V (Proc.devRef .tc main_v6) = V (Proc.devRef .tc main_v6) := by
  after_results <;> rfl
theorem a_v10 : StableHlo.after ops2A V (Proc.devRef .tc main_v10) = V (Proc.devRef .tc main_v10) := by
  after_results <;> rfl
theorem a_v19 : StableHlo.after ops2A V (Proc.devRef .tc main_v19) = V (Proc.devRef .tc main_v19) := by
  after_results <;> rfl
theorem b_v33 (ei : IVec S2x160000 32) (h6 : V (Proc.devRef .tc main_v6) = dstT ei)
    (h19 : V (Proc.devRef .tc main_v19) = disT (F := F) ei) :
    StableHlo.after ops2B V (Proc.devRef .tc main_v33)
      = Host.gather gather_S10000_S170000x1_S170000_n_0_n_n_0_1_1 (disT (F := F) ei)
          (broadcastInDim S170000x1 ![0] bcast_S170000_S170000x1_0 (wrapI (dstT ei) 10000#32)) := by
  after_results
  rw [h6, h19]
  rfl
theorem b_v5 : StableHlo.after ops2B V (Proc.devRef .tc main_v5) = V (Proc.devRef .tc main_v5) := by
  after_results <;> rfl
theorem b_v6 : StableHlo.after ops2B V (Proc.devRef .tc main_v6) = V (Proc.devRef .tc main_v6) := by
  after_results <;> rfl
theorem b_v10 : StableHlo.after ops2B V (Proc.devRef .tc main_v10) = V (Proc.devRef .tc main_v10) := by
  after_results <;> rfl
theorem b_v26 : StableHlo.after ops2B V (Proc.devRef .tc main_v26) = V (Proc.devRef .tc main_v26) := by
  after_results <;> rfl
theorem c_v35 (ei : IVec S2x160000 32)
    (h26 : V (Proc.devRef .tc main_v26)
      = Host.gather gather_S10000_S170000x1_S170000_n_0_n_n_0_1_1 (disT (F := F) ei)
          (broadcastInDim S170000x1 ![0] bcast_S170000_S170000x1_0 (wrapI (srcT ei) 10000#32)))
    (h33 : V (Proc.devRef .tc main_v33)
      = Host.gather gather_S10000_S170000x1_S170000_n_0_n_n_0_1_1 (disT (F := F) ei)
          (broadcastInDim S170000x1 ![0] bcast_S170000_S170000x1_0 (wrapI (dstT ei) 10000#32)))
    (h10 : V (Proc.devRef .tc main_v10) = ewT (F := F) ei) :
    StableHlo.after ops2C V (Proc.devRef .tc main_v35) = nrmT (F := F) ei := by
  after_results
  rw [h26, h33, h10]
  rfl
theorem c_v5 : StableHlo.after ops2C V (Proc.devRef .tc main_v5) = V (Proc.devRef .tc main_v5) := by
  after_results <;> rfl
theorem c_v6 : StableHlo.after ops2C V (Proc.devRef .tc main_v6) = V (Proc.devRef .tc main_v6) := by
  after_results <;> rfl
theorem y_v35 : StableHlo.after ops2Y V (Proc.devRef .tc main_v35) = V (Proc.devRef .tc main_v35) := by
  after_results <;> rfl
theorem y_v36 : StableHlo.after ops2Y V (Proc.devRef .tc main_v36)
    = broadcastInDim S10240x10240 ![] bcast_S_S10240x10240 (constant (F := F) S_ .f32 0x00000000#32) := by
  after_results <;> rfl
theorem y_v41 (ei : IVec S2x160000 32) (h6 : V (Proc.devRef .tc main_v6) = dstT ei) :
    StableHlo.after ops2Y V (Proc.devRef .tc main_v41) = wrapI (dstT ei) 10240#32 := by
  after_results
  rw [h6]
  rfl
theorem y_v46 (ei : IVec S2x160000 32) (h5 : V (Proc.devRef .tc main_v5) = srcT ei) :
    StableHlo.after ops2Y V (Proc.devRef .tc main_v46) = wrapI (srcT ei) 10240#32 := by
  after_results
  rw [h5]
  rfl
theorem z_v51 (ei : IVec S2x160000 32) (h41 : V (Proc.devRef .tc main_v41) = wrapI (dstT ei) 10240#32)
    (h46 : V (Proc.devRef .tc main_v46) = wrapI (srcT ei) 10240#32)
    (h36 : V (Proc.devRef .tc main_v36)
      = broadcastInDim S10240x10240 ![] bcast_S_S10240x10240 (constant (F := F) S_ .f32 0x00000000#32))
    (h35 : V (Proc.devRef .tc main_v35) = nrmT (F := F) ei) :
    StableHlo.after ops2Z V (Proc.devRef .tc main_v51) = adjT (F := F) ei := by
  after_results
  rw [h41, h46, h36, h35]
  rfl
theorem z_c12 : StableHlo.after ops2Z V (Proc.devRef .tc main_c_12) = constantI S_ 32 0#32 := by
  after_results <;> rfl

theorem s2_v51 (ei : IVec S2x160000 32) (h5 : V (Proc.devRef .tc main_v5) = srcT ei) (h6 : V (Proc.devRef .tc main_v6) = dstT ei)
    (h10 : V (Proc.devRef .tc main_v10) = ewT (F := F) ei) (h19 : V (Proc.devRef .tc main_v19) = disT (F := F) ei) :
    StableHlo.after hostOps0_2 V (Proc.devRef .tc main_v51) = adjT (F := F) ei := by
  rw [hostOps0_2_split, after_append, after_append, after_append, after_append]
  have a5 := (a_v5 V).trans h5
  have a6 := (a_v6 V).trans h6
  have a10 := (a_v10 V).trans h10
  have a19 := (a_v19 V).trans h19
  have a26 := a_v26 V ei h5 h19
  have b5 := (b_v5 (StableHlo.after ops2A V)).trans a5
  have b6 := (b_v6 (StableHlo.after ops2A V)).trans a6
  have b10 := (b_v10 (StableHlo.after ops2A V)).trans a10
  have b26 := (b_v26 (StableHlo.after ops2A V)).trans a26
  have b33 := b_v33 (StableHlo.after ops2A V) ei a6 a19
  have c5 := (c_v5 (StableHlo.after ops2B (StableHlo.after ops2A V))).trans b5
  have c6 := (c_v6 (StableHlo.after ops2B (StableHlo.after ops2A V))).trans b6
  have c35 := c_v35 (StableHlo.after ops2B (StableHlo.after ops2A V)) ei b26 b33 b10
  exact z_v51 _ ei (y_v41 _ ei c6) (y_v46 _ ei c5) (y_v36 _) ((y_v35 _).trans c35)
theorem s2_c12 : StableHlo.after hostOps0_2 V (Proc.devRef .tc main_c_12) = constantI S_ 32 0#32 := by
  rw [hostOps0_2_split, after_append, after_append, after_append, after_append]
  exact z_c12 _

end Parts

section Readings

variable (m : (ℓ : Loc nD τ sig) → Buf (Elt F) ℓ) (c : Dev nD)

abbrev V16 : (c : Dev nD) → (b : Ref sig .tc) → Buf (Elt F) ((c : Thread nD τ).loc b) := fun c b => W16 m c b

theorem W5_launch (r : Ref sig .tc) (h4 : r ∉ hostOps0_4_W) (h3 : r ∉ hostOps0_3_W) (h2 : r ∉ hostOps0_2_W)
    (h1 : r ∉ hostOps0_1_W) (h0 : r ∉ hostOps0_W) : W5 m c (Proc.devRef .tc r) = m ((c : Thread nD τ).loc r) :=
  calc W5 m c (Proc.devRef .tc r)
    _ = W4 m c (Proc.devRef .tc r) := StableHlo.after_of_writes_sub hostOps0_4 _ hostOps0_4_writes h4
    _ = W3 m c (Proc.devRef .tc r) := StableHlo.after_of_writes_sub hostOps0_3 _ hostOps0_3_writes h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

theorem W7_down (r : Ref sig .tc) (h : r ∉ hostOps1_W) (hne : ∀ w, Pipeline.arrRef spec0 w ≠ r) :
    W7 m c (Proc.devRef .tc r) = W5 m c (Proc.devRef .tc r) :=
  (StableHlo.after_of_writes_sub hostOps1 _ hostOps1_writes h).trans (W6_of_ne m c r hne)

theorem W9_down (r : Ref sig .tc) (h : r ∉ hostOps2_W) (hne : ∀ w, Pipeline.arrRef spec1 w ≠ r) :
    W9 m c (Proc.devRef .tc r) = W7 m c (Proc.devRef .tc r) :=
  (StableHlo.after_of_writes_sub hostOps2 _ hostOps2_writes h).trans (W8_of_ne m c r hne)

theorem W11_down (r : Ref sig .tc) (h : r ∉ hostOps3_W) (hne : ∀ w, Pipeline.arrRef spec2 w ≠ r) :
    W11 m c (Proc.devRef .tc r) = W9 m c (Proc.devRef .tc r) :=
  (StableHlo.after_of_writes_sub hostOps3 _ hostOps3_writes h).trans (W10_of_ne m c r hne)

theorem W13_down (r : Ref sig .tc) (h : r ∉ hostOps4_W) (hne : ∀ w, Pipeline.arrRef spec3 w ≠ r) :
    W13 m c (Proc.devRef .tc r) = W11 m c (Proc.devRef .tc r) :=
  (StableHlo.after_of_writes_sub hostOps4 _ hostOps4_writes h).trans (W12_of_ne m c r hne)

theorem W2_v5 : W2 m c (Proc.devRef .tc main_v5) = srcT (m ((c : Thread nD τ).loc main_arg1)) :=
  (StableHlo.after_of_writes_sub hostOps0_1 _ hostOps0_1_writes (by decide)).trans (s0_v5 (W0 m c))
theorem W2_v6 : W2 m c (Proc.devRef .tc main_v6) = dstT (m ((c : Thread nD τ).loc main_arg1)) :=
  (StableHlo.after_of_writes_sub hostOps0_1 _ hostOps0_1_writes (by decide)).trans (s0_v6 (W0 m c))
theorem W2_v10 : W2 m c (Proc.devRef .tc main_v10) = ewT (F := F) (m ((c : Thread nD τ).loc main_arg1)) :=
  (StableHlo.after_of_writes_sub hostOps0_1 _ hostOps0_1_writes (by decide)).trans (s0_v10 (W0 m c))
theorem W2_v19 : W2 m c (Proc.devRef .tc main_v19) = disT (F := F) (m ((c : Thread nD τ).loc main_arg1)) :=
  s1_v19 (W1 m c) _ (s0_v15 (W0 m c)) (s0_v18 (W0 m c)) (s0_cst3 (W0 m c))

theorem V5_v51 : V5 m c main_v51 = adjT (F := F) (m ((c : Thread nD τ).loc main_arg1)) :=
  calc W5 m c (Proc.devRef .tc main_v51)
    _ = W4 m c (Proc.devRef .tc main_v51) := StableHlo.after_of_writes_sub hostOps0_4 _ hostOps0_4_writes (by decide)
    _ = W3 m c (Proc.devRef .tc main_v51) := StableHlo.after_of_writes_sub hostOps0_3 _ hostOps0_3_writes (by decide)
    _ = adjT (F := F) (m ((c : Thread nD τ).loc main_arg1)) :=
      s2_v51 (W2 m c) _ (W2_v5 m c) (W2_v6 m c) (W2_v10 m c) (W2_v19 m c)

theorem W3_arg0 : W3 m c (Proc.devRef .tc main_arg0) = m ((c : Thread nD τ).loc main_arg0) :=
  calc W3 m c (Proc.devRef .tc main_arg0)
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

theorem V5_v52 : V5 m c main_v52 = xpadT (F := F) (m ((c : Thread nD τ).loc main_arg0)) :=
  calc W5 m c (Proc.devRef .tc main_v52)
    _ = W4 m c (Proc.devRef .tc main_v52) := StableHlo.after_of_writes_sub hostOps0_4 _ hostOps0_4_writes (by decide)
    _ = xpadT (F := F) (W3 m c (Proc.devRef .tc main_arg0)) := s3_v52 (W3 m c) (s2_c12 (W2 m c))
    _ = xpadT (F := F) (m ((c : Thread nD τ).loc main_arg0)) := congrArg (xpadT (F := F)) (W3_arg0 m c)

theorem V5_v54 : V5 m c main_v54 = z512T (F := F) := s4_v54 (W4 m c)
theorem V5_arg2 : V5 m c main_arg2 = m ((c : Thread nD τ).loc main_arg2) :=
  W5_launch m c main_arg2 (by decide) (by decide) (by decide) (by decide) (by decide)

theorem V7_v56 : V7 m c main_v56 = rowT (F := F) (m ((c : Thread nD τ).loc main_arg3)) :=
  calc W7 m c (Proc.devRef .tc main_v56)
    _ = rowT (F := F) (W6 m c (Proc.devRef .tc main_arg3)) := h1_v56 (W6 m c)
    _ = rowT (F := F) (m ((c : Thread nD τ).loc main_arg3)) := congrArg (rowT (F := F))
        ((W6_of_ne m c main_arg3 (by decide)).trans
          (W5_launch m c main_arg3 (by decide) (by decide) (by decide) (by decide) (by decide)))
theorem V7_v51 : V7 m c main_v51 = V5 m c main_v51 := W7_down m c main_v51 (by decide) (by decide)
theorem V7_v55 : V7 m c main_v55 = V6 m c main_v55 :=
  StableHlo.after_of_writes_sub hostOps1 _ hostOps1_writes (by decide)

theorem W8_v53 : W8 m c (Proc.devRef .tc main_v53)
    = broadcastInDim S512 ![] bcast_S_S512 (constant (F := F) S_ .f32 0x00000000#32) :=
  calc W8 m c (Proc.devRef .tc main_v53)
    _ = W7 m c (Proc.devRef .tc main_v53) := W8_of_ne m c main_v53 (by decide)
    _ = W5 m c (Proc.devRef .tc main_v53) := W7_down m c main_v53 (by decide) (by decide)
    _ = _ := s4_v53 (W4 m c)
theorem V9_v58 : V9 m c main_v58 = z512T (F := F) := h2_v58 (W8 m c) (W8_v53 m c)
theorem V9_v57 : V9 m c main_v57 = V8 m c main_v57 :=
  StableHlo.after_of_writes_sub hostOps2 _ hostOps2_writes (by decide)
theorem V9_arg4 : V9 m c main_arg4 = m ((c : Thread nD τ).loc main_arg4) :=
  calc W9 m c (Proc.devRef .tc main_arg4)
    _ = W7 m c (Proc.devRef .tc main_arg4) := W9_down m c main_arg4 (by decide) (by decide)
    _ = W5 m c (Proc.devRef .tc main_arg4) := W7_down m c main_arg4 (by decide) (by decide)
    _ = _ := W5_launch m c main_arg4 (by decide) (by decide) (by decide) (by decide) (by decide)

theorem V11_v60 : V11 m c main_v60 = rowT (F := F) (m ((c : Thread nD τ).loc main_arg5)) :=
  calc W11 m c (Proc.devRef .tc main_v60)
    _ = rowT (F := F) (W10 m c (Proc.devRef .tc main_arg5)) := h3_v60 (W10 m c)
    _ = rowT (F := F) (m ((c : Thread nD τ).loc main_arg5)) := congrArg (rowT (F := F))
        ((W10_of_ne m c main_arg5 (by decide)).trans ((W9_down m c main_arg5 (by decide) (by decide)).trans
          ((W7_down m c main_arg5 (by decide) (by decide)).trans
            (W5_launch m c main_arg5 (by decide) (by decide) (by decide) (by decide) (by decide)))))

theorem W8_v51 : W8 m c (Proc.devRef .tc main_v51) = W7 m c (Proc.devRef .tc main_v51) :=
  (W8_arr m c 0).trans (((dat1 (V7 m) c).arrAt_in 0 rfl _).trans (A_eq1 (V7 m) c 0))
theorem V11_v51 : V11 m c main_v51 = V5 m c main_v51 :=
  calc W11 m c (Proc.devRef .tc main_v51)
    _ = W9 m c (Proc.devRef .tc main_v51) := W11_down m c main_v51 (by decide) (by decide)
    _ = W8 m c (Proc.devRef .tc main_v51) := StableHlo.after_of_writes_sub hostOps2 _ hostOps2_writes (by decide)
    _ = W7 m c (Proc.devRef .tc main_v51) := W8_v51 m c
    _ = W5 m c (Proc.devRef .tc main_v51) := W7_down m c main_v51 (by decide) (by decide)
theorem V11_v59 : V11 m c main_v59 = V10 m c main_v59 :=
  StableHlo.after_of_writes_sub hostOps3 _ hostOps3_writes (by decide)

theorem V13_v62 : V13 m c main_v62 = row64T (F := F) (m ((c : Thread nD τ).loc main_arg7)) :=
  calc W13 m c (Proc.devRef .tc main_v62)
    _ = row64T (F := F) (W12 m c (Proc.devRef .tc main_arg7)) := h4_v62 (W12 m c)
    _ = row64T (F := F) (m ((c : Thread nD τ).loc main_arg7)) := congrArg (row64T (F := F))
        ((W12_of_ne m c main_arg7 (by decide)).trans ((W11_down m c main_arg7 (by decide) (by decide)).trans
          ((W9_down m c main_arg7 (by decide) (by decide)).trans ((W7_down m c main_arg7 (by decide) (by decide)).trans
            (W5_launch m c main_arg7 (by decide) (by decide) (by decide) (by decide) (by decide))))))
theorem V13_v61 : V13 m c main_v61 = V12 m c main_v61 :=
  StableHlo.after_of_writes_sub hostOps4 _ hostOps4_writes (by decide)
theorem V13_arg6 : V13 m c main_arg6 = m ((c : Thread nD τ).loc main_arg6) :=
  calc W13 m c (Proc.devRef .tc main_arg6)
    _ = W11 m c (Proc.devRef .tc main_arg6) := W13_down m c main_arg6 (by decide) (by decide)
    _ = W9 m c (Proc.devRef .tc main_arg6) := W11_down m c main_arg6 (by decide) (by decide)
    _ = W7 m c (Proc.devRef .tc main_arg6) := W9_down m c main_arg6 (by decide) (by decide)
    _ = W5 m c (Proc.devRef .tc main_arg6) := W7_down m c main_arg6 (by decide) (by decide)
    _ = _ := W5_launch m c main_arg6 (by decide) (by decide) (by decide) (by decide) (by decide)

theorem V16_v64 : V16 m c main_v64
    = extractStridedSlice S10000x64 ![0, 0] (V14 m c main_v63) slices_S10240x64_S10000x64_0_0 :=
  calc W16 m c (Proc.devRef .tc main_v64)
    _ = W15 m c (Proc.devRef .tc main_v64) := StableHlo.after_of_writes_sub hostOps5_1 _ hostOps5_1_writes (by decide)
    _ = _ := h5_v64 (W14 m c)

theorem V16_v65 : V16 m c main_v65 = lsmT (F := F) (V16 m c main_v64) :=
  calc W16 m c (Proc.devRef .tc main_v65)
    _ = lsmT (F := F) (W15 m c (Proc.devRef .tc main_v64)) := h51_v65 (W15 m c)
    _ = lsmT (F := F) (W16 m c (Proc.devRef .tc main_v64)) := congrArg (lsmT (F := F))
        (StableHlo.after_of_writes_sub hostOps5_1 _ hostOps5_1_writes (by decide)).symm

end Readings

end Cert.KernelIdeal.Hand

end
-- ==== Proof.LibScatter.lean ====
import Idealize.ShloMosaic.PureOps.Ideal
import Idealize.ShloMosaic.Lib.ValueIdx
import Mathlib.Data.EReal.Operations
import proofs.«408842_j29429115912637_1_alg».proof.Proof.Spec

namespace Cert.ScatterLib

open Idealize.ShloMosaic Idealize.ShloMosaic.ValueIdx

theorem mem_kept {s : Shape} (axes : List (Fin s.rank)) (a : Fin s.rank) : a ∈ s.kept axes ↔ a ∉ axes := by
  simp [Shape.kept, List.mem_filter, List.mem_finRange]

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro heq a
      have := Option.some.inj heq
      subst this
      show _ = ((Int.toNat _ : Nat) : Int)
      rw [Int.toNat_of_nonneg (h a).1]
    · intro hall
      congr 1
      funext a
      refine Fin.ext ?_
      show Int.toNat _ = _
      rw [hall a, Int.toNat_natCast]
  · rename_i h
    constructor
    · intro heq; cases heq
    · intro hall
      exfalso
      apply h
      intro a
      rw [hall a]
      exact ⟨Int.natCast_nonneg _, by exact_mod_cast (i a).isLt⟩

theorem scatter1_resultIdx_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ w) (j : (⟨1, ![E]⟩ : Shape).Idx)
    (i : (⟨1, ![N]⟩ : Shape).Idx) :
    d.resultIdx? j idx = some i ↔ (idx (ix2 (j 0) 0)).toInt = ((i 0).val : Int) := by
  obtain ⟨uw, iw, sd, iv, wf⟩ := d
  simp only at huw hiw hsd hiv
  subst huw hiw hsd hiv
  rw [resultIdx?_eq_some_iff, Fin.forall_fin_one]
  have hw : ScatterDims.window (⟨[], [0], [0], 1, wf⟩ : ScatterDims ⟨1, ![N]⟩ ⟨2, ![E, 1]⟩ ⟨1, ![E]⟩) j 0 = 0 := by
    unfold ScatterDims.window
    rw [dif_neg (fun h => (mem_kept _ _).1 h (List.mem_singleton.mpr rfl))]
  have hs : ScatterDims.start (⟨[], [0], [0], 1, wf⟩ : ScatterDims ⟨1, ![N]⟩ ⟨2, ![E, 1]⟩ ⟨1, ![E]⟩) j idx 0
      = (idx (ix2 (j 0) 0)).toInt := by
    unfold ScatterDims.start
    rw [dif_pos (List.mem_singleton.mpr rfl)]
    congr 2
    funext b
    refine Fin.ext ?_
    match b with
    | ⟨0, _⟩ => rfl
    | ⟨1, _⟩ => rfl
  rw [hw, hs]
  simp

theorem scatterRows_resultIdx_iff {N D E w : Nat} (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1) (idx : IVec ⟨2, ![E, 1]⟩ w) (j : (⟨2, ![E, D]⟩ : Shape).Idx)
    (i : (⟨2, ![N, D]⟩ : Shape).Idx) :
    d.resultIdx? j idx = some i ↔
      ((idx (ix2 (j 0) 0)).toInt = ((i 0).val : Int) ∧ (j 1).val = (i 1).val) := by
  obtain ⟨uw, iw, sd, iv, wf⟩ := d
  simp only at huw hiw hsd hiv
  subst huw hiw hsd hiv
  rw [resultIdx?_eq_some_iff, Fin.forall_fin_two]
  have hw0 : ScatterDims.window (⟨[1], [0], [0], 1, wf⟩ : ScatterDims ⟨2, ![N, D]⟩ ⟨2, ![E, 1]⟩ ⟨2, ![E, D]⟩) j 0 = 0 := by
    unfold ScatterDims.window
    rw [dif_neg (fun h => (mem_kept _ _).1 h (List.mem_singleton.mpr rfl))]
  have hw1 : ScatterDims.window (⟨[1], [0], [0], 1, wf⟩ : ScatterDims ⟨2, ![N, D]⟩ ⟨2, ![E, 1]⟩ ⟨2, ![E, D]⟩) j 1
      = (j 1).val := by
    unfold ScatterDims.window
    rw [dif_pos ((mem_kept _ _).2 (show (1 : Fin 2) ∉ [(0 : Fin 2)] by decide))]
    rfl
  have hs0 : ScatterDims.start (⟨[1], [0], [0], 1, wf⟩ : ScatterDims ⟨2, ![N, D]⟩ ⟨2, ![E, 1]⟩ ⟨2, ![E, D]⟩) j idx 0
      = (idx (ix2 (j 0) 0)).toInt := by
    unfold ScatterDims.start
    rw [dif_pos (List.mem_singleton.mpr rfl)]
    congr 2
    funext b
    refine Fin.ext ?_
    match b with
    | ⟨0, _⟩ => rfl
    | ⟨1, _⟩ => rfl
  have hs1 : ScatterDims.start (⟨[1], [0], [0], 1, wf⟩ : ScatterDims ⟨2, ![N, D]⟩ ⟨2, ![E, 1]⟩ ⟨2, ![E, D]⟩) j idx 1
      = 0 := by
    unfold ScatterDims.start
    rw [dif_neg (show (1 : Fin 2) ∉ [(0 : Fin 2)] by decide)]
  rw [hw0, hw1, hs0, hs1]
  simp

theorem scatterPts_resultIdx_iff {N E w : Nat} (d : ScatterDims ⟨2, ![N, N]⟩ ⟨2, ![E, 2]⟩ ⟨1, ![E]⟩)
    (huw : d.updateWindowDims = []) (hiw : d.insertedWindowDims = [0, 1])
    (hsd : d.scatterDimsToOperandDims = [0, 1]) (hiv : d.indexVectorDim = 1) (idx : IVec ⟨2, ![E, 2]⟩ w)
    (j : (⟨1, ![E]⟩ : Shape).Idx) (i : (⟨2, ![N, N]⟩ : Shape).Idx) :
    d.resultIdx? j idx = some i ↔
      ((idx (ix2 (j 0) 0)).toInt = ((i 0).val : Int) ∧ (idx (ix2 (j 0) 1)).toInt = ((i 1).val : Int)) := by
  obtain ⟨uw, iw, sd, iv, wf⟩ := d
  simp only at huw hiw hsd hiv
  subst huw hiw hsd hiv
  rw [resultIdx?_eq_some_iff, Fin.forall_fin_two]
  have hw : ∀ a, ScatterDims.window (⟨[], [0, 1], [0, 1], 1, wf⟩ : ScatterDims ⟨2, ![N, N]⟩ ⟨2, ![E, 2]⟩ ⟨1, ![E]⟩) j a = 0 := by
    intro a
    unfold ScatterDims.window
    rw [dif_neg (fun h => (mem_kept _ _).1 h (by
      match a with
      | ⟨0, _⟩ => exact List.mem_cons_self
      | ⟨1, _⟩ => exact List.mem_cons_of_mem _ List.mem_cons_self))]
  have hs0 : ScatterDims.start (⟨[], [0, 1], [0, 1], 1, wf⟩ : ScatterDims ⟨2, ![N, N]⟩ ⟨2, ![E, 2]⟩ ⟨1, ![E]⟩) j idx 0
      = (idx (ix2 (j 0) 0)).toInt := by
    unfold ScatterDims.start
    rw [dif_pos List.mem_cons_self]
    congr 2
    funext b
    refine Fin.ext ?_
    match b with
    | ⟨0, _⟩ => rfl
    | ⟨1, _⟩ => rfl
  have hs1 : ScatterDims.start (⟨[], [0, 1], [0, 1], 1, wf⟩ : ScatterDims ⟨2, ![N, N]⟩ ⟨2, ![E, 2]⟩ ⟨1, ![E]⟩) j idx 1
      = (idx (ix2 (j 0) 1)).toInt := by
    unfold ScatterDims.start
    rw [dif_pos (List.mem_cons_of_mem _ List.mem_cons_self)]
    congr 2
    funext b
    refine Fin.ext ?_
    match b with
    | ⟨0, _⟩ => rfl
    | ⟨1, _⟩ => rfl
  rw [hw 0, hw 1, hs0, hs1]
  simp

theorem gather1_apply {α : Type} {N E w : Nat} (hN : 0 < N) (d : GatherDims ⟨1, ![N]⟩ ⟨2, ![E, 1]⟩ ⟨1, ![E]⟩)
    (hod : d.offsetDims = []) (hcs : d.collapsedSliceDims = [0]) (hob : d.operandBatchingDims = [])
    (hsb : d.startIndicesBatchingDims = []) (hsm : d.startIndexMap = [0]) (hiv : d.indexVectorDim = 1)
    (x : (⟨1, ![N]⟩ : Shape).Idx → α) (idx : IVec ⟨2, ![E, 1]⟩ w) (j : (⟨1, ![E]⟩ : Shape).Idx) :
    Host.gather d x idx j = x (ix1 ⟨min (idx (ix2 (j 0) 0)).toInt.toNat (N - 1), by omega⟩) := by
  obtain ⟨od, cs, ob, sb, sm, iv, ss, wf⟩ := d
  simp only at hod hcs hob hsb hsm hiv
  subst hod hcs hob hsb hsm hiv
  unfold Host.gather
  congr 1
  funext a
  obtain rfl : a = 0 := Subsingleton.elim _ _
  refine Fin.ext ?_
  show GatherDims.start ⟨[], [0], [], [], [0], 1, ss, wf⟩ j idx 0 + GatherDims.batchCoord ⟨[], [0], [], [], [0], 1, ss, wf⟩ j 0
    + GatherDims.offCoord ⟨[], [0], [], [], [0], 1, ss, wf⟩ j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hss : ss 0 = 1 :=
    GatherDims.slice_collapsed (⟨[], [0], [], [], [0], 1, ss, wf⟩ : GatherDims ⟨1, ![N]⟩ ⟨2, ![E, 1]⟩ ⟨1, ![E]⟩) 0
      (List.mem_singleton.mpr rfl)
  show min _ (N - ss 0) = _
  rw [hss]
  congr 4
  funext b
  refine Fin.ext ?_
  match b with
  | ⟨0, _⟩ => rfl
  | ⟨1, _⟩ => rfl

theorem gatherRows_apply {α : Type} {N D E w : Nat} (hN : 0 < N)
    (d : GatherDims ⟨2, ![N, D]⟩ ⟨2, ![E, 1]⟩ ⟨2, ![E, D]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, D]) (x : (⟨2, ![N, D]⟩ : Shape).Idx → α) (idx : IVec ⟨2, ![E, 1]⟩ w) (j : (⟨2, ![E, D]⟩ : Shape).Idx) :
    Host.gather d x idx j
      = x (ix2 ⟨min (idx (ix2 (j 0) 0)).toInt.toNat (N - 1), by omega⟩ ⟨(j 1).val, (j 1).isLt⟩) := by
  have _ := hss
  obtain ⟨od, cs, ob, sb, sm, iv, ss, wf⟩ := d
  simp only at hod hcs hob hsb hsm hiv
  subst hod hcs hob hsb hsm hiv
  unfold Host.gather
  congr 1
  funext a
  refine Fin.ext ?_
  have hss : ss 0 = 1 :=
    GatherDims.slice_collapsed (⟨[1], [0], [], [], [0], 1, ss, wf⟩ : GatherDims ⟨2, ![N, D]⟩ ⟨2, ![E, 1]⟩ ⟨2, ![E, D]⟩) 0
      (List.mem_singleton.mpr rfl)
  match a with
  | ⟨0, _⟩ =>
    show GatherDims.start ⟨[1], [0], [], [], [0], 1, ss, wf⟩ j idx 0 + GatherDims.batchCoord ⟨[1], [0], [], [], [0], 1, ss, wf⟩ j 0
      + GatherDims.offCoord ⟨[1], [0], [], [], [0], 1, ss, wf⟩ j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min _ (N - ss 0) = _
    rw [hss]
    congr 4
    funext b
    refine Fin.ext ?_
    match b with
    | ⟨0, _⟩ => rfl
    | ⟨1, _⟩ => rfl
  | ⟨1, _⟩ =>
    show GatherDims.start ⟨[1], [0], [], [], [0], 1, ss, wf⟩ j idx 1 + GatherDims.batchCoord ⟨[1], [0], [], [], [0], 1, ss, wf⟩ j 1
      + GatherDims.offCoord ⟨[1], [0], [], [], [0], 1, ss, wf⟩ j 1 = (j 1).val
    rw [GatherDims.batchCoord_eq_zero _ _ _ List.not_mem_nil]
    have hst : GatherDims.start (⟨[1], [0], [], [], [0], 1, ss, wf⟩ : GatherDims ⟨2, ![N, D]⟩ ⟨2, ![E, 1]⟩ ⟨2, ![E, D]⟩) j idx 1 = 0 := by
      unfold GatherDims.start
      rw [dif_neg (show (1 : Fin 2) ∉ [(0 : Fin 2)] by decide)]
    rw [hst]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

theorem sum_mul_of_nonneg {ι : Type} [DecidableEq ι] (S : Finset ι) (f : ι → EReal) (hf : ∀ e, 0 ≤ f e) (c : EReal) :
    (∑ e ∈ S, f e) * c = ∑ e ∈ S, f e * c := by
  induction S using Finset.induction_on with
  | empty => simp
  | insert a S ha ih =>
    rw [Finset.sum_insert ha, Finset.sum_insert ha,
      EReal.right_distrib_of_nonneg (hf a) (Finset.sum_nonneg fun e _ => hf e), ih]

theorem adj_mul_eq_agg {E N NP D : Nat} (hNP : N ≤ NP) (dst src : (⟨1, ![E]⟩ : Shape).Idx → BitVec 32)
    (nrm : (⟨1, ![E]⟩ : Shape).Idx → EReal) (hn : ∀ e, 0 ≤ nrm e) (row : (⟨1, ![E]⟩ : Shape).Idx → Fin N)
    (hrow : ∀ e, (src e).toInt = ((row e).val : Int)) (H : (⟨2, ![N, D]⟩ : Shape).Idx → EReal)
    (HP : (⟨2, ![NP, D]⟩ : Shape).Idx → EReal)
    (hHP : ∀ (r : Fin N) (j : Fin D), HP (ix2 ⟨r.val, lt_of_lt_of_le r.isLt hNP⟩ j) = H (ix2 r j))
    (dd : Fin N) (j : Fin D) :
    (∑ s : Fin NP, Cert.Spec.adj (N := NP) dst src nrm (ix2 ⟨dd.val, lt_of_lt_of_le dd.isLt hNP⟩ s) * HP (ix2 s j))
      = Cert.Spec.agg dst row nrm H (ix2 dd j) := by
  unfold Cert.Spec.adj Cert.Spec.agg
  show (∑ s : Fin NP, (∑ e ∈ Finset.univ.filter (fun e : (⟨1, ![E]⟩ : Shape).Idx =>
      (dst e).toInt = ((dd.val : Nat) : Int) ∧ (src e).toInt = ((s.val : Nat) : Int)), nrm e) * HP (ix2 s j))
    = ∑ e ∈ Finset.univ.filter (fun e : (⟨1, ![E]⟩ : Shape).Idx => (dst e).toInt = ((dd.val : Nat) : Int)),
        H (ix2 (row e) j) * nrm e
  simp_rw [sum_mul_of_nonneg _ _ hn, Finset.sum_filter]
  rw [Finset.sum_comm]
  refine Finset.sum_congr rfl fun e _ => ?_
  by_cases hP : (dst e).toInt = ((dd.val : Nat) : Int)
  · simp only [hP, true_and, if_true]
    rw [Finset.sum_eq_single (⟨(row e).val, lt_of_lt_of_le (row e).isLt hNP⟩ : Fin NP)]
    · rw [if_pos (hrow e), hHP, mul_comm]
    · intro s _ hs
      rw [if_neg]
      intro h
      apply hs
      apply Fin.ext
      rw [hrow e] at h
      exact_mod_cast h.symm
    · intro h; exact absurd (Finset.mem_univ _) h
  · simp [hP]

end Cert.ScatterLib
-- ==== Proof.Model.lean ====
import proofs.«408842_j29429115912637_1_alg».proof.Proof.KI.Chain
import proofs.«408842_j29429115912637_1_alg».proof.Proof.Spec
import proofs.«408842_j29429115912637_1_alg».proof.Proof.LibScatter
import Idealize.ShloMosaic.Lib.Pipeline.Value
import Idealize.ShloMosaic.Lib.ValueLayout
import Idealize.ShloMosaic.PureOps.Ideal.Laws
import Idealize.ShloMosaic.Lib.ValueIdx

noncomputable section

namespace Cert.Model

open Cert.KernelIdeal Cert.KernelIdeal.Hand
open Idealize.ShloMosaic Idealize.ShloMosaic.ValueIdx

def xw1K (x : FVec Ideal S10000x512 .f32) (W1 : FVec Ideal S512x512 .f32) : S10240x512.Idx → EReal :=
  Cert.Spec.mmb (M := 10240) (K := 512) (N := 512) (xpadT (F := Ideal) x) W1 (z512T (F := Ideal))
def h1K (ei : IVec S2x160000 32) (x : FVec Ideal S10000x512 .f32) (W1 : FVec Ideal S512x512 .f32) (b1 : FVec Ideal S512 .f32) : S10240x512.Idx → EReal :=
  Cert.Spec.mmbRelu (M := 10240) (K := 10240) (N := 512) (adjT (F := Ideal) ei) (xw1K x W1) (rowT (F := Ideal) b1)
def h1w2K (ei : IVec S2x160000 32) (x : FVec Ideal S10000x512 .f32) (W1 : FVec Ideal S512x512 .f32) (b1 : FVec Ideal S512 .f32)
    (W2 : FVec Ideal S512x512 .f32) : S10240x512.Idx → EReal :=
  Cert.Spec.mmb (M := 10240) (K := 512) (N := 512) (h1K ei x W1 b1) W2 (z512T (F := Ideal))
def h2K (ei : IVec S2x160000 32) (x : FVec Ideal S10000x512 .f32) (W1 : FVec Ideal S512x512 .f32) (b1 : FVec Ideal S512 .f32)
    (W2 : FVec Ideal S512x512 .f32) (b2 : FVec Ideal S512 .f32) : S10240x512.Idx → EReal :=
  Cert.Spec.mmb (M := 10240) (K := 10240) (N := 512) (adjT (F := Ideal) ei) (h1w2K ei x W1 b1 W2) (rowT (F := Ideal) b2)
def lpK (ei : IVec S2x160000 32) (x : FVec Ideal S10000x512 .f32) (W1 : FVec Ideal S512x512 .f32) (b1 : FVec Ideal S512 .f32)
    (W2 : FVec Ideal S512x512 .f32) (b2 : FVec Ideal S512 .f32) (Wc : FVec Ideal S512x64 .f32) (bc : FVec Ideal S64 .f32) : S10240x64.Idx → EReal :=
  Cert.Spec.mmb (M := 10240) (K := 512) (N := 64) (h2K ei x W1 b1 W2 b2) Wc (row64T (F := Ideal) bc)

def mm {M K N : Nat} (a : (⟨2, ![M, K]⟩ : Shape).Idx → EReal) (b : (⟨2, ![K, N]⟩ : Shape).Idx → EReal) : (⟨2, ![M, N]⟩ : Shape).Idx → EReal :=
  fun i => ∑ k : Fin K, a (ix2 (i 0) k) * b (ix2 k (i 1))

def layerR (ei : IVec S2x160000 32) (row : S170000.Idx → Fin 10000) (H : S10000x512.Idx → EReal) (b : S512.Idx → EReal) : S10000x512.Idx → EReal :=
  fun i => Cert.Spec.agg (dstT ei) row (nrmT (F := Ideal) ei) H i + b (ix1 (i 1))
def refH1 (ei : IVec S2x160000 32) (row : S170000.Idx → Fin 10000) (x : S10000x512.Idx → EReal) (W1 : S512x512.Idx → EReal) (b1 : S512.Idx → EReal) : S10000x512.Idx → EReal :=
  fun i => max (layerR ei row (mm x W1) b1 i) 0
def refH2 (ei : IVec S2x160000 32) (row : S170000.Idx → Fin 10000) (x : S10000x512.Idx → EReal) (W1 : S512x512.Idx → EReal) (b1 : S512.Idx → EReal)
    (W2 : S512x512.Idx → EReal) (b2 : S512.Idx → EReal) : S10000x512.Idx → EReal :=
  layerR ei row (mm (refH1 ei row x W1 b1) W2) b2
def refLogits (ei : IVec S2x160000 32) (row : S170000.Idx → Fin 10000) (x : S10000x512.Idx → EReal) (W1 : S512x512.Idx → EReal) (b1 : S512.Idx → EReal)
    (W2 : S512x512.Idx → EReal) (b2 : S512.Idx → EReal) (Wc : S512x64.Idx → EReal) (bc : S64.Idx → EReal) : S10000x64.Idx → EReal :=
  fun i => mm (refH2 ei row x W1 b1 W2 b2) Wc i + bc (ix1 (i 1))

theorem mmb_apply {M K N : Nat} (a : (⟨2, ![M, K]⟩ : Shape).Idx → EReal) (b : (⟨2, ![K, N]⟩ : Shape).Idx → EReal)
    (bias : (⟨2, ![1, N]⟩ : Shape).Idx → EReal) (r : Fin M) (j : Fin N) :
    Cert.Spec.mmb a b bias (ix2 r j) = (∑ k : Fin K, a (ix2 r k) * b (ix2 k j)) + bias (ix2 0 j) := rfl

theorem mm_apply {M K N : Nat} (a : (⟨2, ![M, K]⟩ : Shape).Idx → EReal) (b : (⟨2, ![K, N]⟩ : Shape).Idx → EReal)
    (r : Fin M) (j : Fin N) : mm a b (ix2 r j) = ∑ k : Fin K, a (ix2 r k) * b (ix2 k j) := rfl

theorem layerR_apply (ei : IVec S2x160000 32) (row : S170000.Idx → Fin 10000) (H : S10000x512.Idx → EReal) (b : S512.Idx → EReal)
    (d : Fin 10000) (j : Fin 512) :
    layerR ei row H b (ix2 d j) = Cert.Spec.agg (dstT ei) row (nrmT (F := Ideal) ei) H (ix2 d j) + b (ix1 j) := rfl

theorem z512T_apply (j : Fin 512) : (z512T (F := Ideal) (ix2 0 j) : EReal) = 0 := by
  unfold z512T
  refine (shapeCast_a_1a_apply (a := 512) _ _ 0 j).trans ?_
  refine (broadcastInDim_apply _ _ _ (ix1 j) (fun a => a.elim0) (fun a => a.elim0)).trans ?_
  exact Ideal.ofBits_zero_f32

theorem rowT_apply (b : FVec Ideal S512 .f32) (j : Fin 512) : (rowT (F := Ideal) b (ix2 0 j) : EReal) = b (ix1 j) :=
  shapeCast_a_1a_apply (a := 512) b _ 0 j
theorem row64T_apply (b : FVec Ideal S64 .f32) (j : Fin 64) : (row64T (F := Ideal) b (ix2 0 j) : EReal) = b (ix1 j) :=
  shapeCast_a_1a_apply (a := 64) b _ 0 j

theorem dense_row (HP : (⟨2, ![10240, 512]⟩ : Shape).Idx → EReal) (H : (⟨2, ![10000, 512]⟩ : Shape).Idx → EReal)
    (hHP : ∀ (r : Fin 10000) (k : Fin 512), HP (ix2 ⟨r.val, by omega⟩ k) = H (ix2 r k))
    (W : (⟨2, ![512, 512]⟩ : Shape).Idx → EReal) (r : Fin 10000) (j : Fin 512) :
    Cert.Spec.mmb (M := 10240) (K := 512) (N := 512) HP W (z512T (F := Ideal)) (ix2 ⟨r.val, by omega⟩ j) = mm H W (ix2 r j) := by
  rw [mmb_apply, mm_apply, z512T_apply, add_zero]
  exact Finset.sum_congr rfl fun k _ => by rw [hHP]

theorem conv_row (ei : IVec S2x160000 32) (row : S170000.Idx → Fin 10000)
    (hadj : (adjT (F := Ideal) ei : S10240x10240.Idx → EReal) = Cert.Spec.adj (N := 10240) (dstT ei) (srcT ei) (nrmT (F := Ideal) ei))
    (hn : ∀ e, (0 : EReal) ≤ nrmT (F := Ideal) ei e)
    (hrow : ∀ e, (srcT ei e).toInt = ((row e).val : Int))
    (HP : (⟨2, ![10240, 512]⟩ : Shape).Idx → EReal) (H : (⟨2, ![10000, 512]⟩ : Shape).Idx → EReal)
    (hHP : ∀ (r : Fin 10000) (k : Fin 512), HP (ix2 ⟨r.val, by omega⟩ k) = H (ix2 r k))
    (bias : FVec Ideal S512 .f32) (d : Fin 10000) (j : Fin 512) :
    Cert.Spec.mmb (M := 10240) (K := 10240) (N := 512) (adjT (F := Ideal) ei) HP (rowT (F := Ideal) bias) (ix2 ⟨d.val, by omega⟩ j)
      = layerR ei row H bias (ix2 d j) := by
  rw [mmb_apply, layerR_apply, rowT_apply, hadj]
  exact congrArg (fun z : EReal => z + (bias (ix1 j) : EReal))
    (Cert.ScatterLib.adj_mul_eq_agg (N := 10000) (NP := 10240) (by decide) (dstT ei) (srcT ei) (nrmT (F := Ideal) ei) hn row hrow H HP hHP d j)

section Chain

variable (ei : IVec S2x160000 32) (row : S170000.Idx → Fin 10000) (x : FVec Ideal S10000x512 .f32)
  (W1 : FVec Ideal S512x512 .f32) (b1 : FVec Ideal S512 .f32) (W2 : FVec Ideal S512x512 .f32) (b2 : FVec Ideal S512 .f32)
  (Wc : FVec Ideal S512x64 .f32) (bc : FVec Ideal S64 .f32)
  (hadj : (adjT (F := Ideal) ei : S10240x10240.Idx → EReal) = Cert.Spec.adj (N := 10240) (dstT ei) (srcT ei) (nrmT (F := Ideal) ei))
  (hn : ∀ e, (0 : EReal) ≤ nrmT (F := Ideal) ei e)
  (hrow : ∀ e, (srcT ei e).toInt = ((row e).val : Int))
  (hxpad : ∀ (r : Fin 10000) (k : Fin 512), xpadT (F := Ideal) x (ix2 ⟨r.val, by omega⟩ k) = x (ix2 r k))

include hxpad in

theorem xw1K_row (r : Fin 10000) (j : Fin 512) : xw1K x W1 (ix2 ⟨r.val, by omega⟩ j) = mm x W1 (ix2 r j) :=
  dense_row (xpadT (F := Ideal) x) x hxpad W1 r j

include hadj hn hrow hxpad in

theorem h1K_row (d : Fin 10000) (j : Fin 512) : h1K ei x W1 b1 (ix2 ⟨d.val, by omega⟩ j) = refH1 ei row x W1 b1 (ix2 d j) := by
  show max (Cert.Spec.mmb (M := 10240) (K := 10240) (N := 512) (adjT (F := Ideal) ei) (xw1K x W1) (rowT (F := Ideal) b1) (ix2 ⟨d.val, _⟩ j)) 0
    = max (layerR ei row (mm x W1) b1 (ix2 d j)) 0
  rw [conv_row ei row hadj hn hrow (xw1K x W1) (mm x W1) (xw1K_row x W1 hxpad) b1 d j]

include hadj hn hrow hxpad in

theorem h1w2K_row (r : Fin 10000) (j : Fin 512) :
    h1w2K ei x W1 b1 W2 (ix2 ⟨r.val, by omega⟩ j) = mm (refH1 ei row x W1 b1) W2 (ix2 r j) :=
  dense_row (h1K ei x W1 b1) (refH1 ei row x W1 b1) (h1K_row ei row x W1 b1 hadj hn hrow hxpad) W2 r j

include hadj hn hrow hxpad in

theorem h2K_row (d : Fin 10000) (j : Fin 512) :
    h2K ei x W1 b1 W2 b2 (ix2 ⟨d.val, by omega⟩ j) = refH2 ei row x W1 b1 W2 b2 (ix2 d j) :=
  conv_row ei row hadj hn hrow (h1w2K ei x W1 b1 W2) (mm (refH1 ei row x W1 b1) W2)
    (h1w2K_row ei row x W1 b1 W2 hadj hn hrow hxpad) b2 d j

end Chain

theorem lpK_eq_refLogits (ei : IVec S2x160000 32) (row : S170000.Idx → Fin 10000) (x : FVec Ideal S10000x512 .f32) (W1 : FVec Ideal S512x512 .f32) (b1 : FVec Ideal S512 .f32) (W2 : FVec Ideal S512x512 .f32) (b2 : FVec Ideal S512 .f32) (Wc : FVec Ideal S512x64 .f32) (bc : FVec Ideal S64 .f32)
    (hadj : (adjT (F := Ideal) ei : S10240x10240.Idx → EReal) = Cert.Spec.adj (N := 10240) (dstT ei) (srcT ei) (nrmT (F := Ideal) ei))
    (hn : ∀ e, (0 : EReal) ≤ nrmT (F := Ideal) ei e)
    (hrow : ∀ e, (srcT ei e).toInt = ((row e).val : Int))
    (hxpad : ∀ (r : Fin 10000) (k : Fin 512), xpadT (F := Ideal) x (ix2 ⟨r.val, by omega⟩ k) = x (ix2 r k))
    (d : Fin 10000) (j : Fin 64) :
    lpK ei x W1 b1 W2 b2 Wc bc (ix2 ⟨d.val, by omega⟩ j) = refLogits ei row x W1 b1 W2 b2 Wc bc (ix2 d j) := by
  show Cert.Spec.mmb (M := 10240) (K := 512) (N := 64) (h2K ei x W1 b1 W2 b2) Wc (row64T (F := Ideal) bc) (ix2 ⟨d.val, _⟩ j)
    = mm (refH2 ei row x W1 b1 W2 b2) Wc (ix2 d j) + bc (ix1 j)
  rw [mmb_apply, mm_apply, row64T_apply]
  exact congrArg (fun z : EReal => z + (bc (ix1 j) : EReal))
    (Finset.sum_congr rfl fun k _ => by rw [h2K_row ei row x W1 b1 W2 b2 hadj hn hrow hxpad d k])

end Cert.Model

end
-- ==== Proof.KI.KVal.lean ====
import proofs.«408842_j29429115912637_1_alg».proof.Proof.KI.Run
import proofs.«408842_j29429115912637_1_alg».proof.Proof.KI.Val0
import proofs.«408842_j29429115912637_1_alg».proof.Proof.KI.Val1
import proofs.«408842_j29429115912637_1_alg».proof.Proof.KI.Val2
import proofs.«408842_j29429115912637_1_alg».proof.Proof.KI.Val3
import proofs.«408842_j29429115912637_1_alg».proof.Proof.KI.Val4
import proofs.«408842_j29429115912637_1_alg».proof.Proof.KI.Glue
import proofs.«408842_j29429115912637_1_alg».proof.Proof.Model

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

theorem v55_eq : V6 m c main_v55 = Cert.Model.xw1K (m ((c : Thread nD τ).loc main_arg0)) (m ((c : Thread nD τ).loc main_arg2)) := by
  refine ((hF0 m c 3).symm.trans (final0 (V5 m) c)).trans ?_
  rw [V5_v52 m c, V5_arg2 m c, V5_v54 m c]
  rfl

theorem v57_eq : V8 m c main_v57 = Cert.Model.h1K (m ((c : Thread nD τ).loc main_arg1)) (m ((c : Thread nD τ).loc main_arg0)) (m ((c : Thread nD τ).loc main_arg2)) (m ((c : Thread nD τ).loc main_arg3)) := by
  refine ((hF1 m c 3).symm.trans (final1 (V7 m) c)).trans ?_
  rw [V7_v51 m c, V5_v51 m c, V7_v55 m c, v55_eq m c, V7_v56 m c]
  rfl

theorem v59_eq : V10 m c main_v59 = Cert.Model.h1w2K (m ((c : Thread nD τ).loc main_arg1)) (m ((c : Thread nD τ).loc main_arg0)) (m ((c : Thread nD τ).loc main_arg2)) (m ((c : Thread nD τ).loc main_arg3)) (m ((c : Thread nD τ).loc main_arg4)) := by
  refine ((hF2 m c 3).symm.trans (final2 (V9 m) c)).trans ?_
  rw [V9_v57 m c, v57_eq m c, V9_arg4 m c, V9_v58 m c]
  rfl

theorem v61_eq : V12 m c main_v61 = Cert.Model.h2K (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  refine ((hF3 m c 3).symm.trans (final3 (V11 m) c)).trans ?_
  rw [V11_v51 m c, V5_v51 m c, V11_v59 m c, v59_eq m c, V11_v60 m c]
  rfl

theorem v63_eq : V14 m c main_v63 = Cert.Model.lpK (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((hF4 m c 3).symm.trans (final4 (V13 m) c)).trans ?_
  rw [V13_v61 m c, v61_eq m c, V13_arg6 m c, V13_v62 m c]
  rfl

end Cert.KernelIdeal.Hand

end
-- ==== Proof.KI.Norm.lean ====
import proofs.«408842_j29429115912637_1_alg».proof.Proof.KI.Chain
import proofs.«408842_j29429115912637_1_alg».proof.Proof.LibScatter
import proofs.«408842_j29429115912637_1_alg».proof.Proof.Spec
import proofs.«408842_j29429115912637_1_alg».proof.Pre_finite_inputs
import proofs.«408842_j29429115912637_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws

noncomputable section

namespace Cert.KernelIdeal.Hand

open Cert.KernelIdeal Cert.KernelIdeal.Gen
open Idealize.ShloMosaic

theorem ei_range_of_pre (a0 : FVec Ideal Cert.Pre_finite_inputs.S10000x512 .f32) (a1 : IVec Cert.Pre_finite_inputs.S2x160000 32)
    (a2 : FVec Ideal Cert.Pre_finite_inputs.S512x512 .f32) (a3 : FVec Ideal Cert.Pre_finite_inputs.S512 .f32)
    (a4 : FVec Ideal Cert.Pre_finite_inputs.S512x512 .f32) (a5 : FVec Ideal Cert.Pre_finite_inputs.S512 .f32)
    (a6 : FVec Ideal Cert.Pre_finite_inputs.S512x64 .f32) (a7 : FVec Ideal Cert.Pre_finite_inputs.S64 .f32)
    (h : Cert.Pre_finite_inputs.fn (F := Ideal) a0 a1 a2 a3 a4 a5 a6 a7 = (fun _ => 1#1)) :
    ∀ k, 0 ≤ (a1 k).toInt ∧ (a1 k).toInt < 10000 := by
  intro k
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 k
  obtain ⟨hge, hlt⟩ := IntOp.andi_eq_one.1 h2
  have hge' : IntOp.cmpi .sge (a1 k) (0#32) = 1#1 := hge
  have hlt' : IntOp.cmpi .slt (a1 k) (10000#32) = 1#1 := hlt
  rw [IntOp.cmpi_sge] at hge'
  rw [IntOp.cmpi_slt] at hlt'
  have z0 : (0#32 : BitVec 32).toInt = 0 := by decide
  have z1 : (10000#32 : BitVec 32).toInt = 10000 := by decide
  rw [z0] at hge'
  rw [z1] at hlt'
  exact ⟨hge', hlt'⟩

open Idealize.ShloMosaic.ValueIdx

theorem src1_apply (ei : IVec S2x160000 32) (n : Fin 160000) : src1 ei (ix1 n) = ei (ix2 0 n) := by
  unfold src1
  refine (shapeCast_apply _ _ (ix1 n) (ix2 (0 : Fin 1) n) ?_).trans ?_
  · rw [Shape.rowMajor_val_two, Shape.rowMajor_val_one]
    show 0 * 160000 + n.val = n.val
    omega
  · exact extractStridedSlice_apply _ _ _ _ (ix2 (0 : Fin 2) n) (fun a =>
      match a with
      | ⟨0, _⟩ => rfl
      | ⟨1, _⟩ => by show n.val = 0 + n.val; omega)

theorem dst1_apply (ei : IVec S2x160000 32) (n : Fin 160000) : dst1 ei (ix1 n) = ei (ix2 1 n) := by
  unfold dst1
  refine (shapeCast_apply _ _ (ix1 n) (ix2 (0 : Fin 1) n) ?_).trans ?_
  · rw [Shape.rowMajor_val_two, Shape.rowMajor_val_one]
    show 0 * 160000 + n.val = n.val
    omega
  · exact extractStridedSlice_apply _ _ _ _ (ix2 (1 : Fin 2) n) (fun a =>
      match a with
      | ⟨0, _⟩ => rfl
      | ⟨1, _⟩ => by show n.val = 0 + n.val; omega)

theorem srcT_apply_lt (ei : IVec S2x160000 32) (e : S170000.Idx) (h : (e 0).val < 160000) :
    srcT ei e = ei (ix2 0 ⟨(e 0).val, h⟩) := by
  unfold srcT
  refine (concatenate_pair_apply_left (t := S170000) (s₁ := S160000) (s₂ := S10000) 0 _ _ concatenates_S160000_S10000_S170000_d0 e rfl (ix1 ⟨(e 0).val, h⟩) (fun b => ?_)).trans (src1_apply ei _)
  match b with
  | ⟨0, _⟩ => rfl

theorem srcT_apply_ge (ei : IVec S2x160000 32) (e : S170000.Idx) (h : 160000 ≤ (e 0).val) :
    srcT ei e = BitVec.ofNat 32 ((e 0).val - 160000) := by
  have he : (e 0).val < 170000 := (e 0).isLt
  unfold srcT
  refine (concatenate_pair_apply_right (t := S170000) (s₁ := S160000) (s₂ := S10000) 0 _ _ concatenates_S160000_S10000_S170000_d0 e rfl rfl (ix1 ⟨(e 0).val - 160000, by omega⟩) (fun b hb => ?_) ?_).trans rfl
  · exact absurd (Subsingleton.elim _ _) hb
  · show (e 0).val - 160000 + 160000 = (e 0).val
    omega

theorem dstT_apply_lt (ei : IVec S2x160000 32) (e : S170000.Idx) (h : (e 0).val < 160000) :
    dstT ei e = ei (ix2 1 ⟨(e 0).val, h⟩) := by
  unfold dstT
  refine (concatenate_pair_apply_left (t := S170000) (s₁ := S160000) (s₂ := S10000) 0 _ _ concatenates_S160000_S10000_S170000_d0 e rfl (ix1 ⟨(e 0).val, h⟩) (fun b => ?_)).trans (dst1_apply ei _)
  match b with
  | ⟨0, _⟩ => rfl

theorem dstT_apply_ge (ei : IVec S2x160000 32) (e : S170000.Idx) (h : 160000 ≤ (e 0).val) :
    dstT ei e = BitVec.ofNat 32 ((e 0).val - 160000) := by
  have he : (e 0).val < 170000 := (e 0).isLt
  unfold dstT
  refine (concatenate_pair_apply_right (t := S170000) (s₁ := S160000) (s₂ := S10000) 0 _ _ concatenates_S160000_S10000_S170000_d0 e rfl rfl (ix1 ⟨(e 0).val - 160000, by omega⟩) (fun b hb => ?_) ?_).trans rfl
  · exact absurd (Subsingleton.elim _ _) hb
  · show (e 0).val - 160000 + 160000 = (e 0).val
    omega

theorem srcT_range (ei : IVec S2x160000 32) (h : ∀ k, 0 ≤ (ei k).toInt ∧ (ei k).toInt < 10000) :
    ∀ e, 0 ≤ (srcT ei e).toInt ∧ (srcT ei e).toInt < 10000 := by
  intro e
  have he : (e 0).val < 170000 := (e 0).isLt
  by_cases hlt : (e 0).val < 160000
  · rw [srcT_apply_lt ei e hlt]
    exact h _
  · rw [srcT_apply_ge ei e (by omega), StableHlo.Predicate.toInt_ofNat_small _ (by omega)]
    omega

theorem dstT_range (ei : IVec S2x160000 32) (h : ∀ k, 0 ≤ (ei k).toInt ∧ (ei k).toInt < 10000) :
    ∀ e, 0 ≤ (dstT ei e).toInt ∧ (dstT ei e).toInt < 10000 := by
  intro e
  have he : (e 0).val < 170000 := (e 0).isLt
  by_cases hlt : (e 0).val < 160000
  · rw [dstT_apply_lt ei e hlt]
    exact h _
  · rw [dstT_apply_ge ei e (by omega), StableHlo.Predicate.toInt_ofNat_small _ (by omega)]
    omega

theorem wrapI_of_nonneg (v : IVec S170000 32) (n : BitVec 32) (h : ∀ e, 0 ≤ (v e).toInt) : wrapI v n = v := by
  funext e
  show Scalar.select (IntOp.cmpi .slt (v e) (0#32)) (IntOp.addi (v e) n) (v e) = v e
  have hc : ¬ IntOp.cmpi .slt (v e) (0#32) = 1#1 := by
    rw [IntOp.cmpi_slt]
    have := h e
    have z0 : (0#32 : BitVec 32).toInt = 0 := by decide
    omega
  rw [eq_zero_of_ne_one hc, select_zero]

theorem xpadT_apply_lt (x : FVec Ideal S10000x512 .f32) (r : Fin 10000) (k : Fin 512) :
    xpadT (F := Ideal) x (ix2 ⟨r.val, by omega⟩ k) = x (ix2 r k) := by
  unfold xpadT
  exact pad_apply_of_inside _ _ _ _ _ _ _ _ (ix2 r k) (fun a =>
    match a with
    | ⟨0, _⟩ => by show r.val = 0 + r.val * (0 + 1); omega
    | ⟨1, _⟩ => by show k.val = 0 + k.val * (0 + 1); omega)

theorem adjIdxT_apply0 (ei : IVec S2x160000 32) (h : ∀ k, 0 ≤ (ei k).toInt ∧ (ei k).toInt < 10000) (e : Fin 170000) :
    adjIdxT ei (ix2 e 0) = dstT ei (ix1 e) := by
  unfold adjIdxT
  refine (concatenate_pair_apply_left (t := S170000x2) (s₁ := S170000x1) (s₂ := S170000x1) 1 _ _
    concatenates_S170000x1_S170000x1_S170000x2_d1 (ix2 e 0) rfl (ix2 e (0 : Fin 1)) (fun b => ?_)).trans ?_
  · match b with
    | ⟨0, _⟩ => rfl
    | ⟨1, _⟩ => rfl
  · refine (broadcastInDim_apply _ _ _ (ix2 e (0 : Fin 1)) (ix1 e) (fun a => ?_)).trans ?_
    · match a with
      | ⟨0, _⟩ => rfl
    · rw [wrapI_of_nonneg _ _ (fun e => (dstT_range ei h e).1)]

theorem adjIdxT_apply1 (ei : IVec S2x160000 32) (h : ∀ k, 0 ≤ (ei k).toInt ∧ (ei k).toInt < 10000) (e : Fin 170000) :
    adjIdxT ei (ix2 e 1) = srcT ei (ix1 e) := by
  unfold adjIdxT
  refine (concatenate_pair_apply_right (t := S170000x2) (s₁ := S170000x1) (s₂ := S170000x1) 1 _ _
    concatenates_S170000x1_S170000x1_S170000x2_d1 (ix2 e 1) rfl rfl (ix2 e (0 : Fin 1)) (fun b hb => ?_) rfl).trans ?_
  · match b, hb with
    | ⟨0, _⟩, _ => rfl
    | ⟨1, _⟩, hb => exact absurd rfl hb
  · refine (broadcastInDim_apply _ _ _ (ix2 e (0 : Fin 1)) (ix1 e) (fun a => ?_)).trans ?_
    · match a with
      | ⟨0, _⟩ => rfl
    · rw [wrapI_of_nonneg _ _ (fun e => (srcT_range ei h e).1)]

theorem adjT_eq (ei : IVec S2x160000 32) (h : ∀ k, 0 ≤ (ei k).toInt ∧ (ei k).toInt < 10000) :
    (adjT (F := Ideal) ei : S10240x10240.Idx → EReal)
      = Cert.Spec.adj (N := 10240) (dstT ei) (srcT ei) (nrmT (F := Ideal) ei) := by
  funext i
  unfold adjT
  rw [truncf_apply]
  show Ideal.hostScatterAdd scatter_S10240x10240_S170000x2_S170000_n_01_01_1 _ (adjIdxT ei) (nrmT (F := Ideal) ei) i = _
  unfold Ideal.hostScatterAdd Cert.Spec.adj
  have hz : broadcastInDim S10240x10240 ![] bcast_S_S10240x10240 (constant (F := Ideal) S_ .f32 0x00000000#32) i = 0 :=
    Ideal.ofBits_zero_f32
  rw [hz, zero_add]
  refine Finset.sum_congr (Finset.filter_congr fun j _ => ?_) (fun _ _ => rfl)
  rw [Cert.ScatterLib.scatterPts_resultIdx_iff _ rfl rfl rfl rfl]
  obtain ⟨e, rfl⟩ : ∃ e, j = ix1 e := ⟨j 0, eq_ix1 j⟩
  show ((adjIdxT ei (ix2 e 0)).toInt = _ ∧ (adjIdxT ei (ix2 e 1)).toInt = _) ↔ _
  rw [adjIdxT_apply0 ei h e, adjIdxT_apply1 ei h e]

theorem rsqrt_nonneg (x : EReal) (h : 0 ≤ x) : 0 ≤ Ideal.rsqrt x := by
  induction x using EReal.rec with
  | bot => exact absurd h (not_le.mpr EReal.bot_lt_zero)
  | top => rw [Ideal.rsqrt_top]
  | coe r =>
    have hr : 0 ≤ r := EReal.coe_nonneg.mp h
    rw [Ideal.rsqrt_coe, if_neg (not_lt.mpr hr)]
    split_ifs
    · exact le_top
    · exact EReal.coe_nonneg.mpr (inv_nonneg.mpr (Real.sqrt_nonneg r))

theorem ewT_nonneg (ei : IVec S2x160000 32) : ∀ e, (0 : EReal) ≤ ewT (F := Ideal) ei e := by
  intro e
  have he : (e 0).val < 170000 := (e 0).isLt
  unfold ewT
  by_cases hlt : (e 0).val < 160000
  · refine le_of_le_of_eq ?_ (Eq.symm (concatenate_pair_apply_left (t := S170000) (s₁ := S160000) (s₂ := S10000) 0 _ _
      concatenates_S160000_S10000_S170000_d0 e rfl (ix1 ⟨(e 0).val, hlt⟩) (fun b => match b with | ⟨0, _⟩ => rfl)))
    exact EReal.coe_nonneg.mpr (Nat.cast_nonneg _)
  · refine le_of_le_of_eq ?_ (Eq.symm (concatenate_pair_apply_right (t := S170000) (s₁ := S160000) (s₂ := S10000) 0 _ _
      concatenates_S160000_S10000_S170000_d0 e rfl rfl (ix1 ⟨(e 0).val - 160000, by omega⟩)
      (fun b hb => absurd (Subsingleton.elim _ _) hb) (by show (e 0).val - 160000 + 160000 = (e 0).val; omega)))
    show (0 : EReal) ≤ Ideal.ofBits .f32 0x3F800000#32
    rw [Ideal.ofBits_one_f32]
    exact zero_le_one

theorem select_rsqrt_nonneg (d z eps : EReal) (hz : z = 0) :
    0 ≤ Scalar.select (Ideal.cmp .ogt d z) (Ideal.rsqrt (max d eps)) z := by
  subst hz
  by_cases hc : Ideal.cmp .ogt d 0 = 1#1
  · rw [hc, select_one]
    have hpos : (0 : EReal) < d := by
      unfold Ideal.cmp at hc
      exact of_decide_eq_true ((StableHlo.Predicate.ofBool_eq_one_iff _).1 hc)
    exact rsqrt_nonneg _ (le_trans hpos.le (le_max_left _ _))
  · rw [eq_zero_of_ne_one hc, select_zero]

theorem disT_nonneg (ei : IVec S2x160000 32) : ∀ i, (0 : EReal) ≤ disT (F := Ideal) ei i := by
  intro i
  unfold disT
  generalize degT (F := Ideal) ei = D
  rw [select_apply]
  exact select_rsqrt_nonneg (D i) _ _ Ideal.ofBits_zero_f32

theorem nrmT_nonneg (ei : IVec S2x160000 32) : ∀ e, (0 : EReal) ≤ nrmT (F := Ideal) ei e := by
  intro e
  unfold nrmT
  rw [mulf_apply, mulf_apply]
  refine EReal.mul_nonneg (EReal.mul_nonneg ?_ ?_) (ewT_nonneg ei e)
  · unfold Host.gather
    exact disT_nonneg ei _
  · unfold Host.gather
    exact disT_nonneg ei _

end Cert.KernelIdeal.Hand

end
-- ==== Proof.RefVal.lean ====
import proofs.«408842_j29429115912637_1_alg».proof.Proof.RefRead
import proofs.«408842_j29429115912637_1_alg».proof.Proof.KI.Chain
import proofs.«408842_j29429115912637_1_alg».proof.Proof.KI.Glue
import proofs.«408842_j29429115912637_1_alg».proof.Proof.Model
import proofs.«408842_j29429115912637_1_alg».proof.Proof.LibScatter
import proofs.«408842_j29429115912637_1_alg».proof.Proof.Spec
import Idealize.ShloMosaic.Lib.Pipeline.Value
import Idealize.ShloMosaic.Lib.ValueIdx
import Idealize.ShloMosaic.PureOps.Ideal.Laws

noncomputable section

namespace Cert.RefVal

open Cert.ReferenceIdeal Cert.ReferenceIdeal.Gen Cert.ReferenceIdeal.ReadP
open Idealize.ShloMosaic Idealize.ShloMosaic.ValueIdx
open Cert.KernelIdeal.Hand (src1 dst1 srcT dstT ewT degT disT wrapI nrmT)

abbrev EI : Type := IVec S2x160000 32
abbrev MX : Type := (⟨S10000x512, .f32⟩ : BufTy).Contents (Elt Ideal)
abbrev MW : Type := (⟨S512x512, .f32⟩ : BufTy).Contents (Elt Ideal)
abbrev VB : Type := (⟨S512, .f32⟩ : BufTy).Contents (Elt Ideal)
abbrev MC : Type := (⟨S512x64, .f32⟩ : BufTy).Contents (Elt Ideal)
abbrev VC : Type := (⟨S64, .f32⟩ : BufTy).Contents (Elt Ideal)

theorem v1_eq (ei : EI) : val_main_v1 (F := Ideal) ei = src1 ei := rfl
theorem v3_eq (ei : EI) : val_main_v3 (F := Ideal) ei = dst1 ei := rfl

theorem v5_eq (ei : EI) : val_main_v5 (F := Ideal) ei = srcT ei := rfl

theorem v6_eq (ei : EI) : val_main_v6 (F := Ideal) ei = dstT ei := rfl

theorem v10_eq (ei : EI) : val_main_v10 (F := Ideal) ei = ewT (F := Ideal) ei := rfl

theorem v14_eq (ei : EI) : val_main_v14 (F := Ideal) ei = degT (F := Ideal) ei := rfl

theorem v20_eq (ei : EI) : val_main_v20 (F := Ideal) ei = disT (F := Ideal) ei := rfl
theorem v25_eq (ei : EI) : val_main_v25 (F := Ideal) ei = wrapI (srcT ei) 10000#32 := rfl
theorem v32_eq (ei : EI) : val_main_v32 (F := Ideal) ei = wrapI (dstT ei) 10000#32 := rfl

theorem v36_eq (ei : EI) : val_main_v36 (F := Ideal) ei = nrmT (F := Ideal) ei := rfl

theorem v41_eq (ei : EI) : val_main_v41 (F := Ideal) ei = wrapI (srcT ei) 10000#32 := rfl
theorem v57_eq (ei : EI) : val_main_v57 (F := Ideal) ei = degT (F := Ideal) ei := rfl
theorem v63_eq (ei : EI) : val_main_v63 (F := Ideal) ei = disT (F := Ideal) ei := rfl

theorem v79_eq (ei : EI) : val_main_v79 (F := Ideal) ei = nrmT (F := Ideal) ei := rfl

theorem v84_eq (ei : EI) : val_main_v84 (F := Ideal) ei = val_main_v41 (F := Ideal) ei := rfl

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem scatterRows_eq_agg {N D E : Nat} (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1)
    (z : FVec Ideal ⟨2, ![N, D]⟩ .f32) (hz : ∀ i, z i = 0)
    (idx : IVec ⟨2, ![E, 1]⟩ 32) (dst : IVec ⟨1, ![E]⟩ 32) (hidx : ∀ e : Fin E, idx (ix2 e 0) = dst (ix1 e))
    (upd : FVec Ideal ⟨2, ![E, D]⟩ .f32) (row : (⟨1, ![E]⟩ : Shape).Idx → Fin N)
    (nrm : (⟨1, ![E]⟩ : Shape).Idx → EReal) (H : (⟨2, ![N, D]⟩ : Shape).Idx → EReal)
    (hupd : ∀ (e : Fin E) (j : Fin D), upd (ix2 e j) = H (ix2 (row (ix1 e)) j) * nrm (ix1 e))
    (r : Fin N) (c : Fin D) :
    Host.scatterAdd d z idx upd (ix2 r c) = Cert.Spec.agg dst row nrm H (ix2 r c) := by
  unfold Host.scatterAdd
  rw [Ideal.hostScatterAdd_def]
  unfold Ideal.hostScatterAdd Cert.Spec.agg
  rw [hz, zero_add]
  simp_rw [Cert.ScatterLib.scatterRows_resultIdx_iff d huw hiw hsd hiv]
  rw [Finset.sum_filter, Finset.sum_filter, sum_idx2, sum_idx1]
  refine Finset.sum_congr rfl fun e _ => ?_
  show (∑ j : Fin D, if ((idx (ix2 e 0)).toInt = ((r.val : Nat) : Int) ∧ j.val = c.val) then upd (ix2 e j) else 0)
    = if (dst (ix1 e)).toInt = ((r.val : Nat) : Int) then H (ix2 (row (ix1 e)) c) * nrm (ix1 e) else 0
  rw [hidx e]
  by_cases hP : (dst (ix1 e)).toInt = ((r.val : Nat) : Int)
  · simp only [hP, true_and, if_true]
    rw [Finset.sum_eq_single c]
    · rw [if_pos rfl, hupd]
    · intro j _ hj
      rw [if_neg]
      intro h
      exact hj (Fin.ext h)
    · intro h; exact absurd (Finset.mem_univ _) h
  · simp [hP]

def rowOf (ei : IVec S2x160000 32) : S170000.Idx → Fin 10000 :=
  fun e => ⟨min (val_main_v41 (F := Ideal) ei e).toInt.toNat 9999, by omega⟩

theorem v41_apply_of_nonneg (ei : EI) (e : S170000.Idx) (h : 0 ≤ (srcT ei e).toInt) :
    val_main_v41 (F := Ideal) ei e = srcT ei e := by
  rw [val_main_v41_apply, val_main_v38_apply, val_main_v37_apply, val_main_c_7_apply, v5_eq]
  have hc : ¬ IntOp.cmpi .slt (srcT ei e) 0#32 = 1#1 := by
    rw [IntOp.cmpi_slt, BitVec.toInt_zero]; omega
  rw [eq_zero_of_ne_one hc, select_zero]

theorem rowOf_spec (ei : IVec S2x160000 32)
    (h : ∀ e, 0 ≤ (Cert.KernelIdeal.Hand.srcT ei e).toInt ∧ (Cert.KernelIdeal.Hand.srcT ei e).toInt < 10000) :
    ∀ e, (Cert.KernelIdeal.Hand.srcT ei e).toInt = ((rowOf ei e).val : Int) := by
  intro e
  show _ = ((min (val_main_v41 (F := Ideal) ei e).toInt.toNat 9999 : Nat) : Int)
  rw [v41_apply_of_nonneg ei e (h e).1]
  have := h e
  omega

theorem layer_core (ei : EI) (H : MX) (z : MX) (hz : ∀ i, z i = 0)
    (si gi : (⟨S170000x1, .i32⟩ : BufTy).Contents (Elt Ideal))
    (hsi : ∀ e : Fin 170000, si (ix2 e 0) = dstT ei (ix1 e))
    (hgi : ∀ e : Fin 170000, gi (ix2 e 0) = val_main_v41 (F := Ideal) ei (ix1 e))
    (nb : (⟨S170000x512, .f32⟩ : BufTy).Contents (Elt Ideal))
    (hnb : ∀ (e : Fin 170000) (j : Fin 512), nb (ix2 e j) = nrmT (F := Ideal) ei (ix1 e))
    (r : Fin 10000) (c : Fin 512) :
    Host.scatterAdd (F := Ideal) (φ := .f32) scatter_S10000x512_S170000x1_S170000x512_1_0_0_1 z si
        (mulf (F := Ideal) (φ := .f32) (Host.gather gather_S10000x512_S170000x1_S170000x512_1_0_n_n_0_1_1512 H gi) nb) (ix2 r c)
      = Cert.Spec.agg (dstT ei) (rowOf ei) (nrmT (F := Ideal) ei) H (ix2 r c) := by
  refine scatterRows_eq_agg scatter_S10000x512_S170000x1_S170000x512_1_0_0_1 rfl rfl rfl rfl z hz si (dstT ei) hsi _
    (rowOf ei) (nrmT (F := Ideal) ei) H ?_ r c
  intro e j
  rw [mulf_apply, hnb,
    Cert.ScatterLib.gatherRows_apply (by omega) gather_S10000x512_S170000x1_S170000x512_1_0_n_n_0_1_1512 rfl rfl rfl rfl rfl rfl rfl]
  refine congrArg (· * nrmT (F := Ideal) ei (ix1 e)) (congrArg H ?_)
  funext a
  match a with
  | ⟨0, _⟩ =>
    refine Fin.ext ?_
    show min (gi (ix2 e 0)).toInt.toNat (10000 - 1) = min (val_main_v41 (F := Ideal) ei (ix1 e)).toInt.toNat 9999
    rw [hgi]
  | ⟨1, _⟩ => rfl

theorem zero_v47 (i : S10000x512.Idx) : val_main_v47 (F := Ideal) i = 0 := by
  rw [val_main_v47_apply, val_main_cst_9_apply, Ideal.ofBits_def, Ideal.ofBits_zero_f32]

theorem zero_v90 (i : S10000x512.Idx) : val_main_v90 (F := Ideal) i = 0 := by
  rw [val_main_v90_apply, val_main_cst_20_apply, Ideal.ofBits_def, Ideal.ofBits_zero_f32]

theorem v48_col (ei : EI) (e : Fin 170000) : val_main_v48 (F := Ideal) ei (ix2 e 0) = dstT ei (ix1 e) := by
  rw [val_main_v48_apply, v6_eq]
  exact congrArg (dstT ei) (funext fun a => match a with | ⟨0, _⟩ => rfl)

theorem v91_col (ei : EI) (e : Fin 170000) : val_main_v91 (F := Ideal) ei (ix2 e 0) = dstT ei (ix1 e) := by
  rw [val_main_v91_apply, v6_eq]
  exact congrArg (dstT ei) (funext fun a => match a with | ⟨0, _⟩ => rfl)

theorem v42_col (ei : EI) (e : Fin 170000) :
    val_main_v42 (F := Ideal) ei (ix2 e 0) = val_main_v41 (F := Ideal) ei (ix1 e) := by
  rw [val_main_v42_apply]
  exact congrArg (val_main_v41 (F := Ideal) ei) (funext fun a => match a with | ⟨0, _⟩ => rfl)

theorem v85_col (ei : EI) (e : Fin 170000) :
    val_main_v85 (F := Ideal) ei (ix2 e 0) = val_main_v41 (F := Ideal) ei (ix1 e) := by
  rw [val_main_v85_apply, v84_eq]
  exact congrArg (val_main_v41 (F := Ideal) ei) (funext fun a => match a with | ⟨0, _⟩ => rfl)

theorem v45_row (ei : EI) (e : Fin 170000) (j : Fin 512) :
    val_main_v45 (F := Ideal) ei (ix2 e j) = nrmT (F := Ideal) ei (ix1 e) := by
  rw [val_main_v45_apply, val_main_v44_apply, v36_eq]
  exact congrArg (nrmT (F := Ideal) ei) (funext fun a => match a with | ⟨0, _⟩ => rfl)

theorem v88_row (ei : EI) (e : Fin 170000) (j : Fin 512) :
    val_main_v88 (F := Ideal) ei (ix2 e j) = nrmT (F := Ideal) ei (ix1 e) := by
  rw [val_main_v88_apply, val_main_v87_apply, v79_eq]
  exact congrArg (nrmT (F := Ideal) ei) (funext fun a => match a with | ⟨0, _⟩ => rfl)

theorem v49_apply (x : MX) (ei : EI) (W1 : MW) (r : Fin 10000) (c : Fin 512) :
    val_main_v49 (F := Ideal) x ei W1 (ix2 r c)
      = Cert.Spec.agg (dstT ei) (rowOf ei) (nrmT (F := Ideal) ei) (val_main_v11 (F := Ideal) x W1) (ix2 r c) := by
  unfold val_main_v49 val_main_v46 val_main_v43
  exact layer_core ei (val_main_v11 (F := Ideal) x W1) _ zero_v47 _ _ (v48_col ei) (v42_col ei) _ (v45_row ei) r c

theorem v92_apply (x : MX) (ei : EI) (W1 : MW) (b1 : VB) (W2 : MW) (r : Fin 10000) (c : Fin 512) :
    val_main_v92 (F := Ideal) x ei W1 b1 W2 (ix2 r c)
      = Cert.Spec.agg (dstT ei) (rowOf ei) (nrmT (F := Ideal) ei) (val_main_v54 (F := Ideal) x ei W1 b1 W2) (ix2 r c) := by
  unfold val_main_v92 val_main_v89 val_main_v86
  exact layer_core ei (val_main_v54 (F := Ideal) x ei W1 b1 W2) _ zero_v90 _ _ (v91_col ei) (v85_col ei) _ (v88_row ei) r c

theorem v52_eq (x : MX) (ei : EI) (W1 : MW) (b1 : VB) :
    val_main_v52 (F := Ideal) x ei W1 b1 = Cert.Model.layerR ei (rowOf ei) (val_main_v11 (F := Ideal) x W1) b1 := by
  funext i
  obtain ⟨r, c, rfl⟩ : ∃ (r : Fin 10000) (c : Fin 512), i = ix2 r c := ⟨i 0, i 1, eq_ix2 i⟩
  rw [val_main_v52_apply, v49_apply, val_main_v51_apply, val_main_v50_apply]
  exact congrArg (Cert.Spec.agg (dstT ei) (rowOf ei) (nrmT (F := Ideal) ei) (val_main_v11 (F := Ideal) x W1) (ix2 r c) + ·)
    (congrArg b1 (funext fun a => match a with | ⟨0, _⟩ => rfl))

theorem v95_layer (x : MX) (ei : EI) (W1 : MW) (b1 : VB) (W2 : MW) (b2 : VB) :
    val_main_v95 (F := Ideal) x ei W1 b1 W2 b2 = Cert.Model.layerR ei (rowOf ei) (val_main_v54 (F := Ideal) x ei W1 b1 W2) b2 := by
  funext i
  obtain ⟨r, c, rfl⟩ : ∃ (r : Fin 10000) (c : Fin 512), i = ix2 r c := ⟨i 0, i 1, eq_ix2 i⟩
  rw [val_main_v95_apply, v92_apply, val_main_v94_apply, val_main_v93_apply]
  exact congrArg (Cert.Spec.agg (dstT ei) (rowOf ei) (nrmT (F := Ideal) ei) (val_main_v54 (F := Ideal) x ei W1 b1 W2) (ix2 r c) + ·)
    (congrArg b2 (funext fun a => match a with | ⟨0, _⟩ => rfl))

theorem v53_apply (x : MX) (ei : EI) (W1 : MW) (b1 : VB) (i : S10000x512.Idx) :
    val_main_v53 (F := Ideal) x ei W1 b1 i = max (val_main_v52 (F := Ideal) x ei W1 b1 i) 0 := by
  rw [val_main_v53_apply, val_main_call1_v0_apply, val_main_call1_cst_apply, Ideal.ofBits_def, Ideal.ofBits_zero_f32]
  rfl

theorem v11_apply (x : MX) (W1 : MW) (r : Fin 10000) (j : Fin 512) :
    val_main_v11 (F := Ideal) x W1 (ix2 r j) = ∑ k : Fin 512, x (ix2 r k) * W1 (ix2 k j) := by
  rw [val_main_v11_apply]
  refine Finset.sum_congr rfl fun k _ => ?_
  have hl : lidx_main_v11 (ix2 r j) k = ix2 r k := funext fun a => match a with | ⟨0, _⟩ => rfl | ⟨1, _⟩ => rfl
  have hr : ridx_main_v11 (ix2 r j) k = ix2 k j := funext fun a => match a with | ⟨0, _⟩ => rfl | ⟨1, _⟩ => rfl
  rw [hl, hr]

theorem v54_apply (x : MX) (ei : EI) (W1 : MW) (b1 : VB) (W2 : MW) (r : Fin 10000) (j : Fin 512) :
    val_main_v54 (F := Ideal) x ei W1 b1 W2 (ix2 r j)
      = ∑ k : Fin 512, val_main_v53 (F := Ideal) x ei W1 b1 (ix2 r k) * W2 (ix2 k j) := by
  rw [val_main_v54_apply]
  refine Finset.sum_congr rfl fun k _ => ?_
  have hl : lidx_main_v54 (ix2 r j) k = ix2 r k := funext fun a => match a with | ⟨0, _⟩ => rfl | ⟨1, _⟩ => rfl
  have hr : ridx_main_v54 (ix2 r j) k = ix2 k j := funext fun a => match a with | ⟨0, _⟩ => rfl | ⟨1, _⟩ => rfl
  rw [hl, hr]

theorem v96_apply (x : MX) (ei : EI) (W1 : MW) (b1 : VB) (W2 : MW) (b2 : VB) (Wc : MC) (d : Fin 10000) (j : Fin 64) :
    val_main_v96 (F := Ideal) x ei W1 b1 W2 b2 Wc (ix2 d j)
      = ∑ k : Fin 512, val_main_v95 (F := Ideal) x ei W1 b1 W2 b2 (ix2 d k) * Wc (ix2 k j) := by
  rw [val_main_v96_apply]
  refine Finset.sum_congr rfl fun k _ => ?_
  have hl : lidx_main_v96 (ix2 d j) k = ix2 d k := funext fun a => match a with | ⟨0, _⟩ => rfl | ⟨1, _⟩ => rfl
  have hr : ridx_main_v96 (ix2 d j) k = ix2 k j := funext fun a => match a with | ⟨0, _⟩ => rfl | ⟨1, _⟩ => rfl
  rw [hl, hr]

theorem v99_apply (x : MX) (ei : EI) (W1 : MW) (b1 : VB) (W2 : MW) (b2 : VB) (Wc : MC) (bc : VC) (d : Fin 10000) (j : Fin 64) :
    val_main_v99 (F := Ideal) x ei W1 b1 W2 b2 Wc bc (ix2 d j)
      = (∑ k : Fin 512, val_main_v95 (F := Ideal) x ei W1 b1 W2 b2 (ix2 d k) * Wc (ix2 k j)) + bc (ix1 j) := by
  rw [val_main_v99_apply, v96_apply, val_main_v98_apply, val_main_v97_apply]
  exact congrArg ((∑ k : Fin 512, val_main_v95 (F := Ideal) x ei W1 b1 W2 b2 (ix2 d k) * Wc (ix2 k j)) + ·)
    (congrArg bc (funext fun a => match a with | ⟨0, _⟩ => rfl))

theorem v11_eq (x : MX) (W1 : MW) : val_main_v11 (F := Ideal) x W1 = Cert.Model.mm x W1 := by
  funext i
  obtain ⟨r, j, rfl⟩ : ∃ (r : Fin 10000) (j : Fin 512), i = ix2 r j := ⟨i 0, i 1, eq_ix2 i⟩
  rw [v11_apply]
  rfl

theorem v53_eq (x : MX) (ei : EI) (W1 : MW) (b1 : VB) :
    val_main_v53 (F := Ideal) x ei W1 b1 = Cert.Model.refH1 ei (rowOf ei) x W1 b1 := by
  funext i
  rw [v53_apply, v52_eq, v11_eq]
  rfl

theorem v54_eq (x : MX) (ei : EI) (W1 : MW) (b1 : VB) (W2 : MW) :
    val_main_v54 (F := Ideal) x ei W1 b1 W2 = Cert.Model.mm (Cert.Model.refH1 ei (rowOf ei) x W1 b1) W2 := by
  funext i
  obtain ⟨r, j, rfl⟩ : ∃ (r : Fin 10000) (j : Fin 512), i = ix2 r j := ⟨i 0, i 1, eq_ix2 i⟩
  rw [v54_apply, v53_eq]
  rfl

theorem v95_eq (x : MX) (ei : EI) (W1 : MW) (b1 : VB) (W2 : MW) (b2 : VB) :
    val_main_v95 (F := Ideal) x ei W1 b1 W2 b2 = Cert.Model.refH2 ei (rowOf ei) x W1 b1 W2 b2 := by
  rw [v95_layer, v54_eq]
  rfl

theorem v99_eq (x0 : MX) (x1 : EI) (x2 : MW) (x3 : VB) (x4 : MW) (x5 : VB) (x6 : MC) (x7 : VC) :
    Cert.ReferenceIdeal.ReadP.val_main_v99 (F := Ideal) x0 x1 x2 x3 x4 x5 x6 x7
      = Cert.Model.refLogits x1 (rowOf x1) x0 x2 x3 x4 x5 x6 x7 := by
  funext i
  obtain ⟨d, j, rfl⟩ : ∃ (d : Fin 10000) (j : Fin 64), i = ix2 d j := ⟨i 0, i 1, eq_ix2 i⟩
  rw [v99_apply, v95_eq]
  rfl

def lsmShift (x : FVec Ideal S10000x64 .f32) : FVec Ideal S10000x64 .f32 :=
  subf x (broadcastInDim S10000x64 ![0, 1] bcast_S10000x1_S10000x64_0_1
    (broadcastInDim S10000x1 ![0] bcast_S10000_S10000x1_0
      (maximumf (broadcastInDim S10000 ![] bcast_S_S10000 (constant S_ .f32 0xFF800000#32))
        (Host.reduce FloatOps.maximumf x (constant S_ .f32 0xFF800000#32) reducesTo_S10000x64_S10000_d1 h_S_))))

def lsmR (x : FVec Ideal S10000x64 .f32) : FVec Ideal S10000x64 .f32 :=
  subf (lsmShift x) (broadcastInDim S10000x64 ![0, 1] bcast_S10000x1_S10000x64_0_1
    (Host.log (broadcastInDim S10000x1 ![0] bcast_S10000_S10000x1_0
      (Host.reduceAdd (Host.exp (lsmShift x)) (constant S_ .f32 0x00000000#32) reducesTo_S10000x64_S10000_d1 h_S_))))

theorem v100_eq (x : MX) (ei : EI) (W1 : MW) (b1 : VB) (W2 : MW) (b2 : VB) (Wc : MC) (bc : VC) :
    val_main_v100 (F := Ideal) x ei W1 b1 W2 b2 Wc bc = lsmR (val_main_v99 (F := Ideal) x ei W1 b1 W2 b2 Wc bc) := rfl

theorem lsmR_eq : lsmR = Cert.KernelIdeal.Hand.lsmT (F := Ideal) := rfl

end Cert.RefVal

end
-- ==== Proof.Bridge.lean ====
import proofs.«408842_j29429115912637_1_alg».proof.Defs
import proofs.«408842_j29429115912637_1_alg».proof.Proof.KI.KVal
import proofs.«408842_j29429115912637_1_alg».proof.Proof.KI.Norm
import proofs.«408842_j29429115912637_1_alg».proof.Proof.RefVal
import proofs.«408842_j29429115912637_1_alg».proof.Proof.RefRun
import proofs.«408842_j29429115912637_1_alg».proof.Proof.Model
import proofs.«408842_j29429115912637_1_alg».proof.Proof.Gen.Kernel
import proofs.«408842_j29429115912637_1_alg».proof.Proof.Gen.Pre_finite_inputs

noncomputable section

namespace Cert.Bridge

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

theorem kernel_logits (hr : ∀ k, 0 ≤ ((m ((c : Thread nD τ).loc main_arg1)) k).toInt ∧ ((m ((c : Thread nD τ).loc main_arg1)) k).toInt < 10000) :
    V16 m c main_v64 = Cert.ReferenceIdeal.ReadP.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [V16_v64, v63_eq, Cert.RefVal.v99_eq]
  funext i
  obtain ⟨d, j, rfl⟩ : ∃ (d : Fin 10000) (j : Fin 64), i = ix2 d j := ⟨i 0, i 1, eq_ix2 i⟩
  refine (extractStridedSlice_apply _ _ _ (ix2 d j) (ix2 ⟨d.val, by omega⟩ j) (fun a => by
    match a with
    | ⟨0, _⟩ => show d.val = 0 + d.val; omega
    | ⟨1, _⟩ => show j.val = 0 + j.val; omega)).trans ?_
  exact Cert.Model.lpK_eq_refLogits _ (Cert.RefVal.rowOf _) _ _ _ _ _ _ _ (adjT_eq _ hr) (nrmT_nonneg _)
    (Cert.RefVal.rowOf_spec _ (srcT_range _ hr)) (xpadT_apply_lt _) d j

theorem kernel_logprobs (hr : ∀ k, 0 ≤ ((m ((c : Thread nD τ).loc main_arg1)) k).toInt ∧ ((m ((c : Thread nD τ).loc main_arg1)) k).toInt < 10000) :
    V16 m c main_v65 = Cert.ReferenceIdeal.ReadP.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [V16_v65, kernel_logits m c hr, Cert.RefVal.v100_eq, Cert.RefVal.lsmR_eq]

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => V16 m c main_v64, fun c => V16 m c main_v65, ?_, ?_⟩
  · exact (θ_run defs _ _).mono (fun _ h c => ⟨h c _ (mem_uc main_v64 (by decide)), h c _ (mem_uc main_v65 (by decide)),
      (h c _ (mem_uc main_arg0 (by decide))).trans (W16_arg m c main_arg0 (by decide)),
      (h c _ (mem_uc main_arg1 (by decide))).trans (W16_arg m c main_arg1 (by decide)),
      (h c _ (mem_uc main_arg2 (by decide))).trans (W16_arg m c main_arg2 (by decide)),
      (h c _ (mem_uc main_arg3 (by decide))).trans (W16_arg m c main_arg3 (by decide)),
      (h c _ (mem_uc main_arg4 (by decide))).trans (W16_arg m c main_arg4 (by decide)),
      (h c _ (mem_uc main_arg5 (by decide))).trans (W16_arg m c main_arg5 (by decide)),
      (h c _ (mem_uc main_arg6 (by decide))).trans (W16_arg m c main_arg6 (by decide)),
      (h c _ (mem_uc main_arg7 (by decide))).trans (W16_arg m c main_arg7 (by decide))⟩) (run_all m ρ)
  · have hr : ∀ c : Dev nD, ∀ k, 0 ≤ ((m ((c : Thread nD τ).loc main_arg1)) k).toInt ∧ ((m ((c : Thread nD τ).loc main_arg1)) k).toInt < 10000 :=
      fun c => ei_range_of_pre _ _ _ _ _ _ _ _ (hpre c)
    refine (θ_run Cert.ReferenceIdeal.defs _ _).mono (fun _ h c => ⟨(h c).1.trans ?_, (h c).2.1.trans ?_, (h c).2.2⟩)
      (Cert.ReferenceIdeal.ValueP.run (F := Ideal) m' ρ')
    · rw [(hagree c).1, (hagree c).2.1, (hagree c).2.2.1, (hagree c).2.2.2.1,
        (hagree c).2.2.2.2.1, (hagree c).2.2.2.2.2.1, (hagree c).2.2.2.2.2.2.1, (hagree c).2.2.2.2.2.2.2]
      exact (kernel_logits m c (hr c)).symm
    · rw [(hagree c).1, (hagree c).2.1, (hagree c).2.2.1, (hagree c).2.2.2.1,
        (hagree c).2.2.2.2.1, (hagree c).2.2.2.2.2.1, (hagree c).2.2.2.2.2.2.1, (hagree c).2.2.2.2.2.2.2]
      exact (kernel_logprobs m c (hr c)).symm

end Cert.Bridge

end
-- ==== Proof.lean ====
/- The kernel multiplies by the dense normalized adjacency matrix of the edge list; the reference sums, for each target node, the weighted
   source rows of its edges. Over the extended reals both give the same logits and log-softmax when every edge entry is a node index. -/
import proofs.«408842_j29429115912637_1_alg».proof.Defs
import proofs.«408842_j29429115912637_1_alg».proof.Proof.Gen.Kernel
import proofs.«408842_j29429115912637_1_alg».proof.Proof.Gen.KernelIdeal
import proofs.«408842_j29429115912637_1_alg».proof.Proof.Gen.ReferenceIdeal
import proofs.«408842_j29429115912637_1_alg».proof.Proof.Gen.Pre_finite_inputs
import proofs.«408842_j29429115912637_1_alg».proof.Proof.KB.Run
import proofs.«408842_j29429115912637_1_alg».proof.Proof.KI.Run
import proofs.«408842_j29429115912637_1_alg».proof.Proof.RefRun
import proofs.«408842_j29429115912637_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
